-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S512x1024 .f32 .bf16
  ∧ IdealRules.truncf_extf.Statement Cert.KernelIdeal.S1024x1024 .f32 .bf16
  ∧ IdealRules.truncf_extf.Statement Cert.KernelIdeal.S512x1024 .f32 .bf16
  ∧ IdealRules.truncf_extf.Statement Cert.KernelIdeal.S1024x1024 .f32 .bf16
  ∧ IdealRules.truncf_extf.Statement Cert.KernelIdeal.S1x512 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x512 : Shape := ⟨2, ![32, 512]⟩
abbrev S32 : Shape := ⟨1, ![32]⟩
abbrev S32x100 : Shape := ⟨2, ![32, 100]⟩
abbrev S5x1024x1024 : Shape := ⟨3, ![5, 1024, 1024]⟩
abbrev S5x1024 : Shape := ⟨2, ![5, 1024]⟩
abbrev S1124x512 : Shape := ⟨2, ![1124, 512]⟩
abbrev S512 : Shape := ⟨1, ![512]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32x100 : S_.BroadcastsInDim S32x100 (![] : Fin 0 → Fin S32x100.rank)
  reducesTo_S32x100_S_d0_1 : S32x100.ReducesTo [0, 1] S_
  bcast_S_S5x1024x1024 : S_.BroadcastsInDim S5x1024x1024 (![] : Fin 0 → Fin S5x1024x1024.rank)
  reducesTo_S5x1024x1024_S_d0_1_2 : S5x1024x1024.ReducesTo [0, 1, 2] S_
  bcast_S_S5x1024 : S_.BroadcastsInDim S5x1024 (![] : Fin 0 → Fin S5x1024.rank)
  reducesTo_S5x1024_S_d0_1 : S5x1024.ReducesTo [0, 1] S_
  bcast_S_S1124x512 : S_.BroadcastsInDim S1124x512 (![] : Fin 0 → Fin S1124x512.rank)
  reducesTo_S1124x512_S_d0_1 : S1124x512.ReducesTo [0, 1] S_
  bcast_S_S512 : S_.BroadcastsInDim S512 (![] : Fin 0 → Fin S512.rank)
  reducesTo_S512_S_d0 : S512.ReducesTo [0] S_
  reducesTo_S32x512_S32_d1 : S32x512.ReducesTo [1] S32
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v66 : IVec S32 1) (main_c_26 : IVec S_ 1) : IVec S_ 1 :=
  let main_v67 : IVec S_ 1 := (fun x v => Host.reduce IntOp.andi x v reducesTo_S32_S_d0 h_S_) main_v66 main_c_26
  let main_v68 : IVec S_ 1 := andi main_v63 main_v67
  main_v68

def fn_part3 {F : FTy → Type} [FloatOps F] (main_arg1 : FVec F S32x512 .f32) (main_arg12 : FVec F S512 .f32) (main_arg13 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_cst_24 : FVec F S_ .f32 := constant S_ .f32 0x00000000#32
  let main_v64 : FVec F S32 .f32 := (fun x v => Host.reduceAdd x v reducesTo_S32x512_S32_d1 h_S_) main_arg1 main_cst_24
  let main_cst_25 : FVec F S_ .f32 := constant S_ .f32 0x00000000#32
  let main_v65 : FVec F S32 .f32 := broadcastInDim S32 ![] bcast_S_S32 main_cst_25
  let main_v66 : IVec S32 1 := cmpf .une main_v64 main_v65
  let main_c_26 : IVec S_ 1 := constantI S_ 1 1#1
  fn_part4 (F := F) main_v63 main_v66 main_c_26

def fn_part2 {F : FTy → Type} [FloatOps F] (main_arg1 : FVec F S32x512 .f32) (main_arg8 : FVec F S5x1024x1024 .f32) (main_arg9 : FVec F S5x1024 .f32) (main_arg10 : FVec F S1124x512 .f32) (main_arg11 : FVec F S512 .f32) (main_arg12 : FVec F S512 .f32) (main_arg13 : FVec F S512 .f32) (main_v33 : IVec S_ 1) : IVec S_ 1 :=
  let main_v34 : FVec F S5x1024x1024 .f32 := Host.absf main_arg8
  let main_cst_12 : FVec F S_ .f32 := constant S_ .f32 0x7F800000#32
  let main_v35 : FVec F S5x1024x1024 .f32 := broadcastInDim S5x1024x1024 ![] bcast_S_S5x1024x1024 main_cst_12
  let main_v36 : IVec S5x1024x1024 1 := cmpf .olt main_v34 main_v35
  let main_c_13 : IVec S_ 1 := constantI S_ 1 1#1
  let main_v37 : IVec S_ 1 := (fun x v => Host.reduce IntOp.andi x v reducesTo_S5x1024x1024_S_d0_1_2 h_S_) main_v36 main_c_13
  let main_v38 : IVec S_ 1 := andi main_v33 main_v37
  let main_v39 : FVec F S5x1024 .f32 := Host.absf main_arg9
  let main_cst_14 : FVec F S_ .f32 := constant S_ .f32 0x7F800000#32
  let main_v40 : FVec F S5x1024 .f32 := broadcastInDim S5x1024 ![] bcast_S_S5x1024 main_cst_14
  let main_v41 : IVec S5x1024 1 := cmpf .olt main_v39 main_v40
  let main_c_15 : IVec S_ 1 := constantI S_ 1 1#1
  let main_v42 : IVec S_ 1 := (fun x v => Host.reduce IntOp.andi x v reducesTo_S5x1024_S_d0_1 h_S_) main_v41 main_c_15
  let main_v43 : IVec S_ 1 := andi main_v38 main_v42
  let main_v44 : FVec F S1124x512 .f32 := Host.absf main_arg10
  let main_cst_16 : FVec F S_ .f32 := constant S_ .f32 0x7F800000#32
  let main_v45 : FVec F S1124x512 .f32 := broadcastInDim S1124x512 ![] bcast_S_S1124x512 main_cst_16
  let main_v46 : IVec S1124x512 1 := cmpf .olt main_v44 main_v45
  let main_c_17 : IVec S_ 1 := constantI S_ 1 1#1
  let main_v47 : IVec S_ 1 := (fun x v => Host.reduce IntOp.andi x v reducesTo_S1124x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg1 main_arg12 main_arg13 main_v48 main_v49 main_v50

def fn_part1 {F : FTy → Type} [FloatOps F] (main_arg1 : FVec F S32x512 .f32) (main_arg5 : FVec F S5x1024 .f32) (main_arg6 : FVec F S5x1024 .f32) (main_arg7 : FVec F S5x1024 .f32) (main_arg8 : FVec F S5x1024x1024 .f32) (main_arg9 : FVec F S5x1024 .f32) (main_arg10 : FVec F S1124x512 .f32) (main_arg11 : FVec F S512 .f32) (main_arg12 : FVec F S512 .f32) (main_arg13 : FVec F S512 .f32) (main_v13 : IVec S_ 1) (main_v16 : IVec S5x1024x1024 1) : IVec S_ 1 :=
  let main_c_5 : IVec S_ 1 := constantI S_ 1 1#1
  let main_v17 : IVec S_ 1 := (fun x v => Host.reduce IntOp.andi x v reducesTo_S5x1024x1024_S_d0_1_2 h_S_) main_v16 main_c_5
  let main_v18 : IVec S_ 1 := andi main_v13 main_v17
  let main_v19 : FVec F S5x1024 .f32 := Host.absf main_arg5
  let main_cst_6 : FVec F S_ .f32 := constant S_ .f32 0x7F800000#32
  let main_v20 : FVec F S5x1024 .f32 := broadcastInDim S5x1024 ![] bcast_S_S5x1024 main_cst_6
  let main_v21 : IVec S5x1024 1 := cmpf .olt main_v19 main_v20
  let main_c_7 : IVec S_ 1 := constantI S_ 1 1#1
  let main_v22 : IVec S_ 1 := (fun x v => Host.reduce IntOp.andi x v reducesTo_S5x1024_S_d0_1 h_S_) main_v21 main_c_7
  let main_v23 : IVec S_ 1 := andi main_v18 main_v22
  let main_v24 : FVec F S5x1024 .f32 := Host.absf main_arg6
  let main_cst_8 : FVec F S_ .f32 := constant S_ .f32 0x7F800000#32
  let main_v25 : FVec F S5x1024 .f32 := broadcastInDim S5x1024 ![] bcast_S_S5x1024 main_cst_8
  let main_v26 : IVec S5x1024 1 := cmpf .olt main_v24 main_v25
  let main_c_9 : IVec S_ 1 := constantI S_ 1 1#1
  let main_v27 : IVec S_ 1 := (fun x v => Host.reduce IntOp.andi x v reducesTo_S5x1024_S_d0_1 h_S_) main_v26 main_c_9
  let main_v28 : IVec S_ 1 := andi main_v23 main_v27
  let main_v29 : FVec F S5x1024 .f32 := Host.absf main_arg7
  let main_cst_10 : FVec F S_ .f32 := constant S_ .f32 0x7F800000#32
  let main_v30 : FVec F S5x1024 .f32 := broadcastInDim S5x1024 ![] bcast_S_S5x1024 main_cst_10
  let main_v31 : IVec S5x1024 1 := cmpf .olt main_v29 main_v30
  let main_c_11 : IVec S_ 1 := constantI S_ 1 1#1
  let main_v32 : IVec S_ 1 := (fun x v => Host.reduce IntOp.andi x v reducesTo_S5x1024_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S32x512x1024 .f32) (main_arg1 : FVec F S32x512 .f32) (main_arg2 : IVec S32 32) (main_arg3 : FVec F S32x100 .f32) (main_arg4 : FVec F S5x1024x1024 .f32) (main_arg5 : FVec F S5x1024 .f32) (main_arg6 : FVec F S5x1024 .f32) (main_arg7 : FVec F S5x1024 .f32) (main_arg8 : FVec F S5x1024x1024 .f32) (main_arg9 : FVec F S5x1024 .f32) (main_arg10 : FVec F S1124x512 .f32) (main_arg11 : FVec F S512 .f32) (main_arg12 : FVec F S512 .f32) (main_arg13 : FVec F S512 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32x100 .f32 := Host.absf main_arg3
  let main_cst_2 : FVec F S_ .f32 := constant S_ .f32 0x7F800000#32
  let main_v10 : FVec F S32x100 .f32 := broadcastInDim S32x100 ![] bcast_S_S32x100 main_cst_2
  let main_v11 : IVec S32x100 1 := cmpf .olt main_v9 main_v10
  let main_c_3 : IVec S_ 1 := constantI S_ 1 1#1
  let main_v12 : IVec S_ 1 := (fun x v => Host.reduce IntOp.andi x v reducesTo_S32x100_S_d0_1 h_S_) main_v11 main_c_3
  let main_v13 : IVec S_ 1 := andi main_v8 main_v12
  let main_v14 : FVec F S5x1024x1024 .f32 := Host.absf main_arg4
  let main_cst_4 : FVec F S_ .f32 := constant S_ .f32 0x7F800000#32
  let main_v15 : FVec F S5x1024x1024 .f32 := broadcastInDim S5x1024x1024 ![] bcast_S_S5x1024x1024 main_cst_4
  let main_v16 : IVec S5x1024x1024 1 := cmpf .olt main_v14 main_v15
  fn_part1 (F := F) main_arg1 main_arg5 main_arg6 main_arg7 main_arg8 main_arg9 main_arg10 main_arg11 main_arg12 main_arg13 main_v13 main_v16
-- ==== Kernel.lean ====
abbrev S32x512x1024 : Shape := ⟨3, ![32, 512, 1024]⟩
abbrev S32x512 : Shape := ⟨2, ![32, 512]⟩
abbrev S32 : Shape := ⟨1, ![32]⟩
abbrev S32x100 : Shape := ⟨2, ![32, 100]⟩
abbrev S5x1024x1024 : Shape := ⟨3, ![5, 1024, 1024]⟩
abbrev S5x1024 : Shape := ⟨2, ![5, 1024]⟩
abbrev S1124x512 : Shape := ⟨2, ![1124, 512]⟩
abbrev S512 : Shape := ⟨1, ![512]⟩
abbrev S_ : Shape := ⟨0, ![]⟩
abbrev S32x1 : Shape := ⟨2, ![32, 1]⟩
abbrev S32x1x512 : Shape := ⟨3, ![32, 1, 512]⟩
abbrev S5x1x1024 : Shape := ⟨3, ![5, 1, 1024]⟩
abbrev S32x1024 : Shape := ⟨2, ![32, 1024]⟩
abbrev S1x512x1024 : Shape := ⟨3, ![1, 512, 1024]⟩
abbrev S1 : Shape := ⟨1, ![1]⟩
abbrev S1x1x512 : Shape := ⟨3, ![1, 1, 512]⟩
abbrev S1x1024x1024 : Shape := ⟨3, ![1, 1024, 1024]⟩
abbrev S1x1x1024 : Shape := ⟨3, ![1, 1, 1024]⟩
abbrev S8x1024 : Shape := ⟨2, ![8, 1024]⟩
abbrev S512x1024 : Shape := ⟨2, ![512, 1024]⟩
abbrev S1x512 : Shape := ⟨2, ![1, 512]⟩
abbrev S1024x1024 : Shape := ⟨2, ![1024, 1024]⟩
abbrev S1x1024 : Shape := ⟨2, ![1, 1024]⟩
abbrev S512x1 : Shape := ⟨2, ![512, 1]⟩
abbrev S1x1x1 : Shape := ⟨3, ![1, 1, 1]⟩
abbrev S1024 : Shape := ⟨1, ![1024]⟩
abbrev S32x1124 : Shape := ⟨2, ![32, 1124]⟩

abbrev nBuf : Space → Nat
  | .hbm => 107
  | .vmem => 18
  | .smem => 2
  | _ => 0

abbrev bufTy : (tb : Table) → Fin (tcTables nBuf tb) → BufTy
  | .hbm, ⟨0, _⟩ => ⟨S32x512x1024, .f32⟩
  | .hbm, ⟨1, _⟩ => ⟨S32x512, .f32⟩
  | .hbm, ⟨2, _⟩ => ⟨S32, .i32⟩
  | .hbm, ⟨3, _⟩ => ⟨S32x100, .f32⟩
  | .hbm, ⟨4, _⟩ => ⟨S5x1024x1024, .f32⟩
  | .hbm, ⟨5, _⟩ => ⟨S5x1024, .f32⟩
  | .hbm, ⟨6, _⟩ => ⟨S5x1024, .f32⟩
  | .hbm, ⟨7, _⟩ => ⟨S5x1024, .f32⟩
  | .hbm, ⟨8, _⟩ => ⟨S5x1024x1024, .f32⟩
  | .hbm, ⟨9, _⟩ => ⟨S5x1024, .f32⟩
  | .hbm, ⟨10, _⟩ => ⟨S1124x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S32x1, .i32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S32x1, .i32⟩
  | .hbm, ⟨47, _⟩ => ⟨S32, .i1⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S32x1x512, .f32⟩
  | .hbm, ⟨52, _⟩ => ⟨S5x1x1024, .f32⟩
  | .hbm, ⟨53, _⟩ => ⟨S5x1x1024, .f32⟩
  | .hbm, ⟨54, _⟩ => ⟨S5x1x1024, .f32⟩
  | .hbm, ⟨55, _⟩ => ⟨S5x1x1024, .f32⟩
  | .hbm, ⟨56, _⟩ => ⟨S32x1024, .f32⟩
  | .hbm, ⟨57, _⟩ => ⟨S32x1, .i1⟩
  | .hbm, ⟨58, _⟩ => ⟨S32x1, .f32⟩
  | .hbm, ⟨59, _⟩ => ⟨S32x1024, .f32⟩
  | .hbm, ⟨60, _⟩ => ⟨S32x1024, .f32⟩
  | .hbm, ⟨61, _⟩ => ⟨S_, .i32⟩
  | .hbm, ⟨62, _⟩ => ⟨S32, .i32⟩
  | .hbm, ⟨63, _⟩ => ⟨S32, .i1⟩
  | .hbm, ⟨64, _⟩ => ⟨S_, .i32⟩
  | .hbm, ⟨65, _⟩ => ⟨S32, .i32⟩
  | .hbm, ⟨66, _⟩ => ⟨S32, .i32⟩
  | .hbm, ⟨67, _⟩ => ⟨S32, .i32⟩
  | .hbm, ⟨68, _⟩ => ⟨S32x1, .i32⟩
  | .hbm, ⟨69, _⟩ => ⟨S32x1024, .f32⟩
  | .hbm, ⟨70, _⟩ => ⟨S32x1124, .f32⟩
  | .hbm, ⟨71, _⟩ => ⟨S32x512, .f32⟩
  | .hbm, ⟨72, _⟩ => ⟨S1x512, .f32⟩
  | .hbm, ⟨73, _⟩ => ⟨S32x512, .f32⟩
  | .hbm, ⟨74, _⟩ => ⟨S32x512, .f32⟩
  | .hbm, ⟨75, _⟩ => ⟨S_, .f32⟩
  | .hbm, ⟨76, _⟩ => ⟨S32, .f32⟩
  | .hbm, ⟨77, _⟩ => ⟨S32x1, .f32⟩
  | .hbm, ⟨78, _⟩ => ⟨S_, .f32⟩
  | .hbm, ⟨79, _⟩ => ⟨S32x1, .f32⟩
  | .hbm, ⟨80, _⟩ => ⟨S32x1, .f32⟩
  | .hbm, ⟨81, _⟩ => ⟨S32x512, .f32⟩
  | .hbm, ⟨82, _⟩ => ⟨S32x512, .f32⟩
  | .hbm, ⟨83, _⟩ => ⟨S32x512, .f32⟩
  | .hbm, ⟨84, _⟩ => ⟨S_, .f32⟩
  | .hbm, ⟨85, _⟩ => ⟨S32, .f32⟩
  | .hbm, ⟨86, _⟩ => ⟨S32x1, .f32⟩
  | .hbm, ⟨87, _⟩ => ⟨S_, .f32⟩
  | .hbm, ⟨88, _⟩ => ⟨S32x1, .f32⟩
  | .hbm, ⟨89, _⟩ => ⟨S32x1, .f32⟩
  | .hbm, ⟨90, _⟩ => ⟨S32x512, .f32⟩
  | .hbm, ⟨91, _⟩ => ⟨S32x512, .f32⟩
  | .hbm, ⟨92, _⟩ => ⟨S_, .f32⟩
  | .hbm, ⟨93, _⟩ => ⟨S32x1, .f32⟩
  | .hbm, ⟨94, _⟩ => ⟨S32x1, .f32⟩
  | .hbm, ⟨95, _⟩ => ⟨S32x1, .f32⟩
  | .hbm, ⟨96, _⟩ => ⟨S32x512, .f32⟩
  | .hbm, ⟨97, _⟩ => ⟨S32x512, .f32⟩
  | .hbm, ⟨98, _⟩ => ⟨S1x512, .f32⟩
  | .hbm, ⟨99, _⟩ => ⟨S32x512, .f32⟩
  | .hbm, ⟨100, _⟩ => ⟨S32x512, .f32⟩
  | .hbm, ⟨101, _⟩ => ⟨S1x512, .f32⟩
  | .hbm, ⟨102, _⟩ => ⟨S32x512, .f32⟩
  | .hbm, ⟨103, _⟩ => ⟨S32x512, .f32⟩
  | .hbm, ⟨104, _⟩ => ⟨S_, .f32⟩
  | .hbm, ⟨105, _⟩ => ⟨S32x512, .f32⟩
  | .hbm, ⟨106, _⟩ => ⟨S32x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x512, .f32⟩
  | .local _ .vmem, ⟨3, _⟩ => ⟨S1x1x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1x1024, .f32⟩
  | .local _ .vmem, ⟨15, _⟩ => ⟨S1x1x1024, .f32⟩
  | .local _ .vmem, ⟨16, _⟩ => ⟨S8x1024, .f32⟩
  | .local _ .vmem, ⟨17, _⟩ => ⟨S8x1024, .f32⟩
  | .local _ .smem, ⟨0, _⟩ => ⟨S32, .i32⟩
  | .local _ .smem, ⟨1, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v5 : Ref sig .tc := ⟨.hbm, 28, rfl⟩
abbrev main_call1_v0 : Ref sig .tc := ⟨.hbm, 29, rfl⟩
abbrev main_call1_v1_0 : Ref sig .tc := ⟨.hbm, 30, rfl⟩
abbrev main_c_3 : Ref sig .tc := ⟨.hbm, 31, rfl⟩
abbrev main_v7 : Ref sig .tc := ⟨.hbm, 32, rfl⟩
abbrev main_v8 : Ref sig .tc := ⟨.hbm, 33, rfl⟩
abbrev main_c_4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_5 : Ref sig .tc := ⟨.hbm, 39, rfl⟩
abbrev main_v14 : Ref sig .tc := ⟨.hbm, 40, rfl⟩
abbrev main_v15 : Ref sig .tc := ⟨.hbm, 41, rfl⟩
abbrev main_c_6 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call2_v0 : Ref sig .tc := ⟨.hbm, 48, rfl⟩
abbrev main_call2_v1_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call3_cst : Ref sig .tc := ⟨.hbm, 104, rfl⟩
abbrev main_call3_v0 : Ref sig .tc := ⟨.hbm, 105, rfl⟩
abbrev main_v68 : Ref sig .tc := ⟨.hbm, 106, rfl⟩
abbrev main_v6 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

abbrev pre0 : Pipeline.Prefetch sig := ⟨2, ![main_v6.idx, main_v13.idx], fun | 0 => main_v6.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v2 : Index := Scalar.indexCast v1
  ![v2.toNat]
def k0_off2 (i : grid0.Coords) : Fin 2 → Nat :=
  let arg1 : BitVec 32 := BitVec.ofNat 32 (i 1).val
  let v90 : Index := Scalar.indexCast arg1
  let c0_38 : Index := 0#32
  ![v90.toNat, 0]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 0 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 0 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x512_S32x1x512_0_2 : S32x512.BroadcastsInDim S32x1x512 (![0, 2] : Fin 2 → Fin S32x1x512.rank)
  bcast_S5x1024_S5x1x1024_0_2 : S5x1024.BroadcastsInDim S5x1x1024 (![0, 2] : Fin 2 → Fin S5x1x1024.rank)
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S1x512_S1x1x512 : S1x512.ShapeCasts S1x1x512
  reduces_S1x1x512_S1 : S1x1x512.Reduces [1, 2] S1
  shapeCasts_S1_S1x1x1 : S1.ShapeCasts S1x1x1
  inpos_S1x1x1_p0_0_0 : ∀ a, (![0, 0, 0] : Fin 3 → Nat) a < S1x1x1.size a
  shapeCasts_S1x1024_S1024 : S1x1024.ShapeCasts S1024
  h_S1x1024 : 0 < S1x1024.numel
  shapeCasts_S1024_S1x1024 : S1024.ShapeCasts S1x1024
  bcast_S32x1_S32x1024_0_1 : S32x1.BroadcastsInDim S32x1024 (![0, 1] : Fin 2 → Fin S32x1024.rank)
  concatenates_S32x1024_S32x100_S32x1124_d1 : Shape.Concatenates [S32x1024, S32x100] S32x1124 1
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  reducesTo_S32x512_S32_d1 : S32x512.ReducesTo [1] S32
  h_S_ : 0 < S_.numel
  bcast_S_S32x1 : S_.BroadcastsInDim S32x1 (![] : Fin 0 → Fin S32x1.rank)
  bcast_S32x1_S32x512_0_1 : S32x1.BroadcastsInDim S32x512 (![0, 1] : Fin 2 → Fin S32x512.rank)
  bcast_S_S32x512 : S_.BroadcastsInDim S32x512 (![] : Fin 0 → Fin S32x512.rank)
  gather_S32_S32x1_S32_n_0_n_n_0_1_1_wf : GatherDims.WF S32 S32x1 S32 [] [0] [] [0] [] 1 ![1]
  dot_S512x1024_S1024x1024_S512x1024_1_0_0_1_n_n_wf : DotDims.WF S512x1024 S1024x1024 S512x1024 [1] [0] [0] [1] [] []
  dot_S1x512_S512x1024_S1x1024_1_0_0_1_n_n_wf : DotDims.WF S1x512 S512x1024 S1x1024 [1] [0] [0] [1] [] []
  gather_S32x1024_S32x1_S32x1024_1_0_n_n_0_1_11024_wf : GatherDims.WF S32x1024 S32x1 S32x1024 [1] [0] [] [0] [] 1 ![1, 1024]
  dot_S32x1124_S1124x512_S32x512_1_0_0_1_n_n_wf : DotDims.WF S32x1124 S1124x512 S32x512 [1] [0] [0] [1] [] []
  hrank0 : 0 < grid0.rank
  k0_off1_inb : ∀ i : grid0.Coords, ∀ a, (k0_off1 i) a + S1.size a ≤ S32.size a
  k0_off2_inb : ∀ i : grid0.Coords, ∀ a, (k0_off2 i) a + S1x1024.size a ≤ S8x1024.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S32x1024.size a
  hwx0_8 : ∀ i : grid0.Coords, EltTy.bits .f32 = 32 ∨ (Rect.block (s := S32x1024) S8x1024.size (cc0_transform_8 i) (hinb0_8 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def gather_S32x1024_S32x1_S32x1024_1_0_n_n_0_1_11024 : GatherDims S32x1024 S32x1 S32x1024 where
  offsetDims := [1]
  collapsedSliceDims := [0]
  operandBatchingDims := []
  startIndicesBatchingDims := []
  startIndexMap := [0]
  indexVectorDim := 1
  sliceSizes := ![1, 1024]
  wf := gather_S32x1024_S32x1_S32x1024_1_0_n_n_0_1_11024_wf
def dot_S32x1124_S1124x512_S32x512_1_0_0_1_n_n : DotDims S32x1124 S1124x512 S32x512 where
  lhsContracting := [1]
  rhsContracting := [0]
  lhsNonContracting := [0]
  rhsNonContracting := [1]
  lhsBatch := []
  rhsBatch := []
  wf := dot_S32x1124_S1124x512_S32x512_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_v22) S1x1x512.size reads0_1 false false 2 stage0_1 sem0_1 nbuf0_1 hstage0_1

abbrev spec0_2 : Pipeline.WinSpec sig grid0.rank :=
  Pipeline.WinSpec.ofSpec (Memref.whole main_arg4) S1x1024x1024.size reads0_2 false false 2 stage0_2 sem0_2 nbuf0_2 hstage0_2

abbrev spec0_3 : Pipeline.WinSpec sig grid0.rank :=
  Pipeline.WinSpec.ofSpec (Memref.whole main_v23) S1x1x1024.size reads0_3 false false 2 stage0_3 sem0_3 nbuf0_3 hstage0_3

abbrev spec0_4 : Pipeline.WinSpec sig grid0.rank :=
  Pipeline.WinSpec.ofSpec (Memref.whole main_v24) S1x1x1024.size reads0_4 false false 2 stage0_4 sem0_4 nbuf0_4 hstage0_4

abbrev spec0_5 : Pipeline.WinSpec sig grid0.rank :=
  Pipeline.WinSpec.ofSpec (Memref.whole main_v25) S1x1x1024.size reads0_5 false false 2 stage0_5 sem0_5 nbuf0_5 hstage0_5

abbrev spec0_6 : Pipeline.WinSpec sig grid0.rank :=
  Pipeline.WinSpec.ofSpec (Memref.whole main_arg8) S1x1024x1024.size reads0_6 false false 2 stage0_6 sem0_6 nbuf0_6 hstage0_6

abbrev spec0_7 : Pipeline.WinSpec sig grid0.rank :=
  Pipeline.WinSpec.ofSpec (Memref.whole main_v26) S1x1x1024.size reads0_7 false false 2 stage0_7 sem0_7 nbuf0_7 hstage0_7

abbrev spec0_8 : Pipeline.WinSpec sig grid0.rank :=
  Pipeline.WinSpec.ofSpec (Memref.whole main_v27) S8x1024.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x1024.size a ≤ S32x512x1024.size a), EltTy.bits .f32 = 32 ∨ (Rect.block (s := S32x512x1024) S1x512x1024.size (cc0_transform_0 k0_off1_inb numel1_S1 pf i) h).WholeWords (EltTy.packing .f32)) ∧
  (∀ i : grid0.Coords, ∃ h : (∀ a, (cc0_transform_1 k0_off1_inb numel1_S1 pf i a + 1) * S1x1x512.size a ≤ S32x1x512.size a), EltTy.bits .f32 = 32 ∨ (Rect.block (s := S32x1x512) S1x1x512.size (cc0_transform_1 k0_off1_inb numel1_S1 pf i) h).WholeWords (EltTy.packing .f32)) ∧
  (∀ i : grid0.Coords, ∃ h : (∀ a, (cc0_transform_2 k0_off1_inb numel1_S1 pf i a + 1) * S1x1024x1024.size a ≤ S5x1024x1024.size a), EltTy.bits .f32 = 32 ∨ (Rect.block (s := S5x1024x1024) S1x1024x1024.size (cc0_transform_2 k0_off1_inb numel1_S1 pf i) h).WholeWords (EltTy.packing .f32)) ∧
  (∀ i : grid0.Coords, ∃ h : (∀ a, (cc0_transform_3 k0_off1_inb numel1_S1 pf i a + 1) * S1x1x1024.size a ≤ S5x1x1024.size a), EltTy.bits .f32 = 32 ∨ (Rect.block (s := S5x1x1024) S1x1x1024.size (cc0_transform_3 k0_off1_inb numel1_S1 pf i) h).WholeWords (EltTy.packing .f32)) ∧
  (∀ i : grid0.Coords, ∃ h : (∀ a, (cc0_transform_4 k0_off1_inb numel1_S1 pf i a + 1) * S1x1x1024.size a ≤ S5x1x1024.size a), EltTy.bits .f32 = 32 ∨ (Rect.block (s := S5x1x1024) S1x1x1024.size (cc0_transform_4 k0_off1_inb numel1_S1 pf i) h).WholeWords (EltTy.packing .f32)) ∧
  (∀ i : grid0.Coords, ∃ h : (∀ a, (cc0_transform_5 k0_off1_inb numel1_S1 pf i a + 1) * S1x1x1024.size a ≤ S5x1x1024.size a), EltTy.bits .f32 = 32 ∨ (Rect.block (s := S5x1x1024) S1x1x1024.size (cc0_transform_5 k0_off1_inb numel1_S1 pf i) h).WholeWords (EltTy.packing .f32)) ∧
  (∀ i : grid0.Coords, ∃ h : (∀ a, (cc0_transform_6 k0_off1_inb numel1_S1 pf i a + 1) * S1x1024x1024.size a ≤ S5x1024x1024.size a), EltTy.bits .f32 = 32 ∨ (Rect.block (s := S5x1024x1024) S1x1024x1024.size (cc0_transform_6 k0_off1_inb numel1_S1 pf i) h).WholeWords (EltTy.packing .f32)) ∧
  (∀ i : grid0.Coords, ∃ h : (∀ a, (cc0_transform_7 k0_off1_inb numel1_S1 pf i a + 1) * S1x1x1024.size a ≤ S5x1x1024.size a), EltTy.bits .f32 = 32 ∨ (Rect.block (s := S5x1x1024) S1x1x1024.size (cc0_transform_7 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2 i).elim fun h _ => h a | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2 i).elim fun _ h => h | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32x512 : Shape := ⟨2, ![32, 512]⟩
abbrev S32 : Shape := ⟨1, ![32]⟩
abbrev S32x100 : Shape := ⟨2, ![32, 100]⟩
abbrev S5x1024x1024 : Shape := ⟨3, ![5, 1024, 1024]⟩
abbrev S5x1024 : Shape := ⟨2, ![5, 1024]⟩
abbrev S1124x512 : Shape := ⟨2, ![1124, 512]⟩
abbrev S512 : Shape := ⟨1, ![512]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S32x512x1 : Shape := ⟨3, ![32, 512, 1]⟩
abbrev S32x1x1 : Shape := ⟨3, ![32, 1, 1]⟩
abbrev S32x1024 : Shape := ⟨2, ![32, 1024]⟩
abbrev S32x1 : Shape := ⟨2, ![32, 1]⟩
abbrev S32x1124 : Shape := ⟨2, ![32, 1124]⟩
abbrev S1x512 : Shape := ⟨2, ![1, 512]⟩

abbrev nBuf : Space → Nat
  | .hbm => 363
  | .vmem => 0
  | .smem => 0
  | _ => 0

abbrev hbmTy0_0 (i : Nat) : BufTy := match i % 128 with
  | 0 => ⟨S32x512x1024, .f32⟩
  | 1 => ⟨S32x512, .f32⟩
  | 2 => ⟨S32, .i32⟩
  | 3 => ⟨S32x100, .f32⟩
  | 4 => ⟨S5x1024x1024, .f32⟩
  | 5 => ⟨S5x1024, .f32⟩
  | 6 => ⟨S5x1024, .f32⟩
  | 7 => ⟨S5x1024, .f32⟩
  | 8 => ⟨S5x1024x1024, .f32⟩
  | 9 => ⟨S5x1024, .f32⟩
  | 10 => ⟨S1124x512, .f32⟩
  | 11 => ⟨S512, .f32⟩
  | 12 => ⟨S512, .f32⟩
  | 13 => ⟨S512, .f32⟩
  | 14 => ⟨S_, .f32⟩
  | 15 => ⟨S32x512x1024, .f32⟩
  | 16 => ⟨S1x1024x1024, .f32⟩
  | 17 => ⟨S1024x1024, .f32⟩
  | 18 => ⟨S32x512x1024, .f32⟩
  | 19 => ⟨S1x1024, .f32⟩
  | 20 => ⟨S1024, .f32⟩
  | 21 => ⟨S1x1x1024, .f32⟩
  | 22 => ⟨S32x512x1024, .f32⟩
  | 23 => ⟨S32x512x1024, .f32⟩
  | 24 => ⟨S1x1024, .f32⟩
  | 25 => ⟨S1024, .f32⟩
  | 26 => ⟨S1x1024, .f32⟩
  | 27 => ⟨S1024, .f32⟩
  | 28 => ⟨S_, .f32⟩
  | 29 => ⟨S32x512, .f32⟩
  | 30 => ⟨S32x512x1, .f32⟩
  | 31 => ⟨S_, .f32⟩
  | 32 => ⟨S32x512x1, .f32⟩
  | 33 => ⟨S32x512x1, .f32⟩
  | 34 => ⟨S32x512x1024, .f32⟩
  | 35 => ⟨S32x512x1024, .f32⟩
  | 36 => ⟨S32x512x1024, .f32⟩
  | 37 => ⟨S_, .f32⟩
  | 38 => ⟨S32x512, .f32⟩
  | 39 => ⟨S32x512x1, .f32⟩
  | 40 => ⟨S_, .f32⟩
  | 41 => ⟨S32x512x1, .f32⟩
  | 42 => ⟨S32x512x1, .f32⟩
  | 43 => ⟨S32x512x1024, .f32⟩
  | 44 => ⟨S32x512x1024, .f32⟩
  | 45 => ⟨S_, .f32⟩
  | 46 => ⟨S32x512x1, .f32⟩
  | 47 => ⟨S32x512x1, .f32⟩
  | 48 => ⟨S32x512x1, .f32⟩
  | 49 => ⟨S32x512x1024, .f32⟩
  | 50 => ⟨S32x512x1024, .f32⟩
  | 51 => ⟨S1x1x1024, .f32⟩
  | 52 => ⟨S32x512x1024, .f32⟩
  | 53 => ⟨S32x512x1024, .f32⟩
  | 54 => ⟨S1x1x1024, .f32⟩
  | 55 => ⟨S32x512x1024, .f32⟩
  | 56 => ⟨S32x512x1024, .f32⟩
  | 57 => ⟨S_, .f32⟩
  | 58 => ⟨S32x512x1024, .f32⟩
  | 59 => ⟨S32x512x1024, .f32⟩
  | 60 => ⟨S1x1024x1024, .f32⟩
  | 61 => ⟨S1024x1024, .f32⟩
  | 62 => ⟨S32x512x1024, .f32⟩
  | 63 => ⟨S1x1024, .f32⟩
  | 64 => ⟨S1024, .f32⟩
  | 65 => ⟨S1x1x1024, .f32⟩
  | 66 => ⟨S32x512x1024, .f32⟩
  | 67 => ⟨S32x512x1024, .f32⟩
  | 68 => ⟨S_, .i32⟩
  | 69 => ⟨S32, .i32⟩
  | 70 => ⟨S32, .i1⟩
  | 71 => ⟨S32, .f32⟩
  | 72 => ⟨S32x1x1, .f32⟩
  | 73 => ⟨S32x512x1024, .f32⟩
  | 74 => ⟨S32x512x1024, .f32⟩
  | 75 => ⟨S32x512x1024, .f32⟩
  | 76 => ⟨S1x1024x1024, .f32⟩
  | 77 => ⟨S1024x1024, .f32⟩
  | 78 => ⟨S32x512x1024, .f32⟩
  | 79 => ⟨S1x1024, .f32⟩
  | 80 => ⟨S1024, .f32⟩
  | 81 => ⟨S1x1x1024, .f32⟩
  | 82 => ⟨S32x512x1024, .f32⟩
  | 83 => ⟨S32x512x1024, .f32⟩
  | 84 => ⟨S1x1024, .f32⟩
  | 85 => ⟨S1024, .f32⟩
  | 86 => ⟨S1x1024, .f32⟩
  | 87 => ⟨S1024, .f32⟩
  | 88 => ⟨S_, .f32⟩
  | 89 => ⟨S32x512, .f32⟩
  | 90 => ⟨S32x512x1, .f32⟩
  | 91 => ⟨S_, .f32⟩
  | 92 => ⟨S32x512x1, .f32⟩
  | 93 => ⟨S32x512x1, .f32⟩
  | 94 => ⟨S32x512x1024, .f32⟩
  | 95 => ⟨S32x512x1024, .f32⟩
  | 96 => ⟨S32x512x1024, .f32⟩
  | 97 => ⟨S_, .f32⟩
  | 98 => ⟨S32x512, .f32⟩
  | 99 => ⟨S32x512x1, .f32⟩
  | 100 => ⟨S_, .f32⟩
  | 101 => ⟨S32x512x1, .f32⟩
  | 102 => ⟨S32x512x1, .f32⟩
  | 103 => ⟨S32x512x1024, .f32⟩
  | 104 => ⟨S32x512x1024, .f32⟩
  | 105 => ⟨S_, .f32⟩
  | 106 => ⟨S32x512x1, .f32⟩
  | 107 => ⟨S32x512x1, .f32⟩
  | 108 => ⟨S32x512x1, .f32⟩
  | 109 => ⟨S32x512x1024, .f32⟩
  | 110 => ⟨S32x512x1024, .f32⟩
  | 111 => ⟨S1x1x1024, .f32⟩
  | 112 => ⟨S32x512x1024, .f32⟩
  | 113 => ⟨S32x512x1024, .f32⟩
  | 114 => ⟨S1x1x1024, .f32⟩
  | 115 => ⟨S32x512x1024, .f32⟩
  | 116 => ⟨S32x512x1024, .f32⟩
  | 117 => ⟨S_, .f32⟩
  | 118 => ⟨S32x512x1024, .f32⟩
  | 119 => ⟨S32x512x1024, .f32⟩
  | 120 => ⟨S1x1024x1024, .f32⟩
  | 121 => ⟨S1024x1024, .f32⟩
  | 122 => ⟨S32x512x1024, .f32⟩
  | 123 => ⟨S1x1024, .f32⟩
  | 124 => ⟨S1024, .f32⟩
  | 125 => ⟨S1x1x1024, .f32⟩
  | 126 => ⟨S32x512x1024, .f32⟩
  | 127 => ⟨S32x512x1024, .f32⟩
  | _ => ⟨S32x512x1024, .f32⟩

abbrev hbmTy0_1 (i : Nat) : BufTy := match i % 128 with
  | 0 => ⟨S_, .i32⟩
  | 1 => ⟨S32, .i32⟩
  | 2 => ⟨S32, .i1⟩
  | 3 => ⟨S32, .f32⟩
  | 4 => ⟨S32x1x1, .f32⟩
  | 5 => ⟨S32x512x1024, .f32⟩
  | 6 => ⟨S32x512x1024, .f32⟩
  | 7 => ⟨S32x512x1024, .f32⟩
  | 8 => ⟨S1x1024x1024, .f32⟩
  | 9 => ⟨S1024x1024, .f32⟩
  | 10 => ⟨S32x512x1024, .f32⟩
  | 11 => ⟨S1x1024, .f32⟩
  | 12 => ⟨S1024, .f32⟩
  | 13 => ⟨S1x1x1024, .f32⟩
  | 14 => ⟨S32x512x1024, .f32⟩
  | 15 => ⟨S32x512x1024, .f32⟩
  | 16 => ⟨S1x1024, .f32⟩
  | 17 => ⟨S1024, .f32⟩
  | 18 => ⟨S1x1024, .f32⟩
  | 19 => ⟨S1024, .f32⟩
  | 20 => ⟨S_, .f32⟩
  | 21 => ⟨S32x512, .f32⟩
  | 22 => ⟨S32x512x1, .f32⟩
  | 23 => ⟨S_, .f32⟩
  | 24 => ⟨S32x512x1, .f32⟩
  | 25 => ⟨S32x512x1, .f32⟩
  | 26 => ⟨S32x512x1024, .f32⟩
  | 27 => ⟨S32x512x1024, .f32⟩
  | 28 => ⟨S32x512x1024, .f32⟩
  | 29 => ⟨S_, .f32⟩
  | 30 => ⟨S32x512, .f32⟩
  | 31 => ⟨S32x512x1, .f32⟩
  | 32 => ⟨S_, .f32⟩
  | 33 => ⟨S32x512x1, .f32⟩
  | 34 => ⟨S32x512x1, .f32⟩
  | 35 => ⟨S32x512x1024, .f32⟩
  | 36 => ⟨S32x512x1024, .f32⟩
  | 37 => ⟨S_, .f32⟩
  | 38 => ⟨S32x512x1, .f32⟩
  | 39 => ⟨S32x512x1, .f32⟩
  | 40 => ⟨S32x512x1, .f32⟩
  | 41 => ⟨S32x512x1024, .f32⟩
  | 42 => ⟨S32x512x1024, .f32⟩
  | 43 => ⟨S1x1x1024, .f32⟩
  | 44 => ⟨S32x512x1024, .f32⟩
  | 45 => ⟨S32x512x1024, .f32⟩
  | 46 => ⟨S1x1x1024, .f32⟩
  | 47 => ⟨S32x512x1024, .f32⟩
  | 48 => ⟨S32x512x1024, .f32⟩
  | 49 => ⟨S_, .f32⟩
  | 50 => ⟨S32x512x1024, .f32⟩
  | 51 => ⟨S32x512x1024, .f32⟩
  | 52 => ⟨S1x1024x1024, .f32⟩
  | 53 => ⟨S1024x1024, .f32⟩
  | 54 => ⟨S32x512x1024, .f32⟩
  | 55 => ⟨S1x1024, .f32⟩
  | 56 => ⟨S1024, .f32⟩
  | 57 => ⟨S1x1x1024, .f32⟩
  | 58 => ⟨S32x512x1024, .f32⟩
  | 59 => ⟨S32x512x1024, .f32⟩
  | 60 => ⟨S_, .i32⟩
  | 61 => ⟨S32, .i32⟩
  | 62 => ⟨S32, .i1⟩
  | 63 => ⟨S32, .f32⟩
  | 64 => ⟨S32x1x1, .f32⟩
  | 65 => ⟨S32x512x1024, .f32⟩
  | 66 => ⟨S32x512x1024, .f32⟩
  | 67 => ⟨S32x512x1024, .f32⟩
  | 68 => ⟨S1x1024x1024, .f32⟩
  | 69 => ⟨S1024x1024, .f32⟩
  | 70 => ⟨S32x512x1024, .f32⟩
  | 71 => ⟨S1x1024, .f32⟩
  | 72 => ⟨S1024, .f32⟩
  | 73 => ⟨S1x1x1024, .f32⟩
  | 74 => ⟨S32x512x1024, .f32⟩
  | 75 => ⟨S32x512x1024, .f32⟩
  | 76 => ⟨S1x1024, .f32⟩
  | 77 => ⟨S1024, .f32⟩
  | 78 => ⟨S1x1024, .f32⟩
  | 79 => ⟨S1024, .f32⟩
  | 80 => ⟨S_, .f32⟩
  | 81 => ⟨S32x512, .f32⟩
  | 82 => ⟨S32x512x1, .f32⟩
  | 83 => ⟨S_, .f32⟩
  | 84 => ⟨S32x512x1, .f32⟩
  | 85 => ⟨S32x512x1, .f32⟩
  | 86 => ⟨S32x512x1024, .f32⟩
  | 87 => ⟨S32x512x1024, .f32⟩
  | 88 => ⟨S32x512x1024, .f32⟩
  | 89 => ⟨S_, .f32⟩
  | 90 => ⟨S32x512, .f32⟩
  | 91 => ⟨S32x512x1, .f32⟩
  | 92 => ⟨S_, .f32⟩
  | 93 => ⟨S32x512x1, .f32⟩
  | 94 => ⟨S32x512x1, .f32⟩
  | 95 => ⟨S32x512x1024, .f32⟩
  | 96 => ⟨S32x512x1024, .f32⟩
  | 97 => ⟨S_, .f32⟩
  | 98 => ⟨S32x512x1, .f32⟩
  | 99 => ⟨S32x512x1, .f32⟩
  | 100 => ⟨S32x512x1, .f32⟩
  | 101 => ⟨S32x512x1024, .f32⟩
  | 102 => ⟨S32x512x1024, .f32⟩
  | 103 => ⟨S1x1x1024, .f32⟩
  | 104 => ⟨S32x512x1024, .f32⟩
  | 105 => ⟨S32x512x1024, .f32⟩
  | 106 => ⟨S1x1x1024, .f32⟩
  | 107 => ⟨S32x512x1024, .f32⟩
  | 108 => ⟨S32x512x1024, .f32⟩
  | 109 => ⟨S_, .f32⟩
  | 110 => ⟨S32x512x1024, .f32⟩
  | 111 => ⟨S32x512x1024, .f32⟩
  | 112 => ⟨S1x1024x1024, .f32⟩
  | 113 => ⟨S1024x1024, .f32⟩
  | 114 => ⟨S32x512x1024, .f32⟩
  | 115 => ⟨S1x1024, .f32⟩
  | 116 => ⟨S1024, .f32⟩
  | 117 => ⟨S1x1x1024, .f32⟩
  | 118 => ⟨S32x512x1024, .f32⟩
  | 119 => ⟨S32x512x1024, .f32⟩
  | 120 => ⟨S_, .i32⟩
  | 121 => ⟨S32, .i32⟩
  | 122 => ⟨S32, .i1⟩
  | 123 => ⟨S32, .f32⟩
  | 124 => ⟨S32x1x1, .f32⟩
  | 125 => ⟨S32x512x1024, .f32⟩
  | 126 => ⟨S32x512x1024, .f32⟩
  | 127 => ⟨S32x512x1024, .f32⟩
  | _ => ⟨S32x512x1024, .f32⟩

abbrev hbmTy0_2 (i : Nat) : BufTy := match i % 128 with
  | 0 => ⟨S1x1024x1024, .f32⟩
  | 1 => ⟨S1024x1024, .f32⟩
  | 2 => ⟨S32x512x1024, .f32⟩
  | 3 => ⟨S1x1024, .f32⟩
  | 4 => ⟨S1024, .f32⟩
  | 5 => ⟨S1x1x1024, .f32⟩
  | 6 => ⟨S32x512x1024, .f32⟩
  | 7 => ⟨S32x512x1024, .f32⟩
  | 8 => ⟨S1x1024, .f32⟩
  | 9 => ⟨S1024, .f32⟩
  | 10 => ⟨S1x1024, .f32⟩
  | 11 => ⟨S1024, .f32⟩
  | 12 => ⟨S_, .f32⟩
  | 13 => ⟨S32x512, .f32⟩
  | 14 => ⟨S32x512x1, .f32⟩
  | 15 => ⟨S_, .f32⟩
  | 16 => ⟨S32x512x1, .f32⟩
  | 17 => ⟨S32x512x1, .f32⟩
  | 18 => ⟨S32x512x1024, .f32⟩
  | 19 => ⟨S32x512x1024, .f32⟩
  | 20 => ⟨S32x512x1024, .f32⟩
  | 21 => ⟨S_, .f32⟩
  | 22 => ⟨S32x512, .f32⟩
  | 23 => ⟨S32x512x1, .f32⟩
  | 24 => ⟨S_, .f32⟩
  | 25 => ⟨S32x512x1, .f32⟩
  | 26 => ⟨S32x512x1, .f32⟩
  | 27 => ⟨S32x512x1024, .f32⟩
  | 28 => ⟨S32x512x1024, .f32⟩
  | 29 => ⟨S_, .f32⟩
  | 30 => ⟨S32x512x1, .f32⟩
  | 31 => ⟨S32x512x1, .f32⟩
  | 32 => ⟨S32x512x1, .f32⟩
  | 33 => ⟨S32x512x1024, .f32⟩
  | 34 => ⟨S32x512x1024, .f32⟩
  | 35 => ⟨S1x1x1024, .f32⟩
  | 36 => ⟨S32x512x1024, .f32⟩
  | 37 => ⟨S32x512x1024, .f32⟩
  | 38 => ⟨S1x1x1024, .f32⟩
  | 39 => ⟨S32x512x1024, .f32⟩
  | 40 => ⟨S32x512x1024, .f32⟩
  | 41 => ⟨S_, .f32⟩
  | 42 => ⟨S32x512x1024, .f32⟩
  | 43 => ⟨S32x512x1024, .f32⟩
  | 44 => ⟨S1x1024x1024, .f32⟩
  | 45 => ⟨S1024x1024, .f32⟩
  | 46 => ⟨S32x512x1024, .f32⟩
  | 47 => ⟨S1x1024, .f32⟩
  | 48 => ⟨S1024, .f32⟩
  | 49 => ⟨S1x1x1024, .f32⟩
  | 50 => ⟨S32x512x1024, .f32⟩
  | 51 => ⟨S32x512x1024, .f32⟩
  | 52 => ⟨S_, .i32⟩
  | 53 => ⟨S32, .i32⟩
  | 54 => ⟨S32, .i1⟩
  | 55 => ⟨S32, .f32⟩
  | 56 => ⟨S32x1x1, .f32⟩
  | 57 => ⟨S32x512x1024, .f32⟩
  | 58 => ⟨S32x512x1024, .f32⟩
  | 59 => ⟨S32x512x1024, .f32⟩
  | 60 => ⟨S32x512x1, .f32⟩
  | 61 => ⟨S32x512x1024, .f32⟩
  | 62 => ⟨S32x512x1024, .f32⟩
  | 63 => ⟨S_, .f32⟩
  | 64 => ⟨S32x1024, .f32⟩
  | 65 => ⟨S_, .f32⟩
  | 66 => ⟨S32, .f32⟩
  | 67 => ⟨S32x1, .f32⟩
  | 68 => ⟨S32x1024, .f32⟩
  | 69 => ⟨S32x1024, .f32⟩
  | 70 => ⟨S32x1124, .f32⟩
  | 71 => ⟨S32x512, .f32⟩
  | 72 => ⟨S1x512, .f32⟩
  | 73 => ⟨S32x512, .f32⟩
  | 74 => ⟨S32x512, .f32⟩
  | 75 => ⟨S_, .f32⟩
  | 76 => ⟨S32, .f32⟩
  | 77 => ⟨S32x1, .f32⟩
  | 78 => ⟨S_, .f32⟩
  | 79 => ⟨S32x1, .f32⟩
  | 80 => ⟨S32x1, .f32⟩
  | 81 => ⟨S32x512, .f32⟩
  | 82 => ⟨S32x512, .f32⟩
  | 83 => ⟨S32x512, .f32⟩
  | 84 => ⟨S_, .f32⟩
  | 85 => ⟨S32, .f32⟩
  | 86 => ⟨S32x1, .f32⟩
  | 87 => ⟨S_, .f32⟩
  | 88 => ⟨S32x1, .f32⟩
  | 89 => ⟨S32x1, .f32⟩
  | 90 => ⟨S32x512, .f32⟩
  | 91 => ⟨S32x512, .f32⟩
  | 92 => ⟨S_, .f32⟩
  | 93 => ⟨S32x1, .f32⟩
  | 94 => ⟨S32x1, .f32⟩
  | 95 => ⟨S32x1, .f32⟩
  | 96 => ⟨S32x512, .f32⟩
  | 97 => ⟨S32x512, .f32⟩
  | 98 => ⟨S1x512, .f32⟩
  | 99 => ⟨S32x512, .f32⟩
  | 100 => ⟨S32x512, .f32⟩
  | 101 => ⟨S1x512, .f32⟩
  | 102 => ⟨S32x512, .f32⟩
  | 103 => ⟨S32x512, .f32⟩
  | 104 => ⟨S_, .f32⟩
  | 105 => ⟨S32x512, .f32⟩
  | 106 => ⟨S32x512, .f32⟩
  | _ => ⟨S32x512x1024, .f32⟩

abbrev hbmTy (i : Nat) : BufTy := match i / 128 with
  | 0 => hbmTy0_0 i
  | 1 => hbmTy0_1 i
  | 2 => hbmTy0_2 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_5 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_7 : Ref sig .tc := ⟨.hbm, 97, rfl⟩
abbrev main_v72 : Ref sig .tc := ⟨.hbm, 98, rfl⟩
abbrev main_v73 : Ref sig .tc := ⟨.hbm, 99, rfl⟩
abbrev main_cst_8 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_9 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_c_10 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_11 : Ref sig .tc := ⟨.hbm, 148, rfl⟩
abbrev main_v117 : Ref sig .tc := ⟨.hbm, 149, rfl⟩
abbrev main_v118 : Ref sig .tc := ⟨.hbm, 150, rfl⟩
abbrev main_cst_12 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_13 : Ref sig .tc := ⟨.hbm, 157, rfl⟩
abbrev main_v124 : Ref sig .tc := ⟨.hbm, 158, rfl⟩
abbrev main_v125 : Ref sig .tc := ⟨.hbm, 159, rfl⟩
abbrev main_cst_14 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_15 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_call2_cst : Ref sig .tc := ⟨.hbm, 177, rfl⟩
abbrev main_call2_v0 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_c_16 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_cst_17 : Ref sig .tc := ⟨.hbm, 208, rfl⟩
abbrev main_v169 : Ref sig .tc := ⟨.hbm, 209, rfl⟩
abbrev main_v170 : Ref sig .tc := ⟨.hbm, 210, rfl⟩
abbrev main_cst_18 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_19 : Ref sig .tc := ⟨.hbm, 217, rfl⟩
abbrev main_v176 : Ref sig .tc := ⟨.hbm, 218, rfl⟩
abbrev main_v177 : Ref sig .tc := ⟨.hbm, 219, rfl⟩
abbrev main_cst_20 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_cst_21 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_call3_cst : Ref sig .tc := ⟨.hbm, 237, rfl⟩
abbrev main_call3_v0 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_c_22 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_cst_23 : Ref sig .tc := ⟨.hbm, 268, rfl⟩
abbrev main_v221 : Ref sig .tc := ⟨.hbm, 269, rfl⟩
abbrev main_v222 : Ref sig .tc := ⟨.hbm, 270, rfl⟩
abbrev main_cst_24 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_cst_25 : Ref sig .tc := ⟨.hbm, 277, rfl⟩
abbrev main_v228 : Ref sig .tc := ⟨.hbm, 278, rfl⟩
abbrev main_v229 : Ref sig .tc := ⟨.hbm, 279, rfl⟩
abbrev main_cst_26 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_cst_27 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_call4_cst : Ref sig .tc := ⟨.hbm, 297, rfl⟩
abbrev main_call4_v0 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_c_28 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_cst_29 : Ref sig .tc := ⟨.hbm, 319, rfl⟩
abbrev main_v264 : Ref sig .tc := ⟨.hbm, 320, rfl⟩
abbrev main_cst_30 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_cst_31 : Ref sig .tc := ⟨.hbm, 331, rfl⟩
abbrev main_v274 : Ref sig .tc := ⟨.hbm, 332, rfl⟩
abbrev main_v275 : Ref sig .tc := ⟨.hbm, 333, rfl⟩
abbrev main_cst_32 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_cst_33 : Ref sig .tc := ⟨.hbm, 340, rfl⟩
abbrev main_v281 : Ref sig .tc := ⟨.hbm, 341, rfl⟩
abbrev main_v282 : Ref sig .tc := ⟨.hbm, 342, rfl⟩
abbrev main_cst_34 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_cst_35 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_call5_cst : Ref sig .tc := ⟨.hbm, 360, rfl⟩
abbrev main_call5_v0 : Ref sig .tc := ⟨.hbm, 361, rfl⟩
abbrev main_v298 : Ref sig .tc := ⟨.hbm, 362, rfl⟩

abbrev nD : Nat := 1
abbrev τ : Topo := Topo.v7x

variable {F : FTy → Type} [FloatOps F]

class Facts₀ : Prop where
  bcast_S_S32x512x1024 : S_.BroadcastsInDim S32x512x1024 (![] : Fin 0 → Fin S32x512x1024.rank)
  slices_S5x1024x1024_S1x1024x1024_0_0_0 : S5x1024x1024.Slices ![0, 0, 0] S1x1024x1024
  shapeCasts_S1x1024x1024_S1024x1024 : S1x1024x1024.ShapeCasts S1024x1024
  slices_S5x1024_S1x1024_0_0 : S5x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  reducesTo_S32x512x1024_S32x512_d2 : S32x512x1024.ReducesTo [2] S32x512
  h_S_ : 0 < S_.numel
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S32x512x1_S32x512x1024_0_1_2 : S32x512x1.BroadcastsInDim S32x512x1024 (![0, 1, 2] : Fin 3 → Fin S32x512x1024.rank)
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x512x1024_0_1_2 : S32x1x1.BroadcastsInDim S32x512x1024 (![0, 1, 2] : Fin 3 → Fin S32x512x1024.rank)
  slices_S5x1024x1024_S1x1024x1024_1_0_0 : S5x1024x1024.Slices ![1, 0, 0] S1x1024x1024
  slices_S5x1024_S1x1024_1_0 : S5x1024.Slices ![1, 0] S1x1024
  slices_S5x1024x1024_S1x1024x1024_2_0_0 : S5x1024x1024.Slices ![2, 0, 0] S1x1024x1024
  slices_S5x1024_S1x1024_2_0 : S5x1024.Slices ![2, 0] S1x1024
  slices_S5x1024x1024_S1x1024x1024_3_0_0 : S5x1024x1024.Slices ![3, 0, 0] S1x1024x1024
  slices_S5x1024_S1x1024_3_0 : S5x1024.Slices ![3, 0] S1x1024
  slices_S5x1024x1024_S1x1024x1024_4_0_0 : S5x1024x1024.Slices ![4, 0, 0] S1x1024x1024
  slices_S5x1024_S1x1024_4_0 : S5x1024.Slices ![4, 0] S1x1024
  reducesTo_S32x512x1024_S32x1024_d1 : S32x512x1024.ReducesTo [1] S32x1024
  reducesTo_S32x512_S32_d1 : S32x512.ReducesTo [1] S32
  bcast_S32_S32x1_0 : S32.BroadcastsInDim S32x1 (![0] : Fin 1 → Fin S32x1.rank)
  bcast_S32x1_S32x1024_0_1 : S32x1.BroadcastsInDim S32x1024 (![0, 1] : Fin 2 → Fin S32x1024.rank)
  concatenates_S32x1024_S32x100_S32x1124_d1 : Shape.Concatenates [S32x1024, S32x100] S32x1124 1
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  bcast_S_S32x512 : S_.BroadcastsInDim S32x512 (![] : Fin 0 → Fin S32x512.rank)
  dot_S32x512x1024_S1024x1024_S32x512x1024_2_0_01_1_n_n_wf : DotDims.WF S32x512x1024 S1024x1024 S32x512x1024 [2] [0] [0, 1] [1] [] []
  dot_S32x1124_S1124x512_S32x512_1_0_0_1_n_n_wf : DotDims.WF S32x1124 S1124x512 S32x512 [1] [0] [0] [1] [] []

variable [Facts₀]

def dot_S32x512x1024_S1024x1024_S32x512x1024_2_0_01_1_n_n : DotDims S32x512x1024 S1024x1024 S32x512x1024 where
  lhsContracting := [2]
  rhsContracting := [0]
  lhsNonContracting := [0, 1]
  rhsNonContracting := [1]
  lhsBatch := []
  rhsBatch := []
  wf := dot_S32x512x1024_S1024x1024_S32x512x1024_2_0_01_1_n_n_wf
def dot_S32x1124_S1124x512_S32x512_1_0_0_1_n_n : DotDims S32x1124 S1124x512 S32x512 where
  lhsContracting := [1]
  rhsContracting := [0]
  lhsNonContracting := [0]
  rhsNonContracting := [1]
  lhsBatch := []
  rhsBatch := []
  wf := dot_S32x1124_S1124x512_S32x512_1_0_0_1_n_n_wf

class Facts : Prop extends Facts₀ where

variable [Facts]
-- ==== Proof.Spec.lean ====
import Idealize.ShloMosaic.PureOps.Ideal
import Idealize.ShloMosaic.Lib.ValueIdx

noncomputable section

namespace Cert.Pool

open Idealize.ShloMosaic

def c1024 : EReal := Ideal.ofBits .f32 0x44800000#32
def ceps : EReal := Ideal.ofBits .f32 0x3727C5AC#32

section Adapter

variable (X : Fin 32 → Fin 512 → Fin 1024 → EReal) (M : Fin 32 → Fin 512 → EReal)
  (W1 : Fin 5 → Fin 1024 → Fin 1024 → EReal) (B1 G1 Be1 : Fin 5 → Fin 1024 → EReal)
  (W2 : Fin 5 → Fin 1024 → Fin 1024 → EReal) (B2 : Fin 5 → Fin 1024 → EReal)

def h1 (l : Fin 5) (b : Fin 32) (s : Fin 512) (e : Fin 1024) : EReal :=
  (∑ k : Fin 1024, X b s k * W1 l k e) + B1 l e

def mu (l : Fin 5) (b : Fin 32) (s : Fin 512) : EReal :=
  Ideal.div (∑ e : Fin 1024, h1 X W1 B1 l b s e) c1024

def dv (l : Fin 5) (b : Fin 32) (s : Fin 512) (e : Fin 1024) : EReal :=
  h1 X W1 B1 l b s e - mu X W1 B1 l b s

def var (l : Fin 5) (b : Fin 32) (s : Fin 512) : EReal :=
  Ideal.div (∑ e : Fin 1024, dv X W1 B1 l b s e * dv X W1 B1 l b s e) c1024

def h1r (l : Fin 5) (b : Fin 32) (s : Fin 512) (e : Fin 1024) : EReal :=
  max (dv X W1 B1 l b s e * Ideal.rsqrt (var X W1 B1 l b s + ceps) * G1 l e + Be1 l e) 0

def h2 (l : Fin 5) (b : Fin 32) (s : Fin 512) (e : Fin 1024) : EReal :=
  (∑ k : Fin 1024, h1r X W1 B1 G1 Be1 l b s k * W2 l k e) + B2 l e

def msum (b : Fin 32) : EReal := ∑ s : Fin 512, M b s

def poolL (l : Fin 5) (b : Fin 32) (e : Fin 1024) : EReal :=
  Ideal.div (∑ s : Fin 512, M b s * h2 X W1 B1 G1 Be1 W2 B2 l b s e) (msum M b)

end Adapter

def clampL (i : BitVec 32) : Fin 5 :=
  if i.toInt < 0 then 0 else if h : i.toInt < 5 then ⟨i.toInt.toNat, by omega⟩ else 4

def validF (i : BitVec 32) : EReal := if 0 ≤ i.toInt ∧ i.toInt < 5 then 1 else 0

def onehot (i : BitVec 32) (l : Fin 5) : EReal := if i = BitVec.ofNat 32 l.val then 1 else 0

section Pooled

variable (X : Fin 32 → Fin 512 → Fin 1024 → EReal) (M : Fin 32 → Fin 512 → EReal) (ids : Fin 32 → BitVec 32)
  (W1 : Fin 5 → Fin 1024 → Fin 1024 → EReal) (B1 G1 Be1 : Fin 5 → Fin 1024 → EReal)
  (W2 : Fin 5 → Fin 1024 → Fin 1024 → EReal) (B2 : Fin 5 → Fin 1024 → EReal)

def kpool (b : Fin 32) (e : Fin 1024) : EReal :=
  poolL X M W1 B1 G1 Be1 W2 B2 (clampL (ids b)) b e * validF (ids b)

def adapted (b : Fin 32) (s : Fin 512) (e : Fin 1024) : EReal :=
  ((((0 + onehot (ids b) 0 * h2 X W1 B1 G1 Be1 W2 B2 0 b s e) + onehot (ids b) 1 * h2 X W1 B1 G1 Be1 W2 B2 1 b s e)
      + onehot (ids b) 2 * h2 X W1 B1 G1 Be1 W2 B2 2 b s e) + onehot (ids b) 3 * h2 X W1 B1 G1 Be1 W2 B2 3 b s e)
    + onehot (ids b) 4 * h2 X W1 B1 G1 Be1 W2 B2 4 b s e

def rpool (b : Fin 32) (e : Fin 1024) : EReal :=
  Ideal.div (∑ s : Fin 512, adapted X ids W1 B1 G1 Be1 W2 B2 b s e * M b s) (msum M b)

end Pooled

end Cert.Pool

end
-- ==== Proof.Math.lean ====
import proofs.«423535_j34024730919221_3_alg».proof.Proof.Spec

noncomputable section

namespace Cert.Pool

open Idealize.ShloMosaic

def IsR (x : EReal) : Prop := x ≠ ⊥ ∧ x ≠ ⊤

theorem IsR.coe (r : ℝ) : IsR (r : EReal) := ⟨EReal.coe_ne_bot r, EReal.coe_ne_top r⟩

theorem IsR.exists {x : EReal} (h : IsR x) : ∃ r : ℝ, x = (r : EReal) := by
  obtain ⟨hb, ht⟩ := h
  lift x to ℝ using ⟨ht, hb⟩
  exact ⟨x, rfl⟩

theorem IsR.zero : IsR 0 := by
  rw [← EReal.coe_zero]; exact IsR.coe _

theorem IsR.add {x y : EReal} (hx : IsR x) (hy : IsR y) : IsR (x + y) := by
  obtain ⟨r, rfl⟩ := hx.exists
  obtain ⟨t, rfl⟩ := hy.exists
  rw [← EReal.coe_add]; exact IsR.coe _

theorem IsR.mul {x y : EReal} (hx : IsR x) (hy : IsR y) : IsR (x * y) := by
  obtain ⟨r, rfl⟩ := hx.exists
  obtain ⟨t, rfl⟩ := hy.exists
  rw [← EReal.coe_mul]; exact IsR.coe _

theorem IsR.sub {x y : EReal} (hx : IsR x) (hy : IsR y) : IsR (x - y) := by
  obtain ⟨r, rfl⟩ := hx.exists
  obtain ⟨t, rfl⟩ := hy.exists
  rw [← EReal.coe_sub]; exact IsR.coe _

theorem IsR.max_zero {x : EReal} (hx : IsR x) : IsR (max x 0) := by
  rcases max_choice x 0 with h | h
  · rw [h]; exact hx
  · rw [h]; exact IsR.zero

theorem IsR.sum {ι : Type*} (s : Finset ι) (f : ι → EReal) (h : ∀ k ∈ s, IsR (f k)) : IsR (∑ k ∈ s, f k) := by
  classical
  induction s using Finset.induction_on with
  | empty => simpa using IsR.zero
  | insert a s ha ih =>
    rw [Finset.sum_insert ha]
    exact (h a (Finset.mem_insert_self a s)).add (ih (fun k hk => h k (Finset.mem_insert_of_mem hk)))

theorem IsR.sub_self {x : EReal} (h : IsR x) : x - x = 0 := by
  obtain ⟨r, rfl⟩ := h.exists
  rw [← EReal.coe_sub, _root_.sub_self, EReal.coe_zero]

theorem hilo_sum {n : ℕ} (a b : Fin n → EReal) (ha : ∀ k, IsR (a k)) (hb : ∀ k, IsR (b k)) :
    ((∑ k, a k * b k) + ∑ k, a k * (b k - b k)) + ∑ k, (a k - a k) * b k = ∑ k, a k * b k := by
  have h1 : ∑ k, a k * (b k - b k) = 0 :=
    Finset.sum_eq_zero (fun k _ => by rw [(hb k).sub_self, mul_zero])
  have h2 : ∑ k, (a k - a k) * b k = 0 :=
    Finset.sum_eq_zero (fun k _ => by rw [(ha k).sub_self, zero_mul])
  rw [h1, h2, add_zero, add_zero]

theorem c1024_eq : c1024 = ((1024 : ℝ) : EReal) := by
  simp [c1024, Ideal.ofBits, Ideal.ieee, -EReal.coe_mul]; norm_num

theorem ceps_pos : ∃ r : ℝ, 0 < r ∧ ceps = (r : EReal) := by
  simp [ceps, Ideal.ofBits, Ideal.ieee, -EReal.coe_mul]

theorem IsR.div_c1024 {x : EReal} (hx : IsR x) : IsR (Ideal.div x c1024) := by
  rw [c1024_eq, Ideal.div_coe (by norm_num)]
  exact hx.mul (IsR.coe _)

theorem rsqrt_real {S : EReal} (hS : IsR S) (h0 : 0 ≤ S) : IsR (Ideal.rsqrt (Ideal.div S c1024 + ceps)) := by
  obtain ⟨s, rfl⟩ := hS.exists
  have hs : 0 ≤ s := by exact_mod_cast h0
  obtain ⟨ε, hε, hc⟩ := ceps_pos
  rw [c1024_eq, Ideal.div_coe (by norm_num), hc, ← EReal.coe_mul, ← EReal.coe_add, Ideal.rsqrt_coe]
  have hp : 0 < s * (1 / 1024) + ε := by positivity
  rw [if_neg (not_lt.mpr hp.le), if_neg hp.ne']
  exact IsR.coe _

theorem IsR.mul_self_nonneg {x : EReal} (hx : IsR x) : 0 ≤ x * x := by
  obtain ⟨r, rfl⟩ := hx.exists
  rw [← EReal.coe_mul]
  exact_mod_cast _root_.mul_self_nonneg r

section

variable (X : Fin 32 → Fin 512 → Fin 1024 → EReal) (M : Fin 32 → Fin 512 → EReal) (ids : Fin 32 → BitVec 32)
  (W1 : Fin 5 → Fin 1024 → Fin 1024 → EReal) (B1 G1 Be1 : Fin 5 → Fin 1024 → EReal)
  (W2 : Fin 5 → Fin 1024 → Fin 1024 → EReal) (B2 : Fin 5 → Fin 1024 → EReal)

variable (hX : ∀ b s k, IsR (X b s k)) (hW1 : ∀ l k e, IsR (W1 l k e)) (hB1 : ∀ l e, IsR (B1 l e))
  (hG1 : ∀ l e, IsR (G1 l e)) (hBe1 : ∀ l e, IsR (Be1 l e)) (hW2 : ∀ l k e, IsR (W2 l k e)) (hB2 : ∀ l e, IsR (B2 l e))

include hX hW1 hB1 in
theorem h1_real (l : Fin 5) (b : Fin 32) (s : Fin 512) (e : Fin 1024) : IsR (h1 X W1 B1 l b s e) := by
  unfold h1
  exact (IsR.sum _ _ (fun k _ => (hX b s k).mul (hW1 l k e))).add (hB1 l e)

include hX hW1 hB1 in
theorem mu_real (l : Fin 5) (b : Fin 32) (s : Fin 512) : IsR (mu X W1 B1 l b s) := by
  unfold mu
  exact (IsR.sum _ _ (fun e _ => h1_real X W1 B1 hX hW1 hB1 l b s e)).div_c1024

include hX hW1 hB1 in
theorem dv_real (l : Fin 5) (b : Fin 32) (s : Fin 512) (e : Fin 1024) : IsR (dv X W1 B1 l b s e) := by
  unfold dv
  exact (h1_real X W1 B1 hX hW1 hB1 l b s e).sub (mu_real X W1 B1 hX hW1 hB1 l b s)

include hX hW1 hB1 hG1 hBe1 in
theorem h1r_real (l : Fin 5) (b : Fin 32) (s : Fin 512) (e : Fin 1024) : IsR (h1r X W1 B1 G1 Be1 l b s e) := by
  unfold h1r var
  have hd := dv_real X W1 B1 hX hW1 hB1 l b s
  have hr : IsR (Ideal.rsqrt (Ideal.div (∑ e : Fin 1024, dv X W1 B1 l b s e * dv X W1 B1 l b s e) c1024 + ceps)) :=
    rsqrt_real (IsR.sum _ _ (fun e _ => (hd e).mul (hd e)))
      (Finset.sum_nonneg (fun e _ => (hd e).mul_self_nonneg))
  exact ((((hd e).mul hr).mul (hG1 l e)).add (hBe1 l e)).max_zero

include hX hW1 hB1 hG1 hBe1 hW2 hB2 in
theorem h2_real (l : Fin 5) (b : Fin 32) (s : Fin 512) (e : Fin 1024) : IsR (h2 X W1 B1 G1 Be1 W2 B2 l b s e) := by
  unfold h2
  exact (IsR.sum _ _ (fun k _ => (h1r_real X W1 B1 G1 Be1 hX hW1 hB1 hG1 hBe1 l b s k).mul (hW2 l k e))).add (hB2 l e)

theorem toNat_of_valid (i : BitVec 32) (h : 0 ≤ i.toInt ∧ i.toInt < 5) : (i.toNat : Int) = i.toInt ∧ i.toNat < 5 := by
  have h1 := BitVec.toInt_eq_toNat_cond i
  have h2 := i.isLt
  split at h1 <;> omega

theorem onehot_of_valid (i : BitVec 32) (h : 0 ≤ i.toInt ∧ i.toInt < 5) (l : Fin 5) :
    onehot i l = if l = clampL i then 1 else 0 := by
  obtain ⟨h1, h2⟩ := toNat_of_valid i h
  have hc : (clampL i).val = i.toNat := by
    unfold clampL
    rw [if_neg (by omega), dif_pos h.2]
    simp only
    omega
  unfold onehot
  have hiff : i = BitVec.ofNat 32 l.val ↔ l = clampL i := by
    constructor
    · intro hi
      apply Fin.ext
      rw [hc, hi, BitVec.toNat_ofNat]
      have := l.isLt
      omega
    · intro hl
      apply BitVec.eq_of_toNat_eq
      rw [BitVec.toNat_ofNat, hl, hc]
      omega
  by_cases hl : l = clampL i
  · rw [if_pos (hiff.mpr hl), if_pos hl]
  · rw [if_neg (fun hi => hl (hiff.mp hi)), if_neg hl]

theorem onehot_of_invalid (i : BitVec 32) (h : ¬ (0 ≤ i.toInt ∧ i.toInt < 5)) (l : Fin 5) : onehot i l = 0 := by
  unfold onehot
  rw [if_neg]
  intro hi
  apply h
  have hl := l.isLt
  have h1 := BitVec.toInt_eq_toNat_cond i
  have h3 : i.toNat = l.val := by
    rw [hi, BitVec.toNat_ofNat]; omega
  split at h1 <;> omega

theorem onehot_sum (c h : Fin 5 → EReal) (l : Fin 5) (hc : ∀ l', c l' = if l' = l then 1 else 0) :
    ((((0 + c 0 * h 0) + c 1 * h 1) + c 2 * h 2) + c 3 * h 3) + c 4 * h 4 = h l := by
  fin_cases l <;> simp [hc]

theorem zero_sum (c h : Fin 5 → EReal) (hc : ∀ l', c l' = 0) :
    ((((0 + c 0 * h 0) + c 1 * h 1) + c 2 * h 2) + c 3 * h 3) + c 4 * h 4 = 0 := by
  simp [hc]

theorem kpool_eq_rpool (hM : ∀ b, msum M b ≠ 0) (b : Fin 32) (e : Fin 1024) :
    kpool X M ids W1 B1 G1 Be1 W2 B2 b e = rpool X M ids W1 B1 G1 Be1 W2 B2 b e := by
  unfold kpool rpool poolL
  by_cases hv : 0 ≤ (ids b).toInt ∧ (ids b).toInt < 5
  · have ha : ∀ s, adapted X ids W1 B1 G1 Be1 W2 B2 b s e = h2 X W1 B1 G1 Be1 W2 B2 (clampL (ids b)) b s e := by
      intro s
      unfold adapted
      exact onehot_sum (onehot (ids b)) (fun l => h2 X W1 B1 G1 Be1 W2 B2 l b s e) (clampL (ids b))
        (onehot_of_valid (ids b) hv)
    have hvf : validF (ids b) = 1 := by unfold validF; rw [if_pos hv]
    rw [hvf, mul_one]
    congr 1
    exact Finset.sum_congr rfl (fun s _ => by rw [ha s, mul_comm])
  · have ha : ∀ s, adapted X ids W1 B1 G1 Be1 W2 B2 b s e = 0 := by
      intro s
      unfold adapted
      exact zero_sum (onehot (ids b)) (fun l => h2 X W1 B1 G1 Be1 W2 B2 l b s e) (onehot_of_invalid (ids b) hv)
    have hvf : validF (ids b) = 0 := by unfold validF; rw [if_neg hv]
    have hs : ∑ s : Fin 512, adapted X ids W1 B1 G1 Be1 W2 B2 b s e * M b s = 0 :=
      Finset.sum_eq_zero (fun s _ => by rw [ha s, zero_mul])
    rw [hvf, mul_zero, hs, Ideal.div, if_neg (hM b), zero_mul]

end

end Cert.Pool

end
-- ==== Proof.PreFacts.lean ====
import proofs.«423535_j34024730919221_3_alg».proof.Pre_finite_inputs
import proofs.«423535_j34024730919221_3_alg».proof.Proof.Math
import Idealize.ShloMosaic.Lib.ReduceAll
import Idealize.ShloMosaic.Lib.ValueIdx
import Idealize.ShloMosaic.PureOps.Ideal.Laws

noncomputable section

namespace Cert.PreF

open Idealize.ShloMosaic Idealize.ShloMosaic.ValueIdx Cert.Pre_finite_inputs
open Cert.Pre_finite_inputs.Facts

instance : Subsingleton S_.Idx := ⟨fun a b => funext fun d => d.elim0⟩

theorem ofBool_decide_eq_one {p : Prop} [Decidable p] : BitVec.ofBool (decide p) = 1#1 ↔ p := by
  by_cases hp : p <;> simp [hp]

theorem isR_of_abs_lt {x : EReal}
    (h : Ideal.cmp .olt (max x (-x)) (Ideal.ofBits .f32 0x7F800000#32) = 1#1) : Cert.Pool.IsR x := by
  have htop : Ideal.ofBits .f32 0x7F800000#32 = ⊤ := by simp [Ideal.ofBits, Ideal.ieee]
  rw [htop] at h
  induction x using EReal.rec with
  | bot => simp [Ideal.cmp] at h
  | coe r => exact ⟨EReal.coe_ne_bot r, EReal.coe_ne_top r⟩
  | top => simp [Ideal.cmp] at h

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x)
        (broadcastInDim s ![] hb (constant (F := Ideal) S_ .f32 0x7F800000#32))) init hr hu ix0 = 1#1)
    (i : s.Idx) : Cert.Pool.IsR (x i) :=
  isR_of_abs_lt (Host.reduce_andi_all _ init hr hu ix0 e i)

variable [Facts]

theorem mask_of_all (a1 : FVec Ideal S32x512 .f32) (init : IVec S_ 1)
    (e : Host.reduce IntOp.andi (cmpf .une
        (Host.reduceAdd a1 (constant (F := Ideal) S_ .f32 0x00000000#32) reducesTo_S32x512_S32_d1 h_S_)
        (broadcastInDim S32 ![] bcast_S_S32 (constant (F := Ideal) S_ .f32 0x00000000#32))) init reducesTo_S32_S_d0 h_S_ ix0 = 1#1)
    (b : Fin 32) : (∑ s : Fin 512, a1 (ix2 b s)) ≠ 0 := by
  have h1 := Host.reduce_andi_all _ init reducesTo_S32_S_d0 h_S_ ix0 e (ix1 b)
  have hR : S32x512.Reduces [1] S32 := by decide
  change Ideal.cmp .une (Ideal.hostReduceAdd reducesTo_S32x512_S32_d1 a1 (Ideal.ofBits .f32 0x00000000#32) (ix1 b))
    (Ideal.ofBits .f32 0x00000000#32) = 1#1 at h1
  rw [Ideal.hostReduceAdd_single _ hR, Ideal.ofBits_zero_f32, zero_add] at h1
  have h2 : (∑ k : Fin 512, a1 (hR.lift (ix1 b) k)) ≠ 0 := by
    exact ofBool_decide_eq_one.1 h1
  have h3 : ∀ k : Fin 512, hR.lift (ix1 b) k = ix2 b k := by
    intro k; funext d
    match d with
    | ⟨0, _⟩ => exact Fin.ext rfl
    | ⟨1, _⟩ => exact Fin.ext rfl
  simpa only [h3] using h2

variable {a0 : FVec Ideal S32x512x1024 .f32} {a1 : FVec Ideal S32x512 .f32} {a2 : IVec S32 32}
  {a3 : FVec Ideal S32x100 .f32} {a4 : FVec Ideal S5x1024x1024 .f32} {a5 a6 a7 : FVec Ideal S5x1024 .f32}
  {a8 : FVec Ideal S5x1024x1024 .f32} {a9 : FVec Ideal S5x1024 .f32} {a10 : FVec Ideal S1124x512 .f32}
  {a11 a12 a13 : FVec Ideal S512 .f32}

theorem decode (h : fn (F := Ideal) a0 a1 a2 a3 a4 a5 a6 a7 a8 a9 a10 a11 a12 a13 = (fun _ => 1#1)) :
    (∀ i, Cert.Pool.IsR (a0 i)) ∧ (∀ i, Cert.Pool.IsR (a1 i)) ∧ (∀ i, Cert.Pool.IsR (a3 i)) ∧ (∀ i, Cert.Pool.IsR (a4 i))
    ∧ (∀ i, Cert.Pool.IsR (a5 i)) ∧ (∀ i, Cert.Pool.IsR (a6 i)) ∧ (∀ i, Cert.Pool.IsR (a7 i)) ∧ (∀ i, Cert.Pool.IsR (a8 i))
    ∧ (∀ i, Cert.Pool.IsR (a9 i)) ∧ (∀ i, Cert.Pool.IsR (a10 i)) ∧ (∀ i, Cert.Pool.IsR (a11 i)) ∧ (∀ i, Cert.Pool.IsR (a12 i))
    ∧ (∀ i, Cert.Pool.IsR (a13 i)) ∧ (∀ b : Fin 32, (∑ s : Fin 512, a1 (ix2 b s)) ≠ 0) := by
  have h0 := congrFun h ix0
  dsimp only [fn, fn_part1, fn_part2, fn_part3, fn_part4] at h0
  obtain ⟨h0, c14⟩ := IntOp.andi_eq_one.1 h0
  obtain ⟨h0, c13⟩ := IntOp.andi_eq_one.1 h0
  obtain ⟨h0, c12⟩ := IntOp.andi_eq_one.1 h0
  obtain ⟨h0, c11⟩ := IntOp.andi_eq_one.1 h0
  obtain ⟨h0, c10⟩ := IntOp.andi_eq_one.1 h0
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c0, c1⟩ := IntOp.andi_eq_one.1 h0
  exact ⟨real_of_all a0 _ _ _ _ c0, real_of_all a1 _ _ _ _ c1, real_of_all a3 _ _ _ _ c3, real_of_all a4 _ _ _ _ c4,
    real_of_all a5 _ _ _ _ c5, real_of_all a6 _ _ _ _ c6, real_of_all a7 _ _ _ _ c7, real_of_all a8 _ _ _ _ c8,
    real_of_all a9 _ _ _ _ c9, real_of_all a10 _ _ _ _ c10, real_of_all a11 _ _ _ _ c11, real_of_all a12 _ _ _ _ c12,
    real_of_all a13 _ _ _ _ c13, mask_of_all a1 _ c14⟩

theorem real_arg0 (h : fn (F := Ideal) a0 a1 a2 a3 a4 a5 a6 a7 a8 a9 a10 a11 a12 a13 = (fun _ => 1#1)) :
    ∀ i : S32x512x1024.Idx, Cert.Pool.IsR (a0 i) := (decode h).1

theorem real_arg1 (h : fn (F := Ideal) a0 a1 a2 a3 a4 a5 a6 a7 a8 a9 a10 a11 a12 a13 = (fun _ => 1#1)) :
    ∀ i : S32x512.Idx, Cert.Pool.IsR (a1 i) := (decode h).2.1

theorem real_arg4 (h : fn (F := Ideal) a0 a1 a2 a3 a4 a5 a6 a7 a8 a9 a10 a11 a12 a13 = (fun _ => 1#1)) :
    ∀ i : S5x1024x1024.Idx, Cert.Pool.IsR (a4 i) := (decode h).2.2.2.1

theorem real_arg5 (h : fn (F := Ideal) a0 a1 a2 a3 a4 a5 a6 a7 a8 a9 a10 a11 a12 a13 = (fun _ => 1#1)) :
    ∀ i : S5x1024.Idx, Cert.Pool.IsR (a5 i) := (decode h).2.2.2.2.1

theorem real_arg6 (h : fn (F := Ideal) a0 a1 a2 a3 a4 a5 a6 a7 a8 a9 a10 a11 a12 a13 = (fun _ => 1#1)) :
    ∀ i : S5x1024.Idx, Cert.Pool.IsR (a6 i) := (decode h).2.2.2.2.2.1

theorem real_arg7 (h : fn (F := Ideal) a0 a1 a2 a3 a4 a5 a6 a7 a8 a9 a10 a11 a12 a13 = (fun _ => 1#1)) :
    ∀ i : S5x1024.Idx, Cert.Pool.IsR (a7 i) := (decode h).2.2.2.2.2.2.1

theorem real_arg8 (h : fn (F := Ideal) a0 a1 a2 a3 a4 a5 a6 a7 a8 a9 a10 a11 a12 a13 = (fun _ => 1#1)) :
    ∀ i : S5x1024x1024.Idx, Cert.Pool.IsR (a8 i) := (decode h).2.2.2.2.2.2.2.1

theorem real_arg9 (h : fn (F := Ideal) a0 a1 a2 a3 a4 a5 a6 a7 a8 a9 a10 a11 a12 a13 = (fun _ => 1#1)) :
    ∀ i : S5x1024.Idx, Cert.Pool.IsR (a9 i) := (decode h).2.2.2.2.2.2.2.2.1

theorem mask_sum_ne (h : fn (F := Ideal) a0 a1 a2 a3 a4 a5 a6 a7 a8 a9 a10 a11 a12 a13 = (fun _ => 1#1)) :
    ∀ b : Fin 32, (∑ s : Fin 512, a1 (ix2 b s)) ≠ 0 := (decode h).2.2.2.2.2.2.2.2.2.2.2.2.2

end Cert.PreF

end
-- ==== Proof.KI.Base.lean ====
import proofs.«423535_j34024730919221_3_alg».proof.Proof.Gen.KernelIdeal
import proofs.«423535_j34024730919221_3_alg».proof.Proof.Gen.KernelIdeal.Skeleton
import proofs.«423535_j34024730919221_3_alg».proof.Proof.Gen.KernelIdeal.Launch
import Idealize.ShloMosaic.Lib.Pipeline.Regions

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev preOps : List (HloOp τ sig (Elt F)) := List.flatten [hostOps0, hostOps0_1, hostOps0_2, hostOps0_3, hostOps0_4, hostOps0_5]

noncomputable abbrev Vl (c : Dev nD) : Valuation τ sig (Elt F) := fun b => m (c, b)

noncomputable abbrev V0 (c : Dev nD) : Valuation τ sig (Elt F) := StableHlo.after (preOps (F := F)) (Vl m c)

noncomputable abbrev V (c : Dev nD) (b : Ref sig .tc) : Buf (Elt F) ((c : Thread nD τ).loc b) := V0 m c (Proc.devRef .tc b)

noncomputable def tbl : pre0.Contents (Elt F) := fun j => V m (0 : Dev nD) (pre0.ref j)

noncomputable abbrev Ok : Prop := ok0 (F := F) (tbl m)

noncomputable abbrev adm (hO : Ok m) : (pcfg0 (F := F)).Adm := ⟨tbl m, hO⟩
noncomputable abbrev admP (hO : Ok m) : (p : Fin 1) → (pcfgs (F := F) p).Adm := fun _ => adm m hO
noncomputable abbrev cfgM (hO : Ok m) : Pipeline.Cfg sig Λ₀ := cfg0 (adm m hO)

noncomputable def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end Cert.KI

end
-- ==== Proof.KI.Data.lean ====
import proofs.«423535_j34024730919221_3_alg».proof.Proof.KI.Base
import Idealize.ShloMosaic.Lib.ValueIdx

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

noncomputable def payOf (x0 : Vec F S1x512x1024 .f32) (x1 : Vec F S1x1x512 .f32) (x2 : Vec F S1x1024x1024 .f32) (x3 : Vec F S1x1x1024 .f32)
    (x4 : Vec F S1x1x1024 .f32) (x5 : Vec F S1x1x1024 .f32) (x6 : Vec F S1x1024x1024 .f32) (x7 : Vec F S1x1x1024 .f32) : FVec F S1x1024 .f32 :=
  k0_pay1 (k0_pay9 (k0_pay2 x1)) (k0_pay10 (k0_pay2 x1)) (k0_pay11 (k0_pay2 x1))
    (k0_pay12 (k0_pay3 x4) (k0_pay4 x5) (k0_pay5 x6) (k0_pay6 x7) (k0_pay7 x0 x2 x3))
    (k0_pay13 (k0_pay3 x4) (k0_pay4 x5) (k0_pay5 x6) (k0_pay6 x7) (k0_pay7 x0 x2 x3))

noncomputable def rowRel (i : grid0.Coords) (p : FVec F S1x1024 .f32) (Y X : S8x1024.Idx → F .f32) : Prop :=
  ∀ idx : S8x1024.Idx, X idx = if (idx 0).val = (i 1).val then p (ValueIdx.ix2 (0 : Fin 1) (idx 1)) else Y idx

variable (m : (ℓ : Loc nD τ sig) → Buf (Elt F) ℓ) (ρ : Dev nD → PrngReg)

noncomputable def payAt (hO : Ok m) (c : Dev nD) (t : Fin (cfgM m hO).N) : FVec F S1x1024 .f32 :=
  payOf (iblk m hO c 0 t) (iblk m hO c 1 t) (iblk m hO c 2 t) (iblk m hO c 3 t) (iblk m hO c 4 t) (iblk m hO c 5 t) (iblk m hO c 6 t) (iblk m hO c 7 t)

noncomputable def Φc (c : Dev nD) : sProp 𝕄 :=
  iprop(Pipeline.prefHeld pre0 c (fun _ => fullShare) (tbl m)
    ∗ Pipeline.scopedRest (Ix := Unit) (Name := ℕ) (U := UR sig nD τ) (Lvl := ℕ) (Val := Elt F) spec0 c)

noncomputable def rd (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => rowRel ((cfgM m hO).grid.coords t) (payAt m hO c t) Y X
    | ⟨_ + 9, h⟩ => absurd h (Nat.not_lt.2 (Nat.le_add_left _ _))
  Φ _ := Φc m c
  q _ := fullShare
  owed _ := 0

noncomputable def Aout (hO : Ok m) (c : Dev nD) : FVec F S32x1024 .f32 := fun idx =>
  payAt m hO c ⟨(idx 0).val, lt_of_lt_of_eq (idx 0).isLt (show S32x1024.size 0 = (cfgM m hO).N from N_0.symm)⟩ (ValueIdx.ix2 (0 : Fin 1) (idx 1))

end Cert.KI

end
-- ==== Proof.KI.Vals.lean ====
import proofs.«423535_j34024730919221_3_alg».proof.Proof.KI.Data
import Idealize.ShloMosaic.Lib.Pipeline.FrameSuffix

set_option maxRecDepth 16384

noncomputable section

namespace Cert.KI

open Cert.KernelIdeal Cert.KernelIdeal.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

noncomputable def Afin (hO : Ok m) (c : Dev nD) : (w : Fin 9) → Buf (Elt F) ((spec0 w).arr.view.loc (c : Thread nD τ)) := fun w => match w with
  | ⟨0, _⟩ => V m c (Pipeline.arrRef spec0 0)
  | ⟨1, _⟩ => V m c (Pipeline.arrRef spec0 1)
  | ⟨2, _⟩ => V m c (Pipeline.arrRef spec0 2)
  | ⟨3, _⟩ => V m c (Pipeline.arrRef spec0 3)
  | ⟨4, _⟩ => V m c (Pipeline.arrRef spec0 4)
  | ⟨5, _⟩ => V m c (Pipeline.arrRef spec0 5)
  | ⟨6, _⟩ => V m c (Pipeline.arrRef spec0 6)
  | ⟨7, _⟩ => V m c (Pipeline.arrRef spec0 7)
  | ⟨8, _⟩ => Aout m hO c
  | ⟨_ + 9, h⟩ => absurd h (Nat.not_lt.2 (Nat.le_add_left _ _))

noncomputable abbrev Wx (hO : Ok m) (c : Dev nD) : Valuation τ sig (Elt F) := Pipeline.withArrays spec0 c (V0 m c) (Afin m hO c)

noncomputable abbrev S' : Finset (DevRef τ sig) := Pipeline.tailRefs (τ := τ) sig pre0 spec0

noncomputable abbrev X1 (hO : Ok m) (c : Dev nD) : Valuation τ sig (Elt F) := StableHlo.after hostOps1 (Wx m hO c)

noncomputable abbrev X2 (hO : Ok m) (c : Dev nD) : Valuation τ sig (Elt F) := StableHlo.after hostOps1_1 (X1 m hO c)

end Cert.KI

end
-- ==== Proof.KI.Arr.lean ====
import proofs.«423535_j34024730919221_3_alg».proof.Proof.KI.Data
import Idealize.ShloMosaic.Lib.Pipeline.FrameBody
import Idealize.ShloMosaic.Lib.Pipeline.Cells

set_option maxRecDepth 16384

noncomputable section

namespace Cert.KI

open Cert.KernelIdeal Cert.KernelIdeal.Gen
open Idealize.ShloMosaic Idealize.ShloMosaic.TcCoe
open Idealize.ShloMosaic.Pipeline (Dat RDat Cfg Window cellOf)

variable {F : FTy → Type} [FloatOps F]

variable (m : (ℓ : Loc nD τ sig) → Buf (Elt F) ℓ)

theorem cfgM_N (hO : Ok m) : (cfgM m hO).N = 32 := N_0

theorem lt32 (hO : Ok m) (t : Fin (cfgM m hO).N) : t.val < 32 := by
  exact Nat.lt_of_lt_of_eq t.isLt (cfgM_N m hO)

theorem coords1 (hO : Ok m) (t : Fin (cfgM m hO).N) : ((((cfgM m hO).grid.coords t : grid0.Coords)) 1).val = t.val % 8 :=
  (by decide +kernel : ∀ t : Fin grid0.N, ((grid0.coords t) 1).val = t.val % 8) t

theorem flush8 (hO : Ok m) (t : Fin (cfgM m hO).N) : ((cfgM m hO).win 8).flush t = true ↔ t.val % 8 = 7 :=
  (by decide +kernel : ∀ t : Fin grid0.N, Pipeline.Window.flushOf grid0 true cc0_transform_8 t = true ↔ t.val % 8 = 7) t

theorem fetch8 (hO : Ok m) (t : Fin (cfgM m hO).N) : ((cfgM m hO).win 8).fetch t = false := rfl

theorem isOut_in (hO : Ok m) (w : Fin (cfgM m hO).W) (hw : w.val < 8) : ((cfgM m hO).win w).isOut = false := by
  match w, hw with
  | ⟨0, _⟩, _ => rfl | ⟨1, _⟩, _ => rfl | ⟨2, _⟩, _ => rfl | ⟨3, _⟩, _ => rfl
  | ⟨4, _⟩, _ => rfl | ⟨5, _⟩, _ => rfl | ⟨6, _⟩, _ => rfl | ⟨7, _⟩, _ => rfl
  | ⟨_ + 8, _⟩, h => exact absurd h (by simp)

theorem finds_in (hO : Ok m) (c : Dev nD) (w : Fin (cfgM m hO).W) (hw : w.val < 8) (t : Fin (cfgM m hO).N)
    (Y : ((cfgM m hO).win w).block.Idx → Elt F ((cfgM m hO).win w).elt) (hY : (rd m hO c).Finds w t Y) :
    Y = iblk m hO c w t := by
  have hin : ((cfgM m hO).win w).isOut = false := isOut_in m hO w hw
  have hkeep : ∀ t Y X, (rd m hO c).after w t Y X → X = Y := by
    match w, hw with
    | ⟨0, _⟩, _ => exact fun _ _ _ h => h | ⟨1, _⟩, _ => exact fun _ _ _ h => h
    | ⟨2, _⟩, _ => exact fun _ _ _ h => h | ⟨3, _⟩, _ => exact fun _ _ _ h => h
    | ⟨4, _⟩, _ => exact fun _ _ _ h => h | ⟨5, _⟩, _ => exact fun _ _ _ h => h
    | ⟨6, _⟩, _ => exact fun _ _ _ h => h | ⟨7, _⟩, _ => exact fun _ _ _ h => h
    | ⟨_ + 8, _⟩, h => exact absurd h (by simp)
  obtain ⟨d, hd⟩ := RDat.finds_in_eq_fetched (rd m hO c) w hin (fun _ _ _ => rfl) hkeep t Y hY
  rw [hd]
  exact ((cfgM m hO).win w).cut_fill ((cfgM m hO).grid.coords t) d ((rd m hO c).blockOf w t)

theorem leaves8_step (hO : Ok m) (c : Dev nD) (t : Fin (cfgM m hO).N)
    (X : ((cfgM m hO).win 8).block.Idx → Elt F ((cfgM m hO).win 8).elt) (hX : (rd m hO c).Leaves 8 t X) :
    ∃ Y, (rd m hO c).Finds 8 t Y ∧ ∀ idx : S8x1024.Idx,
      X idx = if (idx 0).val = t.val % 8 then payAt m hO c t (ValueIdx.ix2 (0 : Fin 1) (idx 1)) else Y idx := by
  obtain ⟨Y, hY, hR⟩ := hX
  refine ⟨Y, hY, fun idx => ?_⟩
  have hR' : rowRel ((cfgM m hO).grid.coords t) (payAt m hO c t) Y X := hR
  have h := hR' idx
  rw [coords1 m hO t] at h
  exact h

theorem leaves8 (hO : Ok m) (c : Dev nD) :
    ∀ (n : Nat) (t : Fin (cfgM m hO).N), t.val = n →
    ∀ (X : ((cfgM m hO).win 8).block.Idx → Elt F ((cfgM m hO).win 8).elt), (rd m hO c).Leaves 8 t X →
    ∀ (s : Fin (cfgM m hO).N), s.val / 8 = t.val / 8 → s.val ≤ t.val →
    ∀ idx : S8x1024.Idx, (idx 0).val = s.val % 8 → X idx = payAt m hO c s (ValueIdx.ix2 (0 : Fin 1) (idx 1)) := by
  intro n
  induction n with
  | zero =>
    intro t ht X hX s hg hs idx hi
    obtain ⟨Y, hY, hR⟩ := leaves8_step m hO c t X hX
    have hst : s = t := Fin.ext (by omega)
    subst hst
    exact (hR idx).trans (if_pos hi)
  | succ n ih =>
    intro t ht X hX s hg hs idx hi
    obtain ⟨Y, hY, hR⟩ := leaves8_step m hO c t X hX
    by_cases hst : s.val = t.val
    · have hst' : s = t := Fin.ext hst
      subst hst'
      exact (hR idx).trans (if_pos hi)
    · refine (hR idx).trans ((if_neg (by omega)).trans ?_)
      rcases ((rd m hO c).finds_of_pos (fetch8 m hO t) (by omega) Y).mp hY with hfl | hL
      · exact absurd ((flush8 m hO _).mp hfl) (by show ¬ ((t.val - 1) % 8 = 7); omega)
      · exact ih ⟨t.val - 1, Nat.lt_of_le_of_lt (Nat.sub_le _ _) t.isLt⟩ (by show t.val - 1 = n; omega) Y hL s
          (by show s.val / 8 = (t.val - 1) / 8; omega) (by show s.val ≤ t.val - 1; omega) idx hi

theorem index8_0 (hO : Ok m) (u : Fin (cfgM m hO).N) : ((cfgM m hO).win 8).index u (0 : Fin 2) = u.val / 8 :=
  (by decide +kernel : ∀ t : Fin grid0.N, cc0_transform_8 (grid0.coords t) (0 : Fin 2) = t.val / 8) u

theorem index8_1 (hO : Ok m) (u : Fin (cfgM m hO).N) : ((cfgM m hO).win 8).index u (1 : Fin 2) = 0 := rfl

theorem emb8_0 (hO : Ok m) (u : Fin (cfgM m hO).N) (y : S8x1024.Idx) :
    ((((cfgM m hO).win 8).blk u).view.emb y (0 : Fin 2)).val = u.val / 8 * 8 + (y 0).val := by
  show ((cfgM m hO).win 8).index u (0 : Fin 2) * 8 + 1 * (y 0).val = _
  rw [index8_0]; omega

theorem emb8_1 (hO : Ok m) (u : Fin (cfgM m hO).N) (y : S8x1024.Idx) :
    ((((cfgM m hO).win 8).blk u).view.emb y (1 : Fin 2)).val = (y 1).val := by
  show ((cfgM m hO).win 8).index u (1 : Fin 2) * 1024 + 1 * (y 1).val = _
  rw [index8_1]; omega

theorem mem_blk8 (hO : Ok m) (u : Fin (cfgM m hO).N) (idx : S32x1024.Idx) :
    idx ∈ (((cfgM m hO).win 8).blk u).view.set ↔ (idx 0).val / 8 = u.val / 8 := by
  have hset : (((cfgM m hO).win 8).blk u).view.set = (((cfgM m hO).win 8).rect u).set := View.set_slice_whole _ _
  have hunit : idx ∈ (((cfgM m hO).win 8).rect u).set ↔
      ∀ a : Fin 2, ((cfgM m hO).win 8).index u a * S8x1024.size a ≤ (idx a).val
        ∧ (idx a).val < ((cfgM m hO).win 8).index u a * S8x1024.size a + S8x1024.size a := Rect.mem_set_unit
  have hiff : idx ∈ (((cfgM m hO).win 8).blk u).view.set ↔ idx ∈ (((cfgM m hO).win 8).rect u).set :=
    Iff.of_eq (congrArg (fun A : Finset S32x1024.Idx => idx ∈ A) hset)
  refine hiff.trans (hunit.trans ?_)
  have h0 : (idx 0).val < 32 := (idx 0).isLt
  have h1 : (idx 1).val < 1024 := (idx 1).isLt
  have e0 := index8_0 m hO u
  have e1 := index8_1 m hO u
  constructor
  · intro h
    have h' : ((cfgM m hO).win 8).index u (0 : Fin 2) * 8 ≤ (idx 0).val
        ∧ (idx 0).val < ((cfgM m hO).win 8).index u (0 : Fin 2) * 8 + 8 := h (0 : Fin 2)
    rw [e0] at h'; omega
  · intro h
    refine Fin.forall_fin_two.mpr ⟨?_, ?_⟩
    · show ((cfgM m hO).win 8).index u (0 : Fin 2) * 8 ≤ (idx 0).val
        ∧ (idx 0).val < ((cfgM m hO).win 8).index u (0 : Fin 2) * 8 + 8
      rw [e0]; omega
    · show ((cfgM m hO).win 8).index u (1 : Fin 2) * 1024 ≤ (idx 1).val
        ∧ (idx 1).val < ((cfgM m hO).win 8).index u (1 : Fin 2) * 1024 + 1024
      rw [e1]; omega

theorem arrAt8_aux (hO : Ok m) (c : Dev nD) :
    ∀ (n : Nat), n ≤ (cfgM m hO).N →
    ∀ G : Buf (Elt F) (((cfgM m hO).win 8).arr.view.loc (c.tc : Thread nD τ)), (rd m hO c).ArrAt 8 n G →
    ∀ s : Fin (cfgM m hO).N, s.val / 8 * 8 + 8 ≤ n →
    ∀ (idx : S32x1024.Idx) (e : Fin 1024), (idx 0).val = s.val → (idx 1).val = e.val →
      G idx = payAt m hO c s (ValueIdx.ix2 (0 : Fin 1) e)
  | 0 => fun _ _ _ s hs => absurd hs (by omega)
  | n + 1 => by
    intro hn G hG s hs idx e hi he
    have hlt : n < (cfgM m hO).N := hn
    have hsucc := RDat.ArrAt_succ (rd m hO c) 8 ⟨n, hlt⟩
    have hG' : (if ((cfgM m hO).win 8).flush ⟨n, hlt⟩ = true
        then (rd m hO c).ArrStep 8 ⟨n, hlt⟩ ((rd m hO c).ArrAt 8 n) else (rd m hO c).ArrAt 8 n) G := hsucc ▸ hG
    by_cases hf : ((cfgM m hO).win 8).flush ⟨n, hlt⟩ = true
    · rw [if_pos hf] at hG'
      obtain ⟨G₀, X, hG₀, hX, hGe⟩ := hG'
      have h7 : n % 8 = 7 := (flush8 m hO ⟨n, hlt⟩).mp hf
      subst hGe
      by_cases hin : (idx 0).val / 8 = n / 8
      · obtain ⟨(y : S8x1024.Idx), -, hy⟩ := Finset.mem_map.mp ((mem_blk8 m hO ⟨n, hlt⟩ idx).mpr hin)
        have k0 := emb8_0 m hO ⟨n, hlt⟩ y
        have k1 := emb8_1 m hO ⟨n, hlt⟩ y
        have hw := View.write_emb_of_mem (v := (((cfgM m hO).win 8).blk ⟨n, hlt⟩).view) (Val := Elt F) G₀
          (((cfgM m hO).win 8).cut ((cfgM m hO).grid.coords ⟨n, hlt⟩) X) (M := Finset.univ) (x := y) (Finset.mem_univ y)
        subst hy
        have k0' : n / 8 * 8 + (y 0).val = s.val := k0.symm.trans hi
        have k1' : (y 1).val = e.val := k1.symm.trans he
        have hrow := leaves8 m hO c n ⟨n, hlt⟩ rfl X hX s (by show s.val / 8 = n / 8; omega) (by show s.val ≤ n; omega) y
          (by show (y 0).val = s.val % 8; have := (y 0).isLt; omega)
        have e1 : y 1 = e := Fin.ext k1'
        rw [e1] at hrow
        exact hw.trans ((cast_eq _ _).trans hrow)
      · exact (View.write_of_not_mem _ _ _ (fun h => hin ((mem_blk8 m hO ⟨n, hlt⟩ idx).mp h))).trans
          (arrAt8_aux hO c n (Nat.le_of_lt hlt) G₀ hG₀ s (by omega) idx e hi he)
    · rw [if_neg hf] at hG'
      have h7 : n % 8 ≠ 7 := fun h => hf ((flush8 m hO ⟨n, hlt⟩).mpr h)
      exact arrAt8_aux hO c n (Nat.le_of_lt hlt) G hG' s (by omega) idx e hi he

theorem arrAt8 (hO : Ok m) (c : Dev nD) (G : Buf (Elt F) (((cfgM m hO).win 8).arr.view.loc (c.tc : Thread nD τ)))
    (hG : (rd m hO c).ArrAt 8 (cfgM m hO).N G) (s : Fin (cfgM m hO).N) (idx : S32x1024.Idx) (hi : (idx 0).val = s.val) :
    G idx = payAt m hO c s (ValueIdx.ix2 (0 : Fin 1) (idx 1)) :=
  arrAt8_aux m hO c (cfgM m hO).N (Nat.le_refl _) G hG s
    (by have h1 := lt32 m hO s; have h2 := cfgM_N m hO; omega) idx (idx 1) hi rfl

theorem arrAt8_eq (hO : Ok m) (c : Dev nD) (G : Buf (Elt F) (((cfgM m hO).win 8).arr.view.loc (c.tc : Thread nD τ)))
    (hG : (rd m hO c).ArrAt 8 (cfgM m hO).N G) : G = Aout m hO c :=
  funext fun (idx : S32x1024.Idx) =>
    (arrAt8 m hO c G hG ⟨(idx 0).val, lt_of_lt_of_eq (idx 0).isLt (show S32x1024.size 0 = (cfgM m hO).N from N_0.symm)⟩ idx rfl :
      G idx = payAt m hO c ⟨(idx 0).val, lt_of_lt_of_eq (idx 0).isLt (show S32x1024.size 0 = (cfgM m hO).N from N_0.symm)⟩
        (ValueIdx.ix2 (0 : Fin 1) (idx 1)))

theorem arrAt_in (hO : Ok m) (c : Dev nD) (w : Fin (cfgM m hO).W) (hw : w.val < 8)
    (G : Buf (Elt F) (((cfgM m hO).win w).arr.view.loc (c.tc : Thread nD τ)))
    (hG : (rd m hO c).ArrAt w (cfgM m hO).N G) : G = (rd m hO c).A w := by
  have hin : ((cfgM m hO).win w).isOut = false := isOut_in m hO w hw
  rw [RDat.ArrAt_in (rd m hO c) w hin] at hG
  exact hG

end Cert.KI

end
-- ==== Proof.KI.Body.lean ====
import proofs.«423535_j34024730919221_3_alg».proof.Proof.KI.Data
import proofs.«423535_j34024730919221_3_alg».proof.Proof.KI.Arr
import Idealize.ShloMosaic.Lib.Tactic
import Idealize.ShloMosaic.Lib.Pipeline.Frame
import Idealize.ShloMosaic.Lib.Pipeline.Value
import Idealize.ShloMosaic.Lib.WritesUnit
import Idealize.ShloMosaic.Lib.ValueIdx

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem k0_off2_eq (i : grid0.Coords) : k0_off2 i = ![(i 1).val, 0] := by
  have h : (i 1).val < 8 := (i 1).isLt
  show ![(BitVec.ofNat 32 (i 1).val).toNat, 0] = ![(i 1).val, 0]
  rw [BitVec.toNat_ofNat, Nat.mod_eq_of_lt (by omega)]

theorem zeros3 : (![0, 0, 0] : Fin 3 → ℕ) = fun _ => 0 := by
  funext a; fin_cases a <;> rfl

theorem readAt_whole_unread {κ : Kind} {sp : Space} {S : Shape} {e : EltTy} {M : Memref sig κ sp S e} (h : M.IsWhole)
    (X : S.Idx → Elt F e) {off : Fin S.rank → ℕ} (ho : off = fun _ => 0) (inb : ∀ a, off a + S.size a ≤ S.size a) :
    M.view.readAt (Elt F) (Rect.unit off S.size inb).toLoadRect (h.unread X) = X := by
  show View.ld (M.view.read (Elt F) (h.unread X)) (Rect.unit off S.size inb) = X
  rw [h.read_unread]
  exact View.ld_unit_zero ho inb X

theorem rowRel_store (i : grid0.Coords) {κ : Kind} {sp : Space} (v : View sig κ sp S8x1024 .f32) (f8 : v.ty.Contents (Elt F))
    (inb : ∀ a, (k0_off2 i) a + S1x1024.size a ≤ S8x1024.size a) (p : FVec F S1x1024 .f32) :
    rowRel i p (v.read (Elt F) f8)
      (v.read (Elt F) (v.writes (Elt F) f8 [(⟨Rect.unit (s := S8x1024) (k0_off2 i) S1x1024.size inb, p⟩ : View.Piece (Elt F) S8x1024 .f32)])) := by
  intro idx
  by_cases hrow : (idx 0).val = (i 1).val
  · rw [if_pos hrow]
    exact View.read_writes_cons_rows_of_mem v f8 inb p [] idx (ValueIdx.ix2 (0 : Fin 1) (idx 1)) (k0_off2_eq i) hrow rfl
  · rw [if_neg hrow]
    exact View.read_writes_cons_rows_of_not_mem v f8 inb p [] idx (k0_off2_eq i) (W := 1) rfl (by omega)

set_option maxHeartbeats 1000000 in
theorem kernelRun (c : Dev nD) (i : grid0.Coords)
    (arg4 : Memref sig .tc .vmem S1x512x1024 .f32) (harg4 : arg4.IsWhole)
    (arg5 : Memref sig .tc .vmem S1x1x512 .f32) (harg5 : arg5.IsWhole)
    (arg6 : Memref sig .tc .vmem S1x1024x1024 .f32) (harg6 : arg6.IsWhole)
    (arg7 arg8 arg9 : Memref sig .tc .vmem S1x1x1024 .f32) (harg7 : arg7.IsWhole) (harg8 : arg8.IsWhole) (harg9 : arg9.IsWhole)
    (arg10 : Memref sig .tc .vmem S1x1024x1024 .f32) (harg10 : arg10.IsWhole)
    (arg11 : Memref sig .tc .vmem S1x1x1024 .f32) (harg11 : arg11.IsWhole)
    (arg12 : Memref sig .tc .vmem S8x1024 .f32) (harg12 : arg12.IsWhole)
    (x0 : Vec F S1x512x1024 .f32) (x1 : Vec F S1x1x512 .f32) (x2 : Vec F S1x1024x1024 .f32)
    (x3 x4 x5 : Vec F S1x1x1024 .f32) (x6 : Vec F S1x1024x1024 .f32) (x7 : Vec F S1x1x1024 .f32)
    (d : Vec F S8x1024 .f32) :
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4 ∗ owns (c : Thread nD τ) arg9 fullShare x5
            ∗ owns (c : Thread nD τ) arg10 fullShare x6 ∗ owns (c : Thread nD τ) arg11 fullShare x7
            ∗ owns (c : Thread nD τ) arg12 fullShare d
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ owns (c : Thread nD τ) arg8 fullShare x4 ∗ owns (c : Thread nD τ) arg9 fullShare x5
                ∗ owns (c : Thread nD τ) arg10 fullShare x6 ∗ owns (c : Thread nD τ) arg11 fullShare x7
                ∗ (∃ X, ⌜rowRel i (payOf x0 x1 x2 x3 x4 x5 x6 x7) d X⌝ ∗ owns (c : Thread nD τ) arg12 fullShare X)) -∗ K ⟨⟩))
          ⊢ wp frame (wpE (defs₀ (F := F)) Variants.none c none) E
              (cc0__adapter_pool_kernel i (Memref.whole main_v6) (Memref.isWhole_whole _) (Memref.whole main_v13) (Memref.isWhole_whole _)
                arg4 harg4 arg5 harg5 arg6 harg6 arg7 harg7 arg8 harg8 arg9 harg9 arg10 harg10 arg11 harg11 arg12 harg12) K := by
    intro E K
    simp only [cc0__adapter_pool_kernel_eq_skeleton]; unfold cc0__adapter_pool_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg4.eq_unread hf0
    obtain rfl := harg5.eq_unread hf1
    obtain rfl := harg6.eq_unread hf2
    obtain rfl := harg7.eq_unread hf3
    obtain rfl := harg8.eq_unread hf4
    obtain rfl := harg9.eq_unread hf5
    obtain rfl := harg10.eq_unread hf6
    obtain rfl := harg11.eq_unread hf7
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; isplitr; swap
    · iexists _; isplitr; swap
      · iexact H8
      · ipureintro; rfl
    ipureintro
    subst hf8
    rw [readAt_whole_unread harg4 x0 zeros3, readAt_whole_unread harg5 x1 zeros3, readAt_whole_unread harg6 x2 zeros3,
      readAt_whole_unread harg7 x3 zeros3, readAt_whole_unread harg8 x4 zeros3, readAt_whole_unread harg9 x5 zeros3,
      readAt_whole_unread harg10 x6 zeros3, readAt_whole_unread harg11 x7 zeros3]
    exact rowRel_store i arg12.view f8 _ _

variable (m : (ℓ : Loc nD τ sig) → Buf (Elt F) ℓ)

theorem sound_body (hO : Ok m) (c : Dev nD) (t : Fin (cfgM m hO).N)
    (Y : (w : Fin (cfgM m hO).W) → ((cfgM m hO).win w).block.Idx → Elt F ((cfgM m hO).win w).elt) :
    iprop((rd m hO c).Φ t.castSucc ∗ (rd m hO c).owesAt () t.castSucc
        ∗ owns (c : Thread nD τ) (((cfgM m hO).win 0).stage ((cfgM m hO).slots t 0)) fullShare (Y 0)
        ∗ owns (c : Thread nD τ) (((cfgM m hO).win 1).stage ((cfgM m hO).slots t 1)) fullShare (Y 1)
        ∗ owns (c : Thread nD τ) (((cfgM m hO).win 2).stage ((cfgM m hO).slots t 2)) fullShare (Y 2)
        ∗ owns (c : Thread nD τ) (((cfgM m hO).win 3).stage ((cfgM m hO).slots t 3)) fullShare (Y 3)
        ∗ owns (c : Thread nD τ) (((cfgM m hO).win 4).stage ((cfgM m hO).slots t 4)) fullShare (Y 4)
        ∗ owns (c : Thread nD τ) (((cfgM m hO).win 5).stage ((cfgM m hO).slots t 5)) fullShare (Y 5)
        ∗ owns (c : Thread nD τ) (((cfgM m hO).win 6).stage ((cfgM m hO).slots t 6)) fullShare (Y 6)
        ∗ owns (c : Thread nD τ) (((cfgM m hO).win 7).stage ((cfgM m hO).slots t 7)) fullShare (Y 7)
        ∗ owns (c : Thread nD τ) (((cfgM m hO).win 8).stage ((cfgM m hO).slots t 8)) fullShare (Y 8))
      ⊢ wp frame (wpE (defs₀ (F := F)) Variants.none c none) Set.univ
          (cc0__adapter_pool_kernel ((cfgM m hO).grid.coords t) (Memref.whole main_v6) (Memref.isWhole_whole _) (Memref.whole main_v13) (Memref.isWhole_whole _)
            (spec0_0.stage ((cfgM m hO).slots t 0)) (hstage0_0 (((cfgM m hO).slots t 0).cast nbuf0_0))
            (spec0_1.stage ((cfgM m hO).slots t 1)) (hstage0_1 (((cfgM m hO).slots t 1).cast nbuf0_1))
            (spec0_2.stage ((cfgM m hO).slots t 2)) (hstage0_2 (((cfgM m hO).slots t 2).cast nbuf0_2))
            (spec0_3.stage ((cfgM m hO).slots t 3)) (hstage0_3 (((cfgM m hO).slots t 3).cast nbuf0_3))
            (spec0_4.stage ((cfgM m hO).slots t 4)) (hstage0_4 (((cfgM m hO).slots t 4).cast nbuf0_4))
            (spec0_5.stage ((cfgM m hO).slots t 5)) (hstage0_5 (((cfgM m hO).slots t 5).cast nbuf0_5))
            (spec0_6.stage ((cfgM m hO).slots t 6)) (hstage0_6 (((cfgM m hO).slots t 6).cast nbuf0_6))
            (spec0_7.stage ((cfgM m hO).slots t 7)) (hstage0_7 (((cfgM m hO).slots t 7).cast nbuf0_7))
            (spec0_8.stage ((cfgM m hO).slots t 8)) (hstage0_8 (((cfgM m hO).slots t 8).cast nbuf0_8)))
          (fun _ => iprop((rd m hO c).Φ t.castSucc ∗ (rd m hO c).owesAt () t.castSucc
            ∗ (∃ X, ⌜X = Y 0⌝ ∗ owns (c : Thread nD τ) (((cfgM m hO).win 0).stage ((cfgM m hO).slots t 0)) fullShare X)
            ∗ (∃ X, ⌜X = Y 1⌝ ∗ owns (c : Thread nD τ) (((cfgM m hO).win 1).stage ((cfgM m hO).slots t 1)) fullShare X)
            ∗ (∃ X, ⌜X = Y 2⌝ ∗ owns (c : Thread nD τ) (((cfgM m hO).win 2).stage ((cfgM m hO).slots t 2)) fullShare X)
            ∗ (∃ X, ⌜X = Y 3⌝ ∗ owns (c : Thread nD τ) (((cfgM m hO).win 3).stage ((cfgM m hO).slots t 3)) fullShare X)
            ∗ (∃ X, ⌜X = Y 4⌝ ∗ owns (c : Thread nD τ) (((cfgM m hO).win 4).stage ((cfgM m hO).slots t 4)) fullShare X)
            ∗ (∃ X, ⌜X = Y 5⌝ ∗ owns (c : Thread nD τ) (((cfgM m hO).win 5).stage ((cfgM m hO).slots t 5)) fullShare X)
            ∗ (∃ X, ⌜X = Y 6⌝ ∗ owns (c : Thread nD τ) (((cfgM m hO).win 6).stage ((cfgM m hO).slots t 6)) fullShare X)
            ∗ (∃ X, ⌜X = Y 7⌝ ∗ owns (c : Thread nD τ) (((cfgM m hO).win 7).stage ((cfgM m hO).slots t 7)) fullShare X)
            ∗ (∃ X, ⌜rowRel ((cfgM m hO).grid.coords t) (payOf (Y 0) (Y 1) (Y 2) (Y 3) (Y 4) (Y 5) (Y 6) (Y 7)) (Y 8) X⌝
                ∗ owns (c : Thread nD τ) (((cfgM m hO).win 8).stage ((cfgM m hO).slots t 8)) fullShare X))) := by
  iintro ⟨HΦ, Ho, H0, H1, H2, H3, H4, H5, H6, H7, H8⟩
  iapply ((kernelRun c ((cfgM m hO).grid.coords t) _ _ _ _ _ _ _ _ _ _ _ _ _ _ _ _ _ _ (Y 0) (Y 1) (Y 2) (Y 3) (Y 4) (Y 5) (Y 6) (Y 7) (Y 8)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  iexact H8

theorem body_obligation (hO : Ok m) (c : Dev nD) :
    (rd m hO c).BodyObligation (defs₀ (F := F)) Variants.none () Set.univ := by
  intro t Y hY
  rw [bigSep_W0, bigSep_W0]
  have hp : payOf (Y 0) (Y 1) (Y 2) (Y 3) (Y 4) (Y 5) (Y 6) (Y 7) = payAt m hO c t := by
    rw [finds_in m hO c 0 (by show (0 : ℕ) < 8; decide) t (Y 0) (hY 0), finds_in m hO c 1 (by show (1 : ℕ) < 8; decide) t (Y 1) (hY 1),
      finds_in m hO c 2 (by show (2 : ℕ) < 8; decide) t (Y 2) (hY 2), finds_in m hO c 3 (by show (3 : ℕ) < 8; decide) t (Y 3) (hY 3),
      finds_in m hO c 4 (by show (4 : ℕ) < 8; decide) t (Y 4) (hY 4), finds_in m hO c 5 (by show (5 : ℕ) < 8; decide) t (Y 5) (hY 5),
      finds_in m hO c 6 (by show (6 : ℕ) < 8; decide) t (Y 6) (hY 6), finds_in m hO c 7 (by show (7 : ℕ) < 8; decide) t (Y 7) (hY 7)]
    rfl
  have h := sound_body m hO c t Y
  rw [hp] at h
  exact h

end Cert.KI

end
-- ==== Proof.KI.Exit.lean ====
import proofs.«423535_j34024730919221_3_alg».proof.Proof.KI.Vals
import proofs.«423535_j34024730919221_3_alg».proof.Proof.KI.Arr
import Idealize.ShloMosaic.Lib.Pipeline.Regions
import Idealize.ShloMosaic.Lib.Pipeline.Frame
import Idealize.ShloMosaic.Lib.Pipeline.FrameSuffix

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

theorem tbl_eq (c : Dev nD) : (fun k => V m c (pre0.ref k)) = tbl m := by
  obtain rfl : c = 0 := Subsingleton.elim c 0
  rfl

set_option backward.isDefEq.respectTransparency.types false in

theorem reg_entry (hO : Ok m) (c : Dev nD) :
    (iprop((StableHlo.held (c : Thread nD τ) (Pipeline.ucRefs τ sig) (V0 m c)
          ∗ iprop(∃ W, owes (c : Thread nD τ) (0 : CellTallies nD τ sig Unit) W))
        ∗ Pipeline.ownSems0 (fun k : PEmpty => k.elim) c
        ∗ levAts (fun _ : GSem nD τ sig => (∅ : Finset Unit)) (fun (_ : GSem nD τ sig) (_ : Unit) => (0 : ℕ))) : sProp 𝕄)
      ⊢ |={Set.univ}=> iprop((rd m hO c).arrays (rd m hO c).A ∗ Pipeline.prefHeld pre0 c (fun _ => fullShare) (tbl m)
          ∗ (rd m hO c).owesAt () 0 ∗ iprop(emp) ∗ Pipeline.unscopedRestP pre0 spec0 c (V m c)) := by
  rw [show StableHlo.held (c : Thread nD τ) (Pipeline.ucRefs τ sig) (V0 m c) = unscopedBufs c (V m c) from (Pipeline.unscopedBufs_held c _).symm]
  have hsplit := (Pipeline.RDat.arrays_of_unscopedBufs (pcfgs (F := F)) (admP m hO) (fun _ c => rd m hO c) (p := 0)
      (launch0 (F := F)).win (launch0 (F := F)).arr_whole c ((rd m hO c).share_full fun _ => rfl) (V m c) fun _ => rfl).trans
    (sep_mono .rfl (Entails.of_eq ((Pipeline.unscopedRest_split (launch0 (F := F)).pre c (V m c)).trans
      (congrArg (fun t => iprop(Pipeline.prefHeld pre0 c (fun _ => fullShare) t ∗ Pipeline.unscopedRestP pre0 spec0 c (V m c))) (tbl_eq m c)))))
  iintro ⟨⟨Hub, HO⟩, -, -⟩
  ihave H := hsplit $$ Hub
  icases H with ⟨Ha, Hp, Hr⟩
  imodintro
  isplitl [Ha]; · iexact Ha
  isplitl [Hp]; · iexact Hp
  isplitl [HO]
  · unfold Pipeline.RDat.owesAt Pipeline.owesWithin
    icases HO with ⟨%W, HO⟩; iexists W; isplitr; · ipureintro; exact fun _ _ => Or.inl trivial
    iexact HO
  isplitr [Hr]; · iempintro
  iexact Hr

section Afin
variable (hO : Ok m) (c : Dev nD)
  (A : (w : Fin (cfgM m hO).W) → Buf (Elt F) (((cfgM m hO).win w).arr.view.loc (c : Thread nD τ)))
  (hA : ∀ w, (rd m hO c).ArrAt w (cfgM m hO).N (A w))
include hA

theorem afin_0 (h : 0 < (cfgM m hO).W) : A ⟨0, h⟩ = Afin m hO c ⟨0, h⟩ := arrAt_in m hO c ⟨0, h⟩ (Nat.zero_lt_succ 7) _ (hA _)
theorem afin_1 (h : 1 < (cfgM m hO).W) : A ⟨1, h⟩ = Afin m hO c ⟨1, h⟩ := arrAt_in m hO c ⟨1, h⟩ (show (1 : ℕ) < 8 by omega) _ (hA _)
theorem afin_2 (h : 2 < (cfgM m hO).W) : A ⟨2, h⟩ = Afin m hO c ⟨2, h⟩ := arrAt_in m hO c ⟨2, h⟩ (show (2 : ℕ) < 8 by omega) _ (hA _)
theorem afin_3 (h : 3 < (cfgM m hO).W) : A ⟨3, h⟩ = Afin m hO c ⟨3, h⟩ := arrAt_in m hO c ⟨3, h⟩ (show (3 : ℕ) < 8 by omega) _ (hA _)
theorem afin_4 (h : 4 < (cfgM m hO).W) : A ⟨4, h⟩ = Afin m hO c ⟨4, h⟩ := arrAt_in m hO c ⟨4, h⟩ (show (4 : ℕ) < 8 by omega) _ (hA _)
theorem afin_5 (h : 5 < (cfgM m hO).W) : A ⟨5, h⟩ = Afin m hO c ⟨5, h⟩ := arrAt_in m hO c ⟨5, h⟩ (show (5 : ℕ) < 8 by omega) _ (hA _)
theorem afin_6 (h : 6 < (cfgM m hO).W) : A ⟨6, h⟩ = Afin m hO c ⟨6, h⟩ := arrAt_in m hO c ⟨6, h⟩ (show (6 : ℕ) < 8 by omega) _ (hA _)
theorem afin_7 (h : 7 < (cfgM m hO).W) : A ⟨7, h⟩ = Afin m hO c ⟨7, h⟩ := arrAt_in m hO c ⟨7, h⟩ (show (7 : ℕ) < 8 by omega) _ (hA _)

theorem afin_8 (h : 8 < (cfgM m hO).W) : A ⟨8, h⟩ = Afin m hO c ⟨8, h⟩ := arrAt8_eq m hO c _ (hA _)

theorem afin_of_arrAt : A = Afin m hO c := by
  funext w
  obtain ⟨n, h⟩ := w
  obtain _ | _ | _ | _ | _ | _ | _ | _ | _ | n := n
  · exact afin_0 m hO c A hA h
  · exact afin_1 m hO c A hA h
  · exact afin_2 m hO c A hA h
  · exact afin_3 m hO c A hA h
  · exact afin_4 m hO c A hA h
  · exact afin_5 m hO c A hA h
  · exact afin_6 m hO c A hA h
  · exact afin_7 m hO c A hA h
  · exact afin_8 m hO c A hA h
  · exact absurd h (Nat.not_lt.2 (Nat.le_add_left _ _))

end Afin

set_option backward.isDefEq.respectTransparency.types false in

theorem arraysAt_open (hO : Ok m) (c : Dev nD) :
    ((rd m hO c).arraysAt (cfgM m hO).N : sProp 𝕄)
      ⊢ iprop(∃ A, ⌜∀ w, (rd m hO c).ArrAt w (cfgM m hO).N (A w)⌝ ∗ Pipeline.arrPts spec0 c A) := by
  have hwh : ∀ w, ((cfgM m hO).win w).arr.IsWhole := (launch0 (F := F)).arr_whole
  unfold Pipeline.RDat.arraysAt
  iintro Ha
  ihave Ha' := (BI.bigSep_exists_pi Finset.univ (fun w G => iprop(⌜(rd m hO c).ArrAt w (cfgM m hO).N G⌝
      ∗ ((cfgM m hO).win w).arr.view.loc (c : Thread nD τ) ↦[((cfgM m hO).win w).arr.view.set]{(rd m hO c).share w} G))) $$ Ha
  icases Ha' with ⟨%A, Ha⟩
  ihave Ha2 := (BI.bigSep_pure_sep Finset.univ (fun w => (rd m hO c).ArrAt w (cfgM m hO).N (A w))
      (fun w => ((cfgM m hO).win w).arr.view.loc (c : Thread nD τ) ↦[((cfgM m hO).win w).arr.view.set]{(rd m hO c).share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(hwh w).set_eq_univ, (rd m hO c).share_full (fun _ => rfl) w]) :
      (bigSep Finset.univ fun w => (((cfgM m hO).win w).arr.view.loc (c : Thread nD τ) ↦[((cfgM m hO).win w).arr.view.set]{(rd m hO c).share w} A w : sProp 𝕄))
        = bigSep Finset.univ fun w => (((c : Thread nD τ).loc (Pipeline.arrRef spec0 w)) ↦{fullShare} A w : sProp 𝕄)))
  iexact Ha

set_option backward.isDefEq.respectTransparency.types false in

theorem held_Wx (hO : Ok m) (c : Dev nD) :
    (StableHlo.held (c : Thread nD τ) S' (Wx m hO c) : sProp 𝕄)
      = iprop(Pipeline.arrPts spec0 c (Afin m hO c) ∗ Pipeline.unscopedRestP pre0 spec0 c (V m c)) := by
  have hinj : Function.Injective (Pipeline.arrRef (spec0)) := (launch0 (F := F)).win.arr_inj
  have h1 : (fun w => Wx m hO c (Proc.devRef .tc (Pipeline.arrRef spec0 w))) = Afin m hO c :=
    funext fun w => Pipeline.withArrays_arr spec0 hinj c (V0 m c) (Afin m hO c) w
  have h2 : (Pipeline.unscopedRestP pre0 spec0 c (fun b => Wx m hO c (Proc.devRef .tc b)) : sProp 𝕄)
      = Pipeline.unscopedRestP pre0 spec0 c (V m c) := by
    unfold Pipeline.unscopedRestP
    exact bigSep_congr fun b hb => by
      have e := Pipeline.withArrays_of_ne spec0 c (V0 m c) (Afin m hO c) b fun w e =>
        (Finset.mem_sdiff.mp (Finset.mem_sdiff.mp hb).1).2 (Finset.mem_image.mpr ⟨w, Finset.mem_univ _, e⟩)
      exact congrArg (fun v : Buf (Elt F) ((c : Thread nD τ).loc b) => (((c : Thread nD τ).loc b ↦{fullShare} v) : sProp 𝕄)) e
  refine (Pipeline.held_tailRefs pre0 spec0 hinj c (Wx m hO c)).trans ?_
  rw [h1, h2]

set_option backward.isDefEq.respectTransparency.types false in

theorem reg_exit (hO : Ok m) (c : Dev nD) :
    (iprop((rd m hO c).arraysAt (cfgM m hO).N ∗ (rd m hO c).owesAt () (Fin.last (cfgM m hO).N)
        ∗ Pipeline.prefHeld pre0 c (fun _ => fullShare) (tbl m) ∗ Pipeline.unscopedRestP pre0 spec0 c (V m c)) : sProp 𝕄)
      ⊢ |={Set.univ}=> iprop(StableHlo.held (c : Thread nD τ) S' (Wx m hO c)
          ∗ (Pipeline.prefHeld pre0 c (fun _ => fullShare) (tbl m)
            ∗ iprop(∃ W, owes (c : Thread nD τ) (0 : CellTallies nD τ sig Unit) W))) := by
  rw [held_Wx m hO c]
  iintro ⟨Ha, HO, HY, HZ⟩
  ihave H := (arraysAt_open m hO c) $$ Ha
  icases H with ⟨%A, %hA, Ha⟩
  obtain rfl := afin_of_arrAt m hO c A hA
  imodintro
  isplitl [Ha HZ]
  · isplitl [Ha]; · iexact Ha
    iexact HZ
  isplitl [HY]; · iexact HY
  unfold Pipeline.RDat.owesAt Pipeline.owesWithin
  icases HO with ⟨%W, -, HO⟩; iexists W; iexact HO

theorem pre0_ref (k : Fin pre0.K) : pre0.ref k = main_v6 ∨ pre0.ref k = main_v13 := by
  match k with
  | ⟨0, _⟩ => exact .inl rfl
  | ⟨1, _⟩ => exact .inr rfl
  | ⟨_ + 2, h⟩ => exact absurd h (Nat.not_lt.2 (Nat.le_add_left _ _))

theorem tsub1 : ∀ op ∈ (hostOps1 : List (HloOp τ sig (Elt F))), op.bufs ⊆ S' := by
  intro op hop
  refine Pipeline.sub_tailRefs pre0 spec0 op ((List.forall_iff_forall_mem.mp hostOps1_sub) op hop) fun k => ?_
  rcases pre0_ref k with hk | hk <;> rw [hk] <;> clear hk <;>
    ((repeat (cases hop with
      | head => simp only [StableHlo.nullary_bufs, StableHlo.unary_bufs, StableHlo.binary_bufs, StableHlo.ternary_bufs,
          Finset.mem_insert, Finset.mem_singleton, (Proc.devRef_injective _).eq_iff]; decide
      | tail _ hop => ?_)); exact nomatch hop)

theorem tsub1_1 : ∀ op ∈ (hostOps1_1 : List (HloOp τ sig (Elt F))), op.bufs ⊆ S' := by
  intro op hop
  refine Pipeline.sub_tailRefs pre0 spec0 op ((List.forall_iff_forall_mem.mp hostOps1_1_sub) op hop) fun k => ?_
  rcases pre0_ref k with hk | hk <;> rw [hk] <;> clear hk <;>
    ((repeat (cases hop with
      | head => simp only [StableHlo.nullary_bufs, StableHlo.unary_bufs, StableHlo.binary_bufs, StableHlo.ternary_bufs,
          Finset.mem_insert, Finset.mem_singleton, (Proc.devRef_injective _).eq_iff]; decide
      | tail _ hop => ?_)); exact nomatch hop)

end Cert.KI

end
-- ==== Proof.KI.Run.lean ====
import proofs.«423535_j34024730919221_3_alg».proof.Proof.KI.Vals
import proofs.«423535_j34024730919221_3_alg».proof.Proof.KI.Body
import proofs.«423535_j34024730919221_3_alg».proof.Proof.KI.Exit
import Idealize.ShloMosaic.Lib.Pipeline.Regions
import Idealize.ShloMosaic.Lib.Pipeline.Frame
import Idealize.ShloMosaic.Lib.Pipeline.FrameSuffix

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop(∃ W, owes (c : Thread nD τ) (0 : CellTallies nD τ sig Unit) W)

noncomputable abbrev S : Finset (DevRef τ sig) := Pipeline.ucRefs τ sig

theorem sub_of {ops : List (HloOp τ sig (Elt F))} (h : ops.Forall fun op => op.bufs ⊆ StableHlo.tcRefs τ sig) :
    ∀ op ∈ ops, op.bufs ⊆ S := fun op hop => Pipeline.sub_ucRefs op ((List.forall_iff_forall_mem.mp h) op hop)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh0_3 : ∀ op ∈ (hostOps0_3 : List (HloOp τ sig (Elt F))), op.fresh = ∅ := by
  intro _ h; (repeat (cases h with | head => rfl | tail _ h => ?_)); exact nomatch h
theorem fresh0_4 : ∀ op ∈ (hostOps0_4 : List (HloOp τ sig (Elt F))), op.fresh = ∅ := by
  intro _ h; (repeat (cases h with | head => rfl | tail _ h => ?_)); exact nomatch h
theorem fresh0_5 : ∀ op ∈ (hostOps0_5 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h

noncomputable abbrev U1 (c : Dev nD) : Valuation τ sig (Elt F) := StableHlo.after hostOps0 (Vl m c)
noncomputable abbrev U2 (c : Dev nD) : Valuation τ sig (Elt F) := StableHlo.after hostOps0_1 (U1 m c)
noncomputable abbrev U3 (c : Dev nD) : Valuation τ sig (Elt F) := StableHlo.after hostOps0_2 (U2 m c)
noncomputable abbrev U4 (c : Dev nD) : Valuation τ sig (Elt F) := StableHlo.after hostOps0_3 (U3 m c)
noncomputable abbrev U5 (c : Dev nD) : Valuation τ sig (Elt F) := StableHlo.after hostOps0_4 (U4 m c)
noncomputable abbrev U6 (c : Dev nD) : Valuation τ sig (Elt F) := StableHlo.after hostOps0_5 (U5 m c)

theorem U6_eq (c : Dev nD) : U6 m c = V0 m c := by
  show _ = StableHlo.after (List.flatten [hostOps0, hostOps0_1, hostOps0_2, hostOps0_3, hostOps0_4, hostOps0_5]) (Vl m c)
  simp only [List.flatten_cons, List.flatten_nil, List.append_nil, StableHlo.after_append]

noncomputable def segP0 : Pipeline.HostSeg (Name := ℕ) (U := UR sig nD τ) (pcfgs (F := F)) defs₀ 𝒱₀ L lv :=
  Pipeline.HostSeg.ofOps _ _ _ _ _ S hostOps0 (sub_of hostOps0_sub) fresh0 (Vl m) R
noncomputable def segP1 : Pipeline.HostSeg (Name := ℕ) (U := UR sig nD τ) (pcfgs (F := F)) defs₀ 𝒱₀ L lv :=
  Pipeline.HostSeg.ofOps _ _ _ _ _ S hostOps0_1 (sub_of hostOps0_1_sub) fresh0_1 (U1 m) R
noncomputable def segP2 : Pipeline.HostSeg (Name := ℕ) (U := UR sig nD τ) (pcfgs (F := F)) defs₀ 𝒱₀ L lv :=
  Pipeline.HostSeg.ofOps _ _ _ _ _ S hostOps0_2 (sub_of hostOps0_2_sub) fresh0_2 (U2 m) R
noncomputable def segP3 : Pipeline.HostSeg (Name := ℕ) (U := UR sig nD τ) (pcfgs (F := F)) defs₀ 𝒱₀ L lv :=
  Pipeline.HostSeg.ofOps _ _ _ _ _ S hostOps0_3 (sub_of hostOps0_3_sub) fresh0_3 (U3 m) R
noncomputable def segP4 : Pipeline.HostSeg (Name := ℕ) (U := UR sig nD τ) (pcfgs (F := F)) defs₀ 𝒱₀ L lv :=
  Pipeline.HostSeg.ofOps _ _ _ _ _ S hostOps0_4 (sub_of hostOps0_4_sub) fresh0_4 (U4 m) R
noncomputable def segP5 : Pipeline.HostSeg (Name := ℕ) (U := UR sig nD τ) (pcfgs (F := F)) defs₀ 𝒱₀ L lv :=
  Pipeline.HostSeg.ofOps _ _ _ _ _ S hostOps0_5 (sub_of hostOps0_5_sub) fresh0_5 (U5 m) R

noncomputable abbrev rdats (hO : Ok m) : (p : Fin 1) → (c : Dev nD) → RDat τ (Elt F) Unit ℕ (UR sig nD τ) ℕ (Pipeline.pin (pcfgs (F := F)) (admP m hO) p) c :=
  fun _ c => rd m hO c

noncomputable abbrev R' (c : Dev nD) : sProp 𝕄 := iprop(Pipeline.prefHeld pre0 c (fun _ => fullShare) (tbl m) ∗ R c)

theorem body_obl (hO : Ok m) (c : Dev nD) : (rd m hO c).BodyObligation (defs₀ (F := F)) 𝒱₀ () Set.univ :=
  body_obligation m hO c

set_option backward.isDefEq.respectTransparency.types false in
noncomputable def reg (hO : Ok m) : Pipeline.RDat.RegionSeg (pcfgs (F := F)) (admP m hO) (rdats m hO) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := body_obl m hO c
  hwaits := Pipeline.RDat.hwaits_of_owed_zero _ _ _ _ L lv 0 fun _ _ => rfl
  pre c := iprop(StableHlo.held (c : Thread nD τ) S (V0 m c) ∗ R c)
  post c := iprop(StableHlo.held (c : Thread nD τ) S' (Wx m hO c) ∗ R' m c)
  X c := iprop(emp)
  Y c := Pipeline.prefHeld pre0 c (fun _ => fullShare) (tbl m)
  Z c := Pipeline.unscopedRestP pre0 spec0 c (V m c)
  hentry c := reg_entry m hO c
  hin c := by
    rw [show (rd m hO c).Φ 0 = Φc m c from rfl]; unfold Φc
    iintro ⟨-, Hp, Hr⟩
    isplitl [Hp] <;> iassumption
  hout c := by
    rw [Pipeline.ownSems0_none, show (rd m hO c).Φ (Fin.last _) = Φc m c from rfl]; unfold Φc
    iintro ⟨Hp, Hr⟩
    isplitl [Hp]; · iexact Hp
    isplitr; · iempintro
    iexact Hr
  hexit c := reg_exit m hO c

noncomputable def segT0 (hO : Ok m) : Pipeline.HostSeg (Name := ℕ) (U := UR sig nD τ) (pcfgs (F := F)) defs₀ 𝒱₀ L lv :=
  Pipeline.HostSeg.ofOps _ _ _ _ _ S' hostOps1 tsub1 fresh1 (Wx m hO) (R' m)
noncomputable def segT1 (hO : Ok m) : Pipeline.HostSeg (Name := ℕ) (U := UR sig nD τ) (pcfgs (F := F)) defs₀ 𝒱₀ L lv :=
  Pipeline.HostSeg.ofOps _ _ _ _ _ S' hostOps1_1 tsub1_1 fresh1_1 (X1 m hO) (R' m)

noncomputable abbrev segs (hO : Ok m) : List (Pipeline.RDat.Seg (pcfgs (F := F)) (admP m hO) (rdats m hO) () defs₀ 𝒱₀ L lv) :=
  [.host (segP0 m), .host (segP1 m), .host (segP2 m), .host (segP3 m), .host (segP4 m), .host (segP5 m),
   .region (reg m hO), .host (segT0 m hO), .host (segT1 m hO)]

theorem hmain (hO : Ok m) (c : Dev nD) (Q : PUnit → sProp 𝕄) :
    wp frame (wpE (Pipeline.defs (pcfgs (F := F)) defs₀) (Variants.lift 𝒱₀) (c : Thread nD τ) none) Set.univ (Pipeline.RDat.Seg.run (segs m hO)) Q
      ⊢ wp frame (wpE (Pipeline.defs (pcfgs (F := F)) defs₀) (Variants.lift 𝒱₀) (c : Thread nD τ) none) Set.univ (main (F := F) c) Q := by
  rw [Pipeline.RDat.Seg.run_eq_chain, main_chain]
  exact .rfl

noncomputable def u₀ (hO : Ok m) : UR sig nD τ :=
  initOf (Pipeline.cells (Pipeline.pin (pcfgs (F := F)) (admP m hO)) (cellOf_inj (admP m hO)))
    (Pipeline.launchToks (Pipeline.pin (pcfgs (F := F)) (admP m hO)) (cellOf_inj (admP m hO)))

set_option backward.isDefEq.respectTransparency.types false in

theorem run_main (hO : Ok m) : θ_run defs (onTc (τ := τ) (main (F := F))) ⟨m, fun _ => 0, ρ⟩
    (fun r => ∀ (c : Dev nD), ∀ b ∈ (S' : Finset (DevRef τ sig)), r.2.mem (c, b) = X2 m hO c b) :=
  Pipeline.RDat.θ_run_regions_kit (pcfgs (F := F)) (admP m hO) (rdats m hO) () (cellOf_inj (admP m hO)) emb₁ defs₀ 𝒱₀ L lv m ρ main (segs m hO)
    (hmain m hO)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀ m hO)
    (hu₀ := by
      unfold u₀
      iintro Hu; imodintro
      isplitl [Hu]
      · iapply (show (ownU _ : sProp 𝕄) ⊢ BI.own (emb₁ (initOf (Pipeline.cells (Pipeline.pin (pcfgs (F := F)) (admP m hO)) (cellOf_inj (admP m hO)))
          (Pipeline.launchToks (Pipeline.pin (pcfgs (F := F)) (admP m hO)) (cellOf_inj (admP m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) S (Vl m c) ∗ R c))
    (Tₙ := fun c => iprop(StableHlo.held (c : Thread nD τ) S' (X2 m hO c) ∗ Pipeline.prefHeld pre0 c (fun _ => fullShare) (tbl m)))
    (hch := ⟨fun _ => .rfl, fun _ => .rfl, fun _ => .rfl, fun _ => .rfl, fun _ => .rfl, fun _ => .rfl,
      fun c => Entails.of_eq (by
        show iprop(StableHlo.held (c : Thread nD τ) S (U6 m c) ∗ R c) = iprop(StableHlo.held (c : Thread nD τ) S (V0 m c) ∗ R c)
        rw [U6_eq]),
      fun _ => .rfl, fun _ => .rfl, fun c => by
        show iprop(StableHlo.held (c : Thread nD τ) S' (X2 m hO c) ∗ (Pipeline.prefHeld pre0 c (fun _ => fullShare) (tbl m) ∗ R c)) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) S (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ (S' : Finset (DevRef τ sig)), s.mem (c, b) = X2 m hO c b)
    (hfin := fun c s' => by
      have hr : iprop((bigSep (S' : Finset (DevRef τ sig)) fun b => ((((c : Dev nD), b) : Loc nD τ sig) ↦{fullShare} X2 m hO c b : sProp 𝕄)) ∗ SI s')
          ⊢ iprop(⌜∀ b ∈ (S' : Finset (DevRef τ sig)), s'.mem.mem ((c : Dev nD), b) = X2 m hO c b⌝ ∗ SI s') :=
        pointsTo_read_all (S' : Finset (DevRef τ sig)) (fun b => (((c : Dev nD), b) : Loc nD τ sig)) (fun b => X2 m hO c b) s'
      unfold StableHlo.held
      iintro ⟨⟨Hh, -⟩, HSI⟩
      ihave H := hr $$ [Hh HSI]
      · isplitl [Hh] <;> iassumption
      icases H with ⟨%h, HSI⟩
      imodintro
      isplitr; · ipureintro; exact h
      iexact HSI)
    (hQ := fun _ h c => h c)

end Cert.KI

end
-- ==== Proof.SortFacts.lean ====
import Idealize.ShloMosaic.Lib.SortFacts
import Idealize.ShloMosaic.Lib.ValueIdx

namespace Cert.SortF

open Idealize.ShloMosaic Idealize.ShloMosaic.ValueIdx

abbrev S32 : Shape := ⟨1, ![32]⟩

def cmp : BitVec 32 × BitVec 32 → BitVec 32 × BitVec 32 → BitVec 1 :=
  fun l r => IntOp.cmpi .slt l.1 r.1

abbrev iota : IVec S32 32 := iotaInDim S32 32 0

def argsort (keys : IVec S32 32) : IVec S32 32 := (Host.sort2 S32 0 cmp keys iota).2

def src (keys : IVec S32 32) : Fin 32 → Fin 32 :=
  sortedFrom (fun k k' => cmp (keys (ix1 k), iota (ix1 k)) (keys (ix1 k'), iota (ix1 k')) == 1#1)

theorem ix1_eq_ofFin {n : Nat} (k : Fin n) : (ix1 k : (⟨1, ![n]⟩ : Shape).Idx) = Shape.Idx.ofFin k := by
  funext d; match d with | ⟨0, _⟩ => exact Fin.ext rfl

theorem sort2_snd_apply (x y : IVec S32 32) (j : S32.Idx) :
    (Host.sort2 S32 0 cmp x y).2 j
      = y (ix1 (sortedFrom (fun k k' => cmp (x (ix1 k), y (ix1 k)) (x (ix1 k'), y (ix1 k')) == 1#1) (j 0))) := by
  unfold Host.sort2
  simp [ix1_eq_ofFin]

theorem argsort_apply (keys : IVec S32 32) (j : S32.Idx) :
    argsort keys j = BitVec.ofNat 32 (src keys (j 0)).val := by
  unfold argsort src
  rw [sort2_snd_apply]
  rfl

theorem argsort_ix1 (keys : IVec S32 32) (k : Fin 32) :
    argsort keys (ix1 k) = BitVec.ofNat 32 (src keys k).val := argsort_apply keys (ix1 k)

theorem src_bijective (keys : IVec S32 32) : Function.Bijective (src keys) :=
  ⟨sortedFrom_injective _, sortedFrom_surjective _⟩

theorem toNat_ofNat_small {a : Nat} (ha : a < 32) : (BitVec.ofNat 32 a).toNat = a := by
  rw [BitVec.toNat_ofNat]
  exact Nat.mod_eq_of_lt (by omega)

theorem toInt_ofNat_small {a : Nat} (ha : a < 32) : (BitVec.ofNat 32 a).toInt = (a : Int) := by
  rw [BitVec.toInt_eq_toNat_cond, toNat_ofNat_small ha]
  split <;> omega

theorem cmp_eq (x y u v : BitVec 32) : (cmp (x, u) (y, v) == 1#1) = decide (x.toInt < y.toInt) := by
  have hb1 : ∀ c : Bool, (BitVec.ofBool c == 1#1) = c := by decide
  show (BitVec.ofBool (x.slt y) == 1#1) = decide (x.toInt < y.toInt)
  rw [hb1]
  rfl

theorem cmp_ofNat {a b : Nat} (ha : a < 32) (hb : b < 32) (u v : BitVec 32) :
    (cmp (BitVec.ofNat 32 a, u) (BitVec.ofNat 32 b, v) == 1#1) = decide (a < b) := by
  rw [cmp_eq, toInt_ofNat_small ha, toInt_ofNat_small hb]
  exact decide_eq_decide.mpr Int.ofNat_lt

theorem argsort_toNat (keys : IVec S32 32) (j : S32.Idx) : (argsort keys j).toNat = (src keys (j 0)).val := by
  rw [argsort_apply, toNat_ofNat_small (src keys (j 0)).isLt]

theorem argsort_toNat_lt (keys : IVec S32 32) (j : S32.Idx) : (argsort keys j).toNat < 32 := by
  rw [argsort_toNat]; exact (src keys (j 0)).isLt

theorem argsort_toInt (keys : IVec S32 32) (j : S32.Idx) : (argsort keys j).toInt = ((src keys (j 0)).val : Int) := by
  rw [argsort_apply, toInt_ofNat_small (src keys (j 0)).isLt]

theorem argsort_toInt_range (keys : IVec S32 32) (j : S32.Idx) :
    0 ≤ (argsort keys j).toInt ∧ (argsort keys j).toInt < 32 := by
  rw [argsort_toInt]
  have := (src keys (j 0)).isLt
  omega

theorem sortedFrom_of_perm {n : Nat} (σ : Equiv.Perm (Fin n)) :
    sortedFrom (fun k k' : Fin n => decide (σ.symm k < σ.symm k')) = σ := by
  funext k
  unfold sortedFrom
  rw [List.get_of_eq (sortPositions_of_perm σ)]
  simp

theorem apply_sortedFrom_lt {n : Nat} (f : Fin n → Fin n) (hf : Function.Bijective f) (b : Fin n) :
    f (sortedFrom (fun k k' : Fin n => decide (f k < f k')) b) = b := by
  have h : sortedFrom (fun k k' : Fin n => decide (f k < f k')) = (Equiv.ofBijective f hf).symm :=
    sortedFrom_of_perm (Equiv.ofBijective f hf).symm
  rw [h]
  exact (Equiv.ofBijective f hf).apply_symm_apply b

theorem before_argsort (keys : IVec S32 32) :
    (fun k k' : Fin 32 =>
        cmp (argsort keys (ix1 k), iota (ix1 k)) (argsort keys (ix1 k'), iota (ix1 k')) == 1#1)
      = fun k k' : Fin 32 => decide (src keys k < src keys k') := by
  funext k k'
  rw [argsort_ix1, argsort_ix1, cmp_ofNat (src keys k).isLt (src keys k').isLt]
  exact decide_eq_decide.mpr Fin.lt_def.symm

theorem src_argsort_eq (keys : IVec S32 32) :
    src (argsort keys) = sortedFrom (fun k k' : Fin 32 => decide (src keys k < src keys k')) := by
  exact congrArg sortedFrom (before_argsort keys)

theorem src_src_argsort (keys : IVec S32 32) (b : Fin 32) : src keys (src (argsort keys) b) = b := by
  rw [src_argsort_eq]
  exact apply_sortedFrom_lt (src keys) (src_bijective keys) b

theorem argsort_toInt_toNat (keys : IVec S32 32) (j : S32.Idx) :
    (argsort keys j).toInt.toNat = (src keys (j 0)).val := by
  rw [argsort_toInt]; exact Int.toNat_natCast _

theorem argsort_clamp (keys : IVec S32 32) (j : S32.Idx) :
    min (argsort keys j).toInt.toNat 31 = (src keys (j 0)).val := by
  rw [argsort_toInt_toNat]
  have := (src keys (j 0)).isLt
  omega

end Cert.SortF
-- ==== Proof.LibEdgeTable.lean ====
import Idealize.ShloMosaic.PureOps.Ideal
import Idealize.ShloMosaic.Lib.ValueIdx

noncomputable section

open scoped BigOperators

namespace Cert.LibEdgeTable

open Idealize.ShloMosaic Idealize.ShloMosaic.ValueIdx

section Gather
variable {α : Type}

abbrev pickDims (n k : Nat) (wf : GatherDims.WF ⟨1, ![n]⟩ ⟨2, ![k, 1]⟩ ⟨1, ![k]⟩ [] [0] [] [0] [] 1 ![1]) :
    GatherDims ⟨1, ![n]⟩ ⟨2, ![k, 1]⟩ ⟨1, ![k]⟩ where
  offsetDims := []
  collapsedSliceDims := [0]
  operandBatchingDims := []
  startIndicesBatchingDims := []
  startIndexMap := [0]
  indexVectorDim := 1
  sliceSizes := ![1]
  wf := wf

theorem gather_pick_apply {n k w : Nat} (hn : 0 < n)
    (wf : GatherDims.WF ⟨1, ![n]⟩ ⟨2, ![k, 1]⟩ ⟨1, ![k]⟩ [] [0] [] [0] [] 1 ![1])
    (x : (⟨1, ![n]⟩ : Shape).Idx → α) (idx : IVec ⟨2, ![k, 1]⟩ w) (e : Fin k) :
    Host.gather (pickDims n k wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (pickDims n k wf).start (ix1 e) idx 0 + (pickDims n k wf).batchCoord (ix1 e) 0
      + (pickDims n k wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n k wf).startIndexMap from List.mem_singleton.mpr rfl)]
  have hsi : (pickDims n k wf).siIdx (ix1 e) ⟨List.idxOf (0 : Fin 1) (pickDims n k wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

abbrev rowsDims (n c k : Nat)
    (wf : GatherDims.WF ⟨2, ![n, c]⟩ ⟨2, ![k, 1]⟩ ⟨2, ![k, c]⟩ [1] [0] [] [0] [] 1 ![1, c]) :
    GatherDims ⟨2, ![n, c]⟩ ⟨2, ![k, 1]⟩ ⟨2, ![k, c]⟩ where
  offsetDims := [1]
  collapsedSliceDims := [0]
  operandBatchingDims := []
  startIndicesBatchingDims := []
  startIndexMap := [0]
  indexVectorDim := 1
  sliceSizes := ![1, c]
  wf := wf

theorem gather_rows_apply {n c k w : Nat} (hn : 0 < n)
    (wf : GatherDims.WF ⟨2, ![n, c]⟩ ⟨2, ![k, 1]⟩ ⟨2, ![k, c]⟩ [1] [0] [] [0] [] 1 ![1, c])
    (x : (⟨2, ![n, c]⟩ : Shape).Idx → α) (idx : IVec ⟨2, ![k, 1]⟩ w) (e : Fin k) (q : Fin c) :
    Host.gather (rowsDims n c k wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ =>
    show (rowsDims n c k wf).start (ix2 e q) idx 0 + (rowsDims n c k wf).batchCoord (ix2 e q) 0
        + (rowsDims n c k wf).offCoord (ix2 e q) 0 = min (idx (ix2 e (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n c k wf).startIndexMap from List.mem_singleton.mpr rfl)]
    have hsi : (rowsDims n c k wf).siIdx (ix2 e q) ⟨List.idxOf (0 : Fin 2) (rowsDims n c k wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n c k wf).start (ix2 e q) idx 1 + (rowsDims n c k wf).batchCoord (ix2 e q) 1
        + (rowsDims n c k wf).offCoord (ix2 e q) 1 = q.val
    rw [GatherDims.batchCoord_eq_zero _ _ _ List.not_mem_nil]
    unfold GatherDims.start
    rw [dif_neg (show (1 : Fin 2) ∉ (rowsDims n c k wf).startIndexMap from
      show (1 : Fin 2) ∉ ([0] : List (Fin 2)) from by decide)]
    unfold GatherDims.offCoord
    rw [dif_pos (show (1 : Fin 2) ∈ (rowsDims n c k wf).sKept from (GatherDims.mem_sKept _ _).mpr
      ⟨show (1 : Fin 2) ∉ ([0] : List (Fin 2)) from by decide, List.not_mem_nil⟩)]
    simp only [Nat.zero_add, Nat.add_zero]
    rfl

end Gather

section Add1
variable {n k w : Nat} (wf : ScatterDims.WF ⟨1, ![n]⟩ ⟨2, ![k, 1]⟩ ⟨1, ![k]⟩ [] [0] [0] 1)
  (idx : IVec ⟨2, ![k, 1]⟩ w) (e : Fin k)

end Add1

section Add2
variable {n c k w : Nat} (wf : ScatterDims.WF ⟨2, ![n, c]⟩ ⟨2, ![k, 1]⟩ ⟨2, ![k, c]⟩ [1] [0] [0] 1)
  (idx : IVec ⟨2, ![k, 1]⟩ w) (e : Fin k) (q : Fin c)

end Add2

end Cert.LibEdgeTable

end
-- ==== Proof.KI.Host.lean ====
import proofs.«423535_j34024730919221_3_alg».proof.Proof.KI.Base
import proofs.«423535_j34024730919221_3_alg».proof.Proof.SortFacts
import proofs.«423535_j34024730919221_3_alg».proof.Proof.LibEdgeTable
import Idealize.ShloMosaic.Lib.StableHlo.Run
import Idealize.ShloMosaic.Lib.ValueIdx
import Idealize.ShloMosaic.Lib.Pipeline.Value

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

local macro "pre_ops_list" : tactic =>
  `(tactic| simp only [preOps, hostOps0, hostOps0_1, hostOps0_2, hostOps0_3, hostOps0_4, hostOps0_5, List.flatten_cons, List.flatten_nil,
    List.append_nil, List.cons_append, List.nil_append])

noncomputable def written : List (Ref sig .tc) :=
  [main_c, main_v0, main_v1, main_c_0, main_v2, main_v3, main_v4, main_c_1, main_c_2,
   main_call0_v0, main_call0_v1, main_call0_v2, main_call0_v3, main_call0_v4, main_v5,
   main_call1_v0, main_call1_v1_0, main_v6,
   main_c_3, main_v7, main_v8, main_c_4, main_v9, main_v10, main_v11, main_v12, main_v13, main_c_5, main_v14, main_v15,
   main_c_6, main_v16, main_v17, main_v18, main_v19, main_v20,
   main_call2_v0, main_call2_v1_0, main_v21,
   main_v22, main_v23, main_v24, main_v25, main_v26]

theorem writes_sub : (preOps (F := F)).Forall fun op => op.writes ⊆ (written.map (Proc.devRef (τ := τ) .tc)).toFinset := by
  pre_ops_list
  simp only [List.Forall]; and_intros <;>
  exact Finset.singleton_subset_iff.mpr (List.mem_toFinset.mpr (List.mem_map_of_mem (by decide)))

theorem V_of_not_written (c : Dev nD) (b : Ref sig .tc) (hb : b ∉ written) : V m c b = m ((c : Thread nD τ).loc b) :=
  StableHlo.after_of_writes_sub (preOps (F := F)) (Vl m c) writes_sub hb

def clampIds (ids : (⟨S32, .i32⟩ : BufTy).Contents (Elt F)) : (⟨S32, .i32⟩ : BufTy).Contents (Elt F) :=
  minsi (broadcastInDim S32 ![] bcast_S_S32 (constantI S_ 32 4#32)) (maxsi (broadcastInDim S32 ![] bcast_S_S32 (constantI S_ 32 0#32)) ids)

def argsortOf (x : (⟨S32, .i32⟩ : BufTy).Contents (Elt F)) : (⟨S32, .i32⟩ : BufTy).Contents (Elt F) :=
  (Host.sort2 S32 0 comparator_i32_i32_d0 x (iotaInDim S32 32 0)).2

def normIdx (p : (⟨S32, .i32⟩ : BufTy).Contents (Elt F)) : (⟨S32, .i32⟩ : BufTy).Contents (Elt F) :=
  select (cmpi .slt p (broadcastInDim S32 ![] bcast_S_S32 (constantI S_ 32 0#32))) (addi p (broadcastInDim S32 ![] bcast_S_S32 (constantI S_ 32 32#32))) p

def takeAt {e : EltTy} (x : (⟨S32, e⟩ : BufTy).Contents (Elt F)) (p : (⟨S32, .i32⟩ : BufTy).Contents (Elt F)) : (⟨S32, e⟩ : BufTy).Contents (Elt F) :=
  Host.gather gather_S32_S32x1_S32_n_0_n_n_0_1_1 x (broadcastInDim S32x1 ![0] bcast_S32_S32x1_0 (normIdx p))

theorem V_v6 (c : Dev nD) : V m c main_v6 = argsortOf (clampIds (m ((c : Thread nD τ).loc main_arg2))) := by
  show StableHlo.after _ _ _ = _
  pre_ops_list
  after_results
  rfl

theorem V_v13 (c : Dev nD) : V m c main_v13 = takeAt (clampIds (m ((c : Thread nD τ).loc main_arg2))) (argsortOf (clampIds (m ((c : Thread nD τ).loc main_arg2)))) := by
  show StableHlo.after _ _ _ = _
  pre_ops_list
  after_results_simp
  rfl

theorem clampIds_apply (ids : (⟨S32, .i32⟩ : BufTy).Contents (Elt F)) (y : S32.Idx) :
    clampIds ids y = IntOp.minsi 4#32 (IntOp.maxsi 0#32 (ids y)) := rfl

theorem clamp_toNat_lt (w : BitVec 32) : (IntOp.minsi 4#32 (IntOp.maxsi 0#32 w)).toNat < 5 := by
  have h4 : (4#32 : BitVec 32).toInt = 4 := by decide
  have h0 : (0#32 : BitVec 32).toInt = 0 := by decide
  have hw := BitVec.toInt_eq_toNat_cond w
  have hlt := w.isLt
  by_cases hn : w.toInt < 0
  · have e : IntOp.maxsi 0#32 w = 0#32 := by simp [IntOp.maxsi, BitVec.slt, h0, hn]
    rw [e]; decide
  · have e : IntOp.maxsi 0#32 w = w := by simp [IntOp.maxsi, BitVec.slt, h0, hn]
    rw [e]
    by_cases hb : 4 < w.toInt
    · have e2 : IntOp.minsi 4#32 w = 4#32 := by simp [IntOp.minsi, BitVec.slt, h4, hb]
      rw [e2]; decide
    · have e2 : IntOp.minsi 4#32 w = w := by simp [IntOp.minsi, BitVec.slt, h4, hb]
      rw [e2]; split at hw <;> omega

theorem norm_id (w : BitVec 32) (h : w.toNat < 32) :
    Scalar.select (IntOp.cmpi .slt w 0#32) (IntOp.addi w 32#32) w = w := by
  have hw := BitVec.toInt_eq_toNat_cond w
  have h0 : (0#32 : BitVec 32).toInt = 0 := by decide
  have : ¬ w.toInt < 0 := by split at hw <;> omega
  simp [Scalar.select, IntOp.cmpi, BitVec.slt, h0, this]

theorem toInt_toNat_small (w : BitVec 32) (h : w.toNat < 32) : min w.toInt.toNat 31 = w.toNat := by
  have hw := BitVec.toInt_eq_toNat_cond w
  split at hw <;> omega

theorem argsortOf_eq (x : (⟨S32, .i32⟩ : BufTy).Contents (Elt F)) : argsortOf x = Cert.SortF.argsort x := rfl

theorem argsortOf_lt (x : (⟨S32, .i32⟩ : BufTy).Contents (Elt F)) (j : S32.Idx) : (argsortOf x j).toNat < 32 := by
  rw [argsortOf_eq]; exact Cert.SortF.argsort_toNat_lt _ j

theorem takeAt_apply {e : EltTy} (x : (⟨S32, e⟩ : BufTy).Contents (Elt F)) (p : (⟨S32, .i32⟩ : BufTy).Contents (Elt F))
    (hp : ∀ j, (p j).toNat < 32) (t : Fin 32) :
    takeAt x p (ValueIdx.ix1 t) = x (ValueIdx.ix1 ⟨(p (ValueIdx.ix1 t)).toNat, hp _⟩) := by
  unfold takeAt
  refine (Cert.LibEdgeTable.gather_pick_apply (n := 32) (k := 32) (by decide) _ x _ t).trans ?_
  have hb : broadcastInDim S32x1 ![0] bcast_S32_S32x1_0 (normIdx p) (ValueIdx.ix2 t (0 : Fin 1)) = p (ValueIdx.ix1 t) := by
    rw [broadcastInDim_apply _ _ _ _ (ValueIdx.ix1 t) (fun a => match a with | ⟨0, _⟩ => rfl)]
    exact norm_id _ (hp _)
  refine congrArg x (congrArg ValueIdx.ix1 (Fin.ext ?_))
  show min (broadcastInDim S32x1 ![0] bcast_S32_S32x1_0 (normIdx p) (ValueIdx.ix2 t (0 : Fin 1))).toInt.toNat (32 - 1) = _
  rw [hb]; exact toInt_toNat_small _ (hp _)

abbrev ids : (⟨S32, .i32⟩ : BufTy).Contents (Elt F) := m (((0 : Dev nD) : Thread nD τ).loc main_arg2)

theorem tbl0_eq : tbl m 0 = argsortOf (clampIds (ids m)) := V_v6 m 0

theorem tbl1_eq : tbl m 1 = takeAt (clampIds (ids m)) (argsortOf (clampIds (ids m))) := V_v13 m 0

theorem tbl0_lt : ∀ x, (tbl m 0 x).toNat < 32 := fun x => by
  rw [tbl0_eq]; exact argsortOf_lt _ x

theorem tbl1_apply (t : Fin 32) :
    tbl m 1 (ValueIdx.ix1 t) = clampIds (ids m) (ValueIdx.ix1 ⟨(tbl m 0 (ValueIdx.ix1 t)).toNat, tbl0_lt m _⟩) := by
  have h := takeAt_apply (clampIds (ids m)) (argsortOf (clampIds (ids m))) (argsortOf_lt _) t
  rw [tbl1_eq]
  refine h.trans ?_
  congr 1

theorem tbl1_lt : ∀ x, (tbl m 1 x).toNat < 5 := fun x => by
  have hx : ∀ y : S32.Idx, (tbl m 1 y).toNat < 5 := fun y => by
    obtain ⟨t, rfl⟩ : ∃ t : Fin 32, y = ValueIdx.ix1 t := ⟨y 0, ValueIdx.eq_ix1 y⟩
    rw [tbl1_apply, clampIds_apply]; exact clamp_toNat_lt _
  exact hx x

theorem inb3 {n A B w : Nat} (tr : Fin 3 → Nat) (hw : w < n) (e : tr = ![w, 0, 0]) (a : Fin 3) :
    (tr a + 1) * (⟨3, ![1, A, B]⟩ : Shape).size a ≤ (⟨3, ![n, A, B]⟩ : Shape).size a := by
  subst e; fin_cases a <;> simp <;> omega

theorem ok : Ok m :=
  ⟨fun i => ⟨inb3 _ (tbl0_lt m _) rfl, Or.inl rfl⟩, fun i => ⟨inb3 _ (tbl0_lt m _) rfl, Or.inl rfl⟩,
   fun i => ⟨inb3 _ (tbl1_lt m _) rfl, Or.inl rfl⟩, fun i => ⟨inb3 _ (tbl1_lt m _) rfl, Or.inl rfl⟩,
   fun i => ⟨inb3 _ (tbl1_lt m _) rfl, Or.inl rfl⟩, fun i => ⟨inb3 _ (tbl1_lt m _) rfl, Or.inl rfl⟩,
   fun i => ⟨inb3 _ (tbl1_lt m _) rfl, Or.inl rfl⟩, fun i => ⟨inb3 _ (tbl1_lt m _) rfl, Or.inl rfl⟩⟩

end Cert.KI

end
-- ==== Proof.KI.Glue.lean ====
import proofs.«423535_j34024730919221_3_alg».proof.Proof.KI.Vals
import proofs.«423535_j34024730919221_3_alg».proof.Proof.KI.Host
import proofs.«423535_j34024730919221_3_alg».proof.Proof.SortFacts
import proofs.«423535_j34024730919221_3_alg».proof.Proof.LibEdgeTable
import proofs.«423535_j34024730919221_3_alg».proof.Proof.Math
import Idealize.ShloMosaic.Lib.StableHlo.Run
import Idealize.ShloMosaic.Lib.Pipeline.Value

set_option maxRecDepth 16384

noncomputable section

namespace Cert.KI

namespace Glue

open Cert.KernelIdeal Cert.KernelIdeal.Gen
open Idealize.ShloMosaic Idealize.ShloMosaic.TcCoe
open Idealize.ShloMosaic.ValueIdx
open Idealize.SL.Sem

theorem slt_iff (x y : BitVec 32) : x.slt y = true ↔ x.toInt < y.toInt := by
  unfold BitVec.slt; exact decide_eq_true_iff

theorem clip_scalar (x : BitVec 32) :
    (IntOp.minsi 4#32 (IntOp.maxsi 0#32 x)).toInt = ((Cert.Pool.clampL x).val : Int) := by
  have h0 : (0#32 : BitVec 32).toInt = 0 := by decide
  have h4 : (4#32 : BitVec 32).toInt = 4 := by decide
  unfold IntOp.minsi IntOp.maxsi Cert.Pool.clampL
  by_cases hx : x.toInt < 0
  · have h1 : x.slt 0#32 = true := (slt_iff _ _).mpr (by rw [h0]; exact hx)
    rw [if_pos h1]
    have h2 : ¬ ((4#32 : BitVec 32).slt 0#32 = true) := by decide
    rw [if_neg h2, if_pos hx, h0]; rfl
  · have h1 : ¬ (x.slt 0#32 = true) := fun h => hx (by have := (slt_iff _ _).mp h; rwa [h0] at this)
    rw [if_neg h1, if_neg hx]
    by_cases h5 : x.toInt < 5
    · have h2 : ¬ ((4#32 : BitVec 32).slt x = true) := fun h => by
        have := (slt_iff _ _).mp h; rw [h4] at this; omega
      rw [if_neg h2, dif_pos h5]
      show x.toInt = ((x.toInt.toNat : Nat) : Int)
      omega
    · have h2 : (4#32 : BitVec 32).slt x = true := (slt_iff _ _).mpr (by rw [h4]; omega)
      rw [if_pos h2, dif_neg h5, h4]; rfl

theorem valid_scalar (x : BitVec 32) :
    (((IntOp.andi (IntOp.cmpi .sge x 0#32) (IntOp.cmpi .slt x 5#32)).toNat : ℝ) : EReal) = Cert.Pool.validF x := by
  have h0 : (0#32 : BitVec 32).toInt = 0 := by decide
  have h5 : (5#32 : BitVec 32).toInt = 5 := by decide
  unfold IntOp.andi IntOp.cmpi Cert.Pool.validF
  simp only
  have hsle : (0#32 : BitVec 32).sle x = decide (0 ≤ x.toInt) := by
    unfold BitVec.sle; rw [h0]
  have hslt : x.slt 5#32 = decide (x.toInt < 5) := by
    unfold BitVec.slt; rw [h5]
  rw [hsle, hslt]
  by_cases ha : 0 ≤ x.toInt <;> by_cases hb : x.toInt < 5 <;> simp [ha, hb]

theorem norm_scalar (x : BitVec 32) (h : 0 ≤ x.toInt) :
    Scalar.select (IntOp.cmpi .slt x 0#32) (IntOp.addi x 32#32) x = x := by
  have h0 : (0#32 : BitVec 32).toInt = 0 := by decide
  unfold Scalar.select IntOp.cmpi
  have : x.slt 0#32 = false := by
    unfold BitVec.slt; rw [h0]; exact decide_eq_false (by omega)
  simp only [this]
  rfl

def clip (ids : IVec S32 32) : IVec S32 32 := clampIds (F := Ideal) ids

def validI (ids : IVec S32 32) : IVec S32 1 :=
  andi (cmpi .sge ids (broadcastInDim S32 ![] Facts₀.bcast_S_S32 (constantI S_ 32 0#32)))
    (cmpi .slt ids (broadcastInDim S32 ![] Facts₀.bcast_S_S32 (constantI S_ 32 5#32)))

def permW (ids : IVec S32 32) : IVec S32 32 := argsortOf (F := Ideal) (clip ids)

def invW (ids : IVec S32 32) : IVec S32 32 := argsortOf (F := Ideal) (permW ids)

def langSorted (ids : IVec S32 32) : IVec S32 32 := takeAt (F := Ideal) (e := .i32) (clip ids) (permW ids)

def validSorted (ids : IVec S32 32) : IVec S32 1 := takeAt (F := Ideal) (e := .i1) (validI ids) (permW ids)

def pooledOf (vs : IVec S32 1) (inv : IVec S32 32) (A : FVec Ideal S32x1024 .f32) : FVec Ideal S32x1024 .f32 :=
  Host.gather gather_S32x1024_S32x1_S32x1024_1_0_n_n_0_1_11024
    (mulf A (broadcastInDim S32x1024 ![0, 1] Facts₀.bcast_S32x1_S32x1024_0_1
      (uitofp .f32 (broadcastInDim S32x1 ![0] Facts₀.bcast_S32_S32x1_0 vs))))
    (broadcastInDim S32x1 ![0] Facts₀.bcast_S32_S32x1_0 (normIdx (F := Ideal) inv))

def sampleAt (ids : IVec S32 32) (t : Fin 32) : Fin 32 := SortF.src (clip ids) t

def pointOf (ids : IVec S32 32) (b : Fin 32) : Fin 32 := SortF.src (permW ids) b

def langAt (ids : IVec S32 32) (t : Fin 32) : Fin 5 := Cert.Pool.clampL (ids (ix1 (sampleAt ids t)))

theorem permW_eq (ids : IVec S32 32) : permW ids = SortF.argsort (clip ids) := rfl
theorem invW_eq (ids : IVec S32 32) : invW ids = SortF.argsort (SortF.argsort (clip ids)) := rfl

attribute [local irreducible] SortF.src

theorem clip_toInt (ids : IVec S32 32) (j : S32.Idx) : (clip ids j).toInt = ((Cert.Pool.clampL (ids j)).val : Int) :=
  clip_scalar (ids j)

theorem clip_toNat (ids : IVec S32 32) (j : S32.Idx) : (clip ids j).toNat = (Cert.Pool.clampL (ids j)).val := by
  have h := clip_toInt ids j
  have h2 : (clip ids j).toInt = ((clip ids j).toNat : Int) := by
    rw [BitVec.toInt_eq_toNat_cond]
    split
    · rfl
    · rename_i hlt
      have := (Cert.Pool.clampL (ids j)).isLt
      rw [BitVec.toInt_eq_toNat_cond, if_neg hlt] at h
      have := (clip ids j).isLt
      omega
  omega

theorem validI_real (ids : IVec S32 32) (j : S32.Idx) :
    (((validI ids j).toNat : ℝ) : EReal) = Cert.Pool.validF (ids j) :=
  valid_scalar (ids j)

theorem normIdx_of_nonneg (x : IVec S32 32) (j : S32.Idx) (h : 0 ≤ (x j).toInt) : normIdx (F := Ideal) x j = x j :=
  norm_scalar (x j) h

theorem col_apply {α : Type} (x : S32.Idx → α) (e : Fin 32) (z : Fin 1) :
    broadcastInDim S32x1 ![0] Facts₀.bcast_S32_S32x1_0 x (ix2 e z) = x (ix1 e) :=
  broadcastInDim_apply _ _ _ _ (ix1 e) fun a => match a with | ⟨0, _⟩ => rfl

theorem lanes_apply {α : Type} (y : S32x1.Idx → α) (s : Fin 32) (e : Fin 1024) :
    broadcastInDim S32x1024 ![0, 1] Facts₀.bcast_S32x1_S32x1024_0_1 y (ix2 s e) = y (ix2 s (0 : Fin 1)) :=
  broadcastInDim_apply _ _ _ _ (ix2 s (0 : Fin 1)) fun a => match a with | ⟨0, _⟩ => rfl | ⟨1, _⟩ => rfl

theorem permW_ix1 (ids : IVec S32 32) (t : Fin 32) : permW ids (ix1 t) = BitVec.ofNat 32 (sampleAt ids t).val :=
  SortF.argsort_ix1 _ t

theorem sampleAt_pointOf (ids : IVec S32 32) (b : Fin 32) : sampleAt ids (pointOf ids b) = b :=
  SortF.src_src_argsort _ b

theorem takeAt_perm {e : EltTy} (x : (⟨S32, e⟩ : BufTy).Contents (Elt Ideal)) (ids : IVec S32 32) (t : Fin 32) :
    takeAt (F := Ideal) x (permW ids) (ix1 t) = x (ix1 (sampleAt ids t)) := by
  unfold takeAt
  refine (LibEdgeTable.gather_pick_apply (n := 32) (k := 32) (by decide) Facts₀.gather_S32_S32x1_S32_n_0_n_n_0_1_1_wf x _ t).trans ?_
  refine congrArg x (congrArg ix1 (Fin.ext ?_))
  show min ((broadcastInDim S32x1 ![0] Facts₀.bcast_S32_S32x1_0 (normIdx (F := Ideal) (permW ids))) (ix2 t (0 : Fin 1))).toInt.toNat (32 - 1) = _
  have hnn : 0 ≤ (permW ids (ix1 t)).toInt := by rw [permW_eq]; exact (SortF.argsort_toInt_range _ _).1
  rw [col_apply, normIdx_of_nonneg _ _ hnn, permW_eq]
  exact SortF.argsort_clamp (clip ids) (ix1 t)

theorem langSorted_ix1 (ids : IVec S32 32) (t : Fin 32) : langSorted ids (ix1 t) = clip ids (ix1 (sampleAt ids t)) :=
  takeAt_perm (e := .i32) _ ids t

theorem langSorted_toNat (ids : IVec S32 32) (t : Fin 32) : (langSorted ids (ix1 t)).toNat = (langAt ids t).val := by
  rw [langSorted_ix1, clip_toNat]; rfl

theorem validSorted_ix1 (ids : IVec S32 32) (t : Fin 32) : validSorted ids (ix1 t) = validI ids (ix1 (sampleAt ids t)) :=
  takeAt_perm (e := .i1) _ ids t

theorem pooledOf_apply (ids : IVec S32 32) (A : FVec Ideal S32x1024 .f32) (b : Fin 32) (e : Fin 1024) :
    pooledOf (validSorted ids) (invW ids) A (ix2 b e)
      = A (ix2 (pointOf ids b) e) * Cert.Pool.validF (ids (ix1 b)) := by
  unfold pooledOf
  refine (LibEdgeTable.gather_rows_apply (n := 32) (c := 1024) (k := 32) (by decide)
    Facts₀.gather_S32x1024_S32x1_S32x1024_1_0_n_n_0_1_11024_wf _ _ b e).trans ?_
  have hs : (⟨min ((broadcastInDim S32x1 ![0] Facts₀.bcast_S32_S32x1_0 (normIdx (F := Ideal) (invW ids))) (ix2 b (0 : Fin 1))).toInt.toNat (32 - 1),
      by omega⟩ : Fin 32) = pointOf ids b := by
    refine Fin.ext ?_
    show min _ (32 - 1) = _
    have hnn : 0 ≤ (invW ids (ix1 b)).toInt := by rw [invW_eq]; exact (SortF.argsort_toInt_range _ _).1
    rw [col_apply, normIdx_of_nonneg _ _ hnn, invW_eq]
    exact SortF.argsort_clamp (SortF.argsort (clip ids)) (ix1 b)
  rw [hs]
  show A (ix2 (pointOf ids b) e) * _ = _
  congr 1
  rw [lanes_apply]
  show (((broadcastInDim S32x1 ![0] Facts₀.bcast_S32_S32x1_0 (validSorted ids) (ix2 (pointOf ids b) (0 : Fin 1))).toNat : ℝ) : EReal) = _
  rw [col_apply, validSorted_ix1, sampleAt_pointOf, validI_real]

section Val

variable (m : (ℓ : Loc nD τ sig) → Buf (Elt Ideal) ℓ)

abbrev idsOf (c : Dev nD) : IVec S32 32 := m ((c : Thread nD τ).loc main_arg2)

local macro "pre_ops_list" : tactic =>
  `(tactic| simp only [preOps, hostOps0, hostOps0_1, hostOps0_2, hostOps0_3, hostOps0_4, hostOps0_5, List.flatten_cons, List.flatten_nil,
    List.append_nil, List.cons_append, List.nil_append])

theorem V_v20 (c : Dev nD) : V m c main_v20 = validSorted (idsOf m c) := by
  show StableHlo.after _ _ _ = _
  pre_ops_list
  after_results_simp
  rfl

theorem V_v21 (c : Dev nD) : V m c main_v21 = invW (idsOf m c) := by
  show StableHlo.after _ _ _ = _
  pre_ops_list
  after_results_simp
  rfl

theorem tail_v38 (W : Valuation τ sig (Elt Ideal)) :
    StableHlo.after (hostOps1 (F := Ideal)) W (Proc.devRef .tc main_v38)
      = pooledOf (W (Proc.devRef .tc main_v20)) (W (Proc.devRef .tc main_v21)) (W (Proc.devRef .tc main_v27)) := by
  simp only [hostOps1]
  after_results_simp
  rfl

end Val

section Bridge

variable (m : (ℓ : Loc nD τ sig) → Buf (Elt Ideal) ℓ)

theorem Wx_v27 (hO : Ok m) (c : Dev nD) : Wx m hO c (Proc.devRef .tc main_v27) = Aout m hO c :=
  Pipeline.withArrays_arr spec0 (by decide) c (V0 m c) (Afin m hO c) 8

theorem Wx_v20 (hO : Ok m) (c : Dev nD) : Wx m hO c (Proc.devRef .tc main_v20) = validSorted (idsOf m c) :=
  (Pipeline.withArrays_of_ne spec0 c (V0 m c) (Afin m hO c) main_v20 (by decide)).trans (V_v20 m c)

theorem Wx_v21 (hO : Ok m) (c : Dev nD) : Wx m hO c (Proc.devRef .tc main_v21) = invW (idsOf m c) :=
  (Pipeline.withArrays_of_ne spec0 c (V0 m c) (Afin m hO c) main_v21 (by decide)).trans (V_v21 m c)

noncomputable def gridPt (hO : Ok m) (c : Dev nD) (b : Fin 32) : Fin (cfgM m hO).N :=
  ⟨(pointOf (idsOf m c) b).val, lt_of_lt_of_eq (pointOf (idsOf m c) b).isLt (show 32 = (cfgM m hO).N from N_0.symm)⟩

theorem pooled_read (hO : Ok m) (c : Dev nD) (b : Fin 32) (e : Fin 1024) :
    X1 m hO c (Proc.devRef .tc main_v38) (ix2 b e)
      = payAt m hO c (gridPt m hO c b) (ix2 (0 : Fin 1) e) * Cert.Pool.validF (idsOf m c (ix1 b)) := by
  have h := tail_v38 (Wx m hO c)
  rw [Wx_v20, Wx_v21, Wx_v27] at h
  refine (congrFun h (ix2 b e)).trans ?_
  exact pooledOf_apply (idsOf m c) (Aout m hO c) b e

abbrev arrX (c : Dev nD) : Fin 32 → Fin 512 → Fin 1024 → EReal :=
  fun b s k => (m ((c : Thread nD τ).loc main_arg0) : FVec Ideal S32x512x1024 .f32) (ix3 b s k)
abbrev arrM (c : Dev nD) : Fin 32 → Fin 512 → EReal :=
  fun b s => (m ((c : Thread nD τ).loc main_arg1) : FVec Ideal S32x512 .f32) (ix2 b s)
abbrev arrIds (c : Dev nD) : Fin 32 → BitVec 32 := fun b => idsOf m c (ix1 b)
abbrev arrW1 (c : Dev nD) : Fin 5 → Fin 1024 → Fin 1024 → EReal :=
  fun l k e => (m ((c : Thread nD τ).loc main_arg4) : FVec Ideal S5x1024x1024 .f32) (ix3 l k e)
abbrev arrB1 (c : Dev nD) : Fin 5 → Fin 1024 → EReal :=
  fun l e => (m ((c : Thread nD τ).loc main_arg5) : FVec Ideal S5x1024 .f32) (ix2 l e)
abbrev arrG1 (c : Dev nD) : Fin 5 → Fin 1024 → EReal :=
  fun l e => (m ((c : Thread nD τ).loc main_arg6) : FVec Ideal S5x1024 .f32) (ix2 l e)
abbrev arrBe1 (c : Dev nD) : Fin 5 → Fin 1024 → EReal :=
  fun l e => (m ((c : Thread nD τ).loc main_arg7) : FVec Ideal S5x1024 .f32) (ix2 l e)
abbrev arrW2 (c : Dev nD) : Fin 5 → Fin 1024 → Fin 1024 → EReal :=
  fun l k e => (m ((c : Thread nD τ).loc main_arg8) : FVec Ideal S5x1024x1024 .f32) (ix3 l k e)
abbrev arrB2 (c : Dev nD) : Fin 5 → Fin 1024 → EReal :=
  fun l e => (m ((c : Thread nD τ).loc main_arg9) : FVec Ideal S5x1024 .f32) (ix2 l e)

structure BlocksAt (hO : Ok m) (c : Dev nD) (t : Fin (cfgM m hO).N) (b : Fin 32) (l : Fin 5) : Prop where
  x0 : ∀ s k, (iblk m hO c 0 t : Vec Ideal S1x512x1024 .f32) (ix3 (0 : Fin 1) s k) = arrX m c b s k
  x1 : ∀ s, (iblk m hO c 1 t : Vec Ideal S1x1x512 .f32) (ix3 (0 : Fin 1) (0 : Fin 1) s) = arrM m c b s
  x2 : ∀ k e, (iblk m hO c 2 t : Vec Ideal S1x1024x1024 .f32) (ix3 (0 : Fin 1) k e) = arrW1 m c l k e
  x3 : ∀ e, (iblk m hO c 3 t : Vec Ideal S1x1x1024 .f32) (ix3 (0 : Fin 1) (0 : Fin 1) e) = arrB1 m c l e
  x4 : ∀ e, (iblk m hO c 4 t : Vec Ideal S1x1x1024 .f32) (ix3 (0 : Fin 1) (0 : Fin 1) e) = arrG1 m c l e
  x5 : ∀ e, (iblk m hO c 5 t : Vec Ideal S1x1x1024 .f32) (ix3 (0 : Fin 1) (0 : Fin 1) e) = arrBe1 m c l e
  x6 : ∀ k e, (iblk m hO c 6 t : Vec Ideal S1x1024x1024 .f32) (ix3 (0 : Fin 1) k e) = arrW2 m c l k e
  x7 : ∀ e, (iblk m hO c 7 t : Vec Ideal S1x1x1024 .f32) (ix3 (0 : Fin 1) (0 : Fin 1) e) = arrB2 m c l e

theorem pooled_bridge (hO : Ok m) (c : Dev nD)
    (hblk : ∀ t : Fin 32, BlocksAt m hO c ⟨t.val, lt_of_lt_of_eq t.isLt (show 32 = (cfgM m hO).N from N_0.symm)⟩
      (sampleAt (idsOf m c) t) (langAt (idsOf m c) t))
    (hpay : ∀ (x0 : Vec Ideal S1x512x1024 .f32) (x1 : Vec Ideal S1x1x512 .f32) (x2 : Vec Ideal S1x1024x1024 .f32)
      (x3 x4 x5 : Vec Ideal S1x1x1024 .f32) (x6 : Vec Ideal S1x1024x1024 .f32) (x7 : Vec Ideal S1x1x1024 .f32)
      (l : Fin 5) (b : Fin 32),
      (∀ s k, x0 (ix3 (0 : Fin 1) s k) = arrX m c b s k) → (∀ s, x1 (ix3 (0 : Fin 1) (0 : Fin 1) s) = arrM m c b s) →
      (∀ k e, x2 (ix3 (0 : Fin 1) k e) = arrW1 m c l k e) → (∀ e, x3 (ix3 (0 : Fin 1) (0 : Fin 1) e) = arrB1 m c l e) →
      (∀ e, x4 (ix3 (0 : Fin 1) (0 : Fin 1) e) = arrG1 m c l e) → (∀ e, x5 (ix3 (0 : Fin 1) (0 : Fin 1) e) = arrBe1 m c l e) →
      (∀ k e, x6 (ix3 (0 : Fin 1) k e) = arrW2 m c l k e) → (∀ e, x7 (ix3 (0 : Fin 1) (0 : Fin 1) e) = arrB2 m c l e) →
      ∀ e, payOf x0 x1 x2 x3 x4 x5 x6 x7 (ix2 (0 : Fin 1) e)
        = Cert.Pool.poolL (arrX m c) (arrM m c) (arrW1 m c) (arrB1 m c) (arrG1 m c) (arrBe1 m c) (arrW2 m c) (arrB2 m c) l b e)
    (b : Fin 32) (e : Fin 1024) :
    X1 m hO c (Proc.devRef .tc main_v38) (ix2 b e)
      = Cert.Pool.kpool (arrX m c) (arrM m c) (arrIds m c) (arrW1 m c) (arrB1 m c) (arrG1 m c) (arrBe1 m c) (arrW2 m c)
          (arrB2 m c) b e := by
  refine (pooled_read m hO c b e).trans ?_
  show _ = Cert.Pool.poolL _ _ _ _ _ _ _ _ (Cert.Pool.clampL (arrIds m c b)) b e * Cert.Pool.validF (arrIds m c b)
  refine congrArg (fun x => x * Cert.Pool.validF (arrIds m c b)) ?_
  have hb := hblk (pointOf (idsOf m c) b)
  have hl : langAt (idsOf m c) (pointOf (idsOf m c) b) = Cert.Pool.clampL (arrIds m c b) := by
    unfold langAt; rw [sampleAt_pointOf]
  rw [sampleAt_pointOf, hl] at hb
  exact hpay _ _ _ _ _ _ _ _ _ _ hb.x0 hb.x1 hb.x2 hb.x3 hb.x4 hb.x5 hb.x6 hb.x7 e

theorem tbl0_toNat (t : Fin 32) : (tbl m 0 (ix1 t)).toNat = (sampleAt (idsOf m (0 : Dev nD)) t).val := by
  rw [tbl0_eq]
  show (permW (idsOf m (0 : Dev nD)) (ix1 t)).toNat = _
  rw [permW_ix1]
  exact SortF.toNat_ofNat_small (sampleAt _ t).isLt

theorem tbl1_toNat (t : Fin 32) : (tbl m 1 (ix1 t)).toNat = (langAt (idsOf m (0 : Dev nD)) t).val := by
  rw [tbl1_eq]
  exact langSorted_toNat (idsOf m (0 : Dev nD)) t

end Bridge

end Glue

end Cert.KI

end
-- ==== Proof.KI.Pay.lean ====
import proofs.«423535_j34024730919221_3_alg».proof.Proof.KI.Data
import proofs.«423535_j34024730919221_3_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KI

open Cert.KernelIdeal Cert.KernelIdeal.Gen
open Idealize.ShloMosaic Idealize.ShloMosaic.ValueIdx
open Cert.Pool

abbrev D512 := dot_S512x1024_S1024x1024_S512x1024_1_0_0_1_n_n
abbrev D1 := dot_S1x512_S512x1024_S1x1024_1_0_0_1_n_n

theorem D512_lhs0 (j : S512x1024.Idx) (k : D512.contr.Idx) : ((D512.lhsIdx j k) 0).val = (j 0).val := rfl
theorem D512_rhs1 (j : S512x1024.Idx) (k : D512.contr.Idx) : ((D512.rhsIdx j k) 1).val = (j 1).val := rfl
theorem D512_lhs1 (j : S512x1024.Idx) (k : D512.contr.Idx) : ((D512.lhsIdx j k) 1).val = (k ⟨0, by decide⟩).val :=
  DotDims.lhsIdx_val_of_single D512 (cl := 1) rfl j k
theorem D512_rhs0 (j : S512x1024.Idx) (k : D512.contr.Idx) : ((D512.rhsIdx j k) 0).val = (k ⟨0, by decide⟩).val :=
  DotDims.rhsIdx_val_of_single D512 (cr := 0) rfl j k

theorem mm512 {φ₁ φ₂ : FTy} (lhs : FVec Ideal S512x1024 φ₁) (rhs : FVec Ideal S1024x1024 φ₂) (s : Fin 512) (e : Fin 1024) :
    matmul D512 none lhs rhs (constant S512x1024 .f32 0x00000000#32) (ix2 s e)
      = ∑ k : Fin 1024, lhs (ix2 s k) * rhs (ix2 k e) := by
  refine (Ideal.matmul_constant_zero_apply D512 none lhs rhs (ix2 s e)).trans ?_
  refine (Equiv.sum_comp (contrEquiv1 D512 1024 rfl rfl).symm _).symm.trans ?_
  refine Finset.sum_congr rfl fun k _ => ?_
  have hk := contrEquiv1_symm_val D512 1024 rfl rfl k
  congr 1
  · refine congrArg lhs (Shape.idx_ext₂ ?_ ?_)
    · exact D512_lhs0 _ _
    · exact (D512_lhs1 _ _).trans hk
  · refine congrArg rhs (Shape.idx_ext₂ ?_ ?_)
    · exact (D512_rhs0 _ _).trans hk
    · exact D512_rhs1 _ _

theorem D1_lhs0 (j : S1x1024.Idx) (k : D1.contr.Idx) : ((D1.lhsIdx j k) 0).val = (j 0).val := rfl
theorem D1_rhs1 (j : S1x1024.Idx) (k : D1.contr.Idx) : ((D1.rhsIdx j k) 1).val = (j 1).val := rfl
theorem D1_lhs1 (j : S1x1024.Idx) (k : D1.contr.Idx) : ((D1.lhsIdx j k) 1).val = (k ⟨0, by decide⟩).val :=
  DotDims.lhsIdx_val_of_single D1 (cl := 1) rfl j k
theorem D1_rhs0 (j : S1x1024.Idx) (k : D1.contr.Idx) : ((D1.rhsIdx j k) 0).val = (k ⟨0, by decide⟩).val :=
  DotDims.rhsIdx_val_of_single D1 (cr := 0) rfl j k

theorem mm1 {φ₁ φ₂ : FTy} (lhs : FVec Ideal S1x512 φ₁) (rhs : FVec Ideal S512x1024 φ₂) (u : Fin 1) (e : Fin 1024) :
    matmul D1 none lhs rhs (constant S1x1024 .f32 0x00000000#32) (ix2 u e)
      = ∑ k : Fin 512, lhs (ix2 u k) * rhs (ix2 k e) := by
  refine (Ideal.matmul_constant_zero_apply D1 none lhs rhs (ix2 u e)).trans ?_
  refine (Equiv.sum_comp (contrEquiv1 D1 512 rfl rfl).symm _).symm.trans ?_
  refine Finset.sum_congr rfl fun k _ => ?_
  have hk := contrEquiv1_symm_val D1 512 rfl rfl k
  congr 1
  · refine congrArg lhs (Shape.idx_ext₂ ?_ ?_)
    · exact D1_lhs0 _ _
    · exact (D1_lhs1 _ _).trans hk
  · refine congrArg rhs (Shape.idx_ext₂ ?_ ?_)
    · exact (D1_rhs0 _ _).trans hk
    · exact D1_rhs1 _ _

theorem rowsum (v : FVec Ideal S512x1024 .f32) (hφ : FKind.Formats .f32)
    (hacc : (0x00000000#32 : BitVec 32) = FKind.add.neutral .f32 hφ) (s : Fin 512) :
    multiReduction .add [1] S512 v 0x00000000#32 reduces_S512x1024_S512 hφ hacc (ix1 s) = ∑ e : Fin 1024, v (ix2 s e) := by
  refine (Ideal.multiReduction_add_single v _ reduces_S512x1024_S512 hφ hacc (ix1 s)).trans ?_
  exact Finset.sum_congr rfl fun e _ => congrArg v (Shape.idx_ext₂ rfl rfl)

section Casts
variable {α : Type}

theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def idxEquiv11n (n : ℕ) : Fin n ≃ (⟨3, ![1, 1, n]⟩ : Shape).Idx where
  toFun s := ix3 (0 : Fin 1) (0 : Fin 1) s
  invFun i := i 2
  left_inv s := rfl
  right_inv i := by
    funext a
    match a with
    | ⟨0, _⟩ => exact Fin.ext (by show (0 : ℕ) = (i 0).val; have : (i 0).val < 1 := (i 0).isLt; omega)
    | ⟨1, _⟩ => exact Fin.ext (by show (0 : ℕ) = (i 1).val; have : (i 1).val < 1 := (i 1).isLt; omega)
    | ⟨2, _⟩ => rfl

end Casts

theorem pay9_apply (x1 : Vec Ideal S1x1x512 .f32) : k0_pay9 (k0_pay2 x1) = ∑ s : Fin 512, x1 (ix3 (0 : Fin 1) (0 : Fin 1) s) := by
  unfold k0_pay9 k0_pay2
  show extractAt ![0, 0, 0] (shapeCast S1x1x1 (multiReduction (F := Ideal) .add [1, 2] S1
    (shapeCast S1x1x512 (shapeCast S1x512 x1 shapeCasts_S1x1x512_S1x512) shapeCasts_S1x512_S1x1x512) 0x00000000#32
      reduces_S1x1x512_S1 (.inl rfl) rfl) shapeCasts_S1_S1x1x1) inpos_S1x1x1_p0_0_0 = _
  rw [shapeCast_shapeCast]
  unfold extractAt shapeCast
  refine (Ideal.multiReduction_add_total x1 _ reduces_S1x1x512_S1 (fun b => ?_) (.inl rfl) rfl _).trans ?_
  · match b with
    | ⟨0, _⟩ => rfl
  · exact (Equiv.sum_comp (idxEquiv11n 512) x1).symm

section Generic
variable {F : FTy → Type} [FloatOps F]

def tri512 (a : FVec F S512x1024 .f32) (w : FVec F S1024x1024 .f32) : FVec F S512x1024 .f32 :=
  addf (addf
    (matmul D512 none (truncf .bf16 a bitsLt_bf16_f32) (truncf .bf16 w bitsLt_bf16_f32) (constant S512x1024 .f32 0x00000000#32))
    (matmul D512 none (truncf .bf16 a bitsLt_bf16_f32) (truncf .bf16 (subf w w) bitsLt_bf16_f32) (constant S512x1024 .f32 0x00000000#32)))
    (matmul D512 none (truncf .bf16 (subf a a) bitsLt_bf16_f32) (truncf .bf16 w bitsLt_bf16_f32) (constant S512x1024 .f32 0x00000000#32))

def tri1 (a : FVec F S1x512 .f32) (w : FVec F S512x1024 .f32) : FVec F S1x1024 .f32 :=
  addf (addf
    (matmul D1 none (truncf .bf16 a bitsLt_bf16_f32) (truncf .bf16 w bitsLt_bf16_f32) (constant S1x1024 .f32 0x00000000#32))
    (matmul D1 none (truncf .bf16 a bitsLt_bf16_f32) (truncf .bf16 (subf w w) bitsLt_bf16_f32) (constant S1x1024 .f32 0x00000000#32)))
    (matmul D1 none (truncf .bf16 (subf a a) bitsLt_bf16_f32) (truncf .bf16 w bitsLt_bf16_f32) (constant S1x1024 .f32 0x00000000#32))

def lnMean (v30 : FVec F S512x1024 .f32) : FVec F S512x1 .f32 :=
  divf (shapeCast S512x1 (multiReduction .add [1] S512 v30 0x00000000#32 reduces_S512x1024_S512 (.inl rfl) rfl) shapeCasts_S512_S512x1)
    (broadcast S512x1 (Scalar.ofBits .f32 0x44800000#32))

def lnCent (v30 : FVec F S512x1024 .f32) : FVec F S512x1024 .f32 :=
  subf v30 (broadcastTo S512x1024 (lnMean v30) broadcasts_S512x1_S512x1024)

def lnRstd (v30 : FVec F S512x1024 .f32) : FVec F S512x1 .f32 :=
  rsqrt (addf
    (divf (shapeCast S512x1 (multiReduction .add [1] S512 (mulf (lnCent v30) (lnCent v30)) 0x00000000#32 reduces_S512x1024_S512 (.inl rfl) rfl) shapeCasts_S512_S512x1)
      (broadcast S512x1 (Scalar.ofBits .f32 0x44800000#32)))
    (broadcast S512x1 (Scalar.ofBits .f32 0x3727C5AC#32)))

def lnr (v9 v11 : FVec F S1x1024 .f32) (v30 : FVec F S512x1024 .f32) : FVec F S512x1024 .f32 :=
  maximumf
    (addf (mulf (mulf (lnCent v30) (broadcastTo S512x1024 (lnRstd v30) broadcasts_S512x1_S512x1024))
      (broadcastTo S512x1024 v9 broadcasts_S1x1024_S512x1024)) (broadcastTo S512x1024 v11 broadcasts_S1x1024_S512x1024))
    (broadcast S512x1024 (Scalar.ofBits .f32 0x00000000#32))

theorem k0_pay7_eq (x0 : Vec F S1x512x1024 .f32) (x2 : Vec F S1x1024x1024 .f32) (x3 : Vec F S1x1x1024 .f32) :
    k0_pay7 x0 x2 x3 =
      addf (tri512 (shapeCast S512x1024 x0 shapeCasts_S1x512x1024_S512x1024) (shapeCast S1024x1024 x2 shapeCasts_S1x1024x1024_S1024x1024))
        (broadcastTo S512x1024 (shapeCast S1x1024 x3 shapeCasts_S1x1x1024_S1x1024) broadcasts_S1x1024_S512x1024) := rfl

theorem k0_pay8_eq (v9 v11 : FVec F S1x1024 .f32) (v13 : FVec F S1024x1024 .f32) (v15 : FVec F S1x1024 .f32) (v30 : FVec F S512x1024 .f32) :
    k0_pay8 v9 v11 v13 v15 v30 = addf (tri512 (lnr v9 v11 v30) v13) (broadcastTo S512x1024 v15 broadcasts_S1x1024_S512x1024) := rfl

theorem payOf_eq (x0 : Vec F S1x512x1024 .f32) (x1 : Vec F S1x1x512 .f32) (x2 : Vec F S1x1024x1024 .f32) (x3 x4 x5 : Vec F S1x1x1024 .f32)
    (x6 : Vec F S1x1024x1024 .f32) (x7 : Vec F S1x1x1024 .f32) :
    payOf x0 x1 x2 x3 x4 x5 x6 x7 =
      shapeCast S1x1024 (shapeCast S1024
        (divf (tri1 (k0_pay2 x1) (k0_pay8 (k0_pay3 x4) (k0_pay4 x5) (k0_pay5 x6) (k0_pay6 x7) (k0_pay7 x0 x2 x3)))
          (broadcast S1x1024 (k0_pay9 (k0_pay2 x1)))) shapeCasts_S1x1024_S1024) shapeCasts_S1024_S1x1024 := rfl

end Generic

theorem tri512_apply (a : FVec Ideal S512x1024 .f32) (w : FVec Ideal S1024x1024 .f32) (s : Fin 512) (e : Fin 1024) :
    tri512 a w (ix2 s e) =
      ((∑ k : Fin 1024, a (ix2 s k) * w (ix2 k e)) + ∑ k : Fin 1024, a (ix2 s k) * (w (ix2 k e) - w (ix2 k e)))
        + ∑ k : Fin 1024, (a (ix2 s k) - a (ix2 s k)) * w (ix2 k e) := by
  unfold tri512
  rw [addf_apply, addf_apply, mm512, mm512, mm512]
  rfl

theorem tri1_apply (a : FVec Ideal S1x512 .f32) (w : FVec Ideal S512x1024 .f32) (u : Fin 1) (e : Fin 1024) :
    tri1 a w (ix2 u e) =
      ((∑ k : Fin 512, a (ix2 u k) * w (ix2 k e)) + ∑ k : Fin 512, a (ix2 u k) * (w (ix2 k e) - w (ix2 k e)))
        + ∑ k : Fin 512, (a (ix2 u k) - a (ix2 u k)) * w (ix2 k e) := by
  unfold tri1
  rw [addf_apply, addf_apply, mm1, mm1, mm1]
  rfl

theorem tri512_real (a : FVec Ideal S512x1024 .f32) (w : FVec Ideal S1024x1024 .f32)
    (A : Fin 512 → Fin 1024 → EReal) (Wm : Fin 1024 → Fin 1024 → EReal)
    (ha : ∀ s k, a (ix2 s k) = A s k) (hw : ∀ k e, w (ix2 k e) = Wm k e)
    (hA : ∀ s k, IsR (A s k)) (hW : ∀ k e, IsR (Wm k e)) (s : Fin 512) (e : Fin 1024) :
    tri512 a w (ix2 s e) = ∑ k : Fin 1024, A s k * Wm k e := by
  rw [tri512_apply]
  simp only [ha, hw]
  exact hilo_sum (fun k => A s k) (fun k => Wm k e) (fun k => hA s k) (fun k => hW k e)

theorem tri1_real (a : FVec Ideal S1x512 .f32) (w : FVec Ideal S512x1024 .f32)
    (A : Fin 512 → EReal) (Wm : Fin 512 → Fin 1024 → EReal)
    (ha : ∀ u k, a (ix2 u k) = A k) (hw : ∀ k e, w (ix2 k e) = Wm k e)
    (hA : ∀ k, IsR (A k)) (hW : ∀ k e, IsR (Wm k e)) (u : Fin 1) (e : Fin 1024) :
    tri1 a w (ix2 u e) = ∑ k : Fin 512, A k * Wm k e := by
  rw [tri1_apply]
  simp only [ha, hw]
  exact hilo_sum (fun k => A k) (fun k => Wm k e) (fun k => hA k) (fun k => hW k e)

theorem lnMean_apply (v30 : FVec Ideal S512x1024 .f32) (s : Fin 512) (u : Fin 1) :
    lnMean v30 (ix2 s u) = Ideal.div (∑ e : Fin 1024, v30 (ix2 s e)) (Ideal.ofBits .f32 0x44800000#32) := by
  unfold lnMean
  show Ideal.div (shapeCast S512x1 (multiReduction (F := Ideal) .add [1] S512 v30 0x00000000#32 reduces_S512x1024_S512 (.inl rfl) rfl)
    shapeCasts_S512_S512x1 (ix2 s u)) (Ideal.ofBits .f32 0x44800000#32) = _
  rw [cast_a_a1]
  exact congrArg (fun t => Ideal.div t (Ideal.ofBits .f32 0x44800000#32)) (rowsum v30 _ _ s)

theorem lnCent_apply (v30 : FVec Ideal S512x1024 .f32) (s : Fin 512) (e : Fin 1024) :
    lnCent v30 (ix2 s e) = v30 (ix2 s e) - lnMean v30 (ix2 s (0 : Fin 1)) := by
  unfold lnCent
  rw [subf_apply, bcast_a1_ab]

theorem lnRstd_apply (v30 : FVec Ideal S512x1024 .f32) (s : Fin 512) (u : Fin 1) :
    lnRstd v30 (ix2 s u) =
      Ideal.rsqrt (Ideal.div (∑ e : Fin 1024, lnCent v30 (ix2 s e) * lnCent v30 (ix2 s e)) (Ideal.ofBits .f32 0x44800000#32)
        + Ideal.ofBits .f32 0x3727C5AC#32) := by
  unfold lnRstd
  show Ideal.rsqrt (Ideal.div (shapeCast S512x1 (multiReduction (F := Ideal) .add [1] S512 (mulf (lnCent v30) (lnCent v30)) 0x00000000#32
    reduces_S512x1024_S512 (.inl rfl) rfl) shapeCasts_S512_S512x1 (ix2 s u)) (Ideal.ofBits .f32 0x44800000#32)
      + Ideal.ofBits .f32 0x3727C5AC#32) = _
  rw [cast_a_a1]
  exact congrArg (fun t => Ideal.rsqrt (Ideal.div t (Ideal.ofBits .f32 0x44800000#32) + Ideal.ofBits .f32 0x3727C5AC#32))
    (rowsum (mulf (lnCent v30) (lnCent v30)) _ _ s)

theorem lnr_apply (v9 v11 : FVec Ideal S1x1024 .f32) (v30 : FVec Ideal S512x1024 .f32) (s : Fin 512) (e : Fin 1024) :
    lnr v9 v11 v30 (ix2 s e) =
      max (lnCent v30 (ix2 s e) * lnRstd v30 (ix2 s (0 : Fin 1)) * v9 (ix2 (0 : Fin 1) e) + v11 (ix2 (0 : Fin 1) e))
        (Ideal.ofBits .f32 0x00000000#32) := by
  unfold lnr
  show max (lnCent v30 (ix2 s e) * broadcastTo S512x1024 (lnRstd v30) broadcasts_S512x1_S512x1024 (ix2 s e)
      * broadcastTo S512x1024 v9 broadcasts_S1x1024_S512x1024 (ix2 s e)
      + broadcastTo S512x1024 v11 broadcasts_S1x1024_S512x1024 (ix2 s e)) (Ideal.ofBits .f32 0x00000000#32) = _
  rw [bcast_a1_ab, broadcastTo_1b_ab_apply, broadcastTo_1b_ab_apply]

theorem pay2_apply (x : Vec Ideal S1x1x512 .f32) (u : Fin 1) (s : Fin 512) : k0_pay2 x (ix2 u s) = x (ix3 (0 : Fin 1) (0 : Fin 1) s) :=
  (shapeCast_1ab_ab_apply x shapeCasts_S1x1x512_S1x512 u s).trans (congrArg x (by rw [Subsingleton.elim u 0]))
theorem pay3_apply (x : Vec Ideal S1x1x1024 .f32) (e : Fin 1024) : k0_pay3 x (ix2 (0 : Fin 1) e) = x (ix3 (0 : Fin 1) (0 : Fin 1) e) :=
  shapeCast_1ab_ab_apply x shapeCasts_S1x1x1024_S1x1024 0 e
theorem pay4_apply (x : Vec Ideal S1x1x1024 .f32) (e : Fin 1024) : k0_pay4 x (ix2 (0 : Fin 1) e) = x (ix3 (0 : Fin 1) (0 : Fin 1) e) :=
  shapeCast_1ab_ab_apply x shapeCasts_S1x1x1024_S1x1024 0 e
theorem pay5_apply (x : Vec Ideal S1x1024x1024 .f32) (k e : Fin 1024) : k0_pay5 x (ix2 k e) = x (ix3 (0 : Fin 1) k e) :=
  shapeCast_1ab_ab_apply x shapeCasts_S1x1024x1024_S1024x1024 k e
theorem pay6_apply (x : Vec Ideal S1x1x1024 .f32) (e : Fin 1024) : k0_pay6 x (ix2 (0 : Fin 1) e) = x (ix3 (0 : Fin 1) (0 : Fin 1) e) :=
  shapeCast_1ab_ab_apply x shapeCasts_S1x1x1024_S1x1024 0 e

section Spec

variable (X : Fin 32 → Fin 512 → Fin 1024 → EReal) (M : Fin 32 → Fin 512 → EReal)
  (W1 : Fin 5 → Fin 1024 → Fin 1024 → EReal) (B1 G1 Be1 : Fin 5 → Fin 1024 → EReal)
  (W2 : Fin 5 → Fin 1024 → Fin 1024 → EReal) (B2 : Fin 5 → Fin 1024 → EReal) (l : Fin 5) (b : Fin 32)

theorem lnMean_spec (v30 : FVec Ideal S512x1024 .f32) (hv : ∀ s e, v30 (ix2 s e) = h1 X W1 B1 l b s e) (s : Fin 512) (u : Fin 1) :
    lnMean v30 (ix2 s u) = mu X W1 B1 l b s := by
  rw [lnMean_apply]
  unfold mu c1024
  simp only [hv]

theorem lnCent_spec (v30 : FVec Ideal S512x1024 .f32) (hv : ∀ s e, v30 (ix2 s e) = h1 X W1 B1 l b s e) (s : Fin 512) (e : Fin 1024) :
    lnCent v30 (ix2 s e) = dv X W1 B1 l b s e := by
  rw [lnCent_apply, lnMean_spec X W1 B1 l b v30 hv, hv]
  rfl

theorem lnRstd_spec (v30 : FVec Ideal S512x1024 .f32) (hv : ∀ s e, v30 (ix2 s e) = h1 X W1 B1 l b s e) (s : Fin 512) (u : Fin 1) :
    lnRstd v30 (ix2 s u) = Ideal.rsqrt (var X W1 B1 l b s + ceps) := by
  rw [lnRstd_apply]
  unfold var c1024 ceps
  simp only [lnCent_spec X W1 B1 l b v30 hv]

theorem lnr_spec (v9 v11 : FVec Ideal S1x1024 .f32) (v30 : FVec Ideal S512x1024 .f32)
    (hv9 : ∀ e, v9 (ix2 (0 : Fin 1) e) = G1 l e) (hv11 : ∀ e, v11 (ix2 (0 : Fin 1) e) = Be1 l e)
    (hv : ∀ s e, v30 (ix2 s e) = h1 X W1 B1 l b s e) (s : Fin 512) (e : Fin 1024) :
    lnr v9 v11 v30 (ix2 s e) = h1r X W1 B1 G1 Be1 l b s e := by
  rw [lnr_apply, lnCent_spec X W1 B1 l b v30 hv, lnRstd_spec X W1 B1 l b v30 hv, hv9, hv11, Ideal.ofBits_zero_f32]
  rfl

variable (hX : ∀ b s k, IsR (X b s k)) (hM : ∀ b s, IsR (M b s)) (hW1 : ∀ l k e, IsR (W1 l k e)) (hB1 : ∀ l e, IsR (B1 l e))
  (hG1 : ∀ l e, IsR (G1 l e)) (hBe1 : ∀ l e, IsR (Be1 l e)) (hW2 : ∀ l k e, IsR (W2 l k e)) (hB2 : ∀ l e, IsR (B2 l e))

include hX hW1 in

theorem pay7_spec (x0 : Vec Ideal S1x512x1024 .f32) (x2 : Vec Ideal S1x1024x1024 .f32) (x3 : Vec Ideal S1x1x1024 .f32)
    (h0 : ∀ s k, x0 (ix3 (0 : Fin 1) s k) = X b s k) (h2 : ∀ k e, x2 (ix3 (0 : Fin 1) k e) = W1 l k e)
    (h3 : ∀ e, x3 (ix3 (0 : Fin 1) (0 : Fin 1) e) = B1 l e) (s : Fin 512) (e : Fin 1024) :
    k0_pay7 x0 x2 x3 (ix2 s e) = h1 X W1 B1 l b s e := by
  rw [k0_pay7_eq, addf_apply,
    tri512_real _ _ (fun s k => X b s k) (fun k e => W1 l k e)
      (fun s k => (shapeCast_1ab_ab_apply x0 _ s k).trans (h0 s k))
      (fun k e => (shapeCast_1ab_ab_apply x2 _ k e).trans (h2 k e)) (hX b) (hW1 l),
    broadcastTo_1b_ab_apply, shapeCast_1ab_ab_apply, h3]
  rfl

include hX hW1 hB1 hG1 hBe1 hW2 in

theorem pay8_spec (x4 x5 : Vec Ideal S1x1x1024 .f32) (x6 : Vec Ideal S1x1024x1024 .f32) (x7 : Vec Ideal S1x1x1024 .f32)
    (v30 : FVec Ideal S512x1024 .f32)
    (h4 : ∀ e, x4 (ix3 (0 : Fin 1) (0 : Fin 1) e) = G1 l e) (h5 : ∀ e, x5 (ix3 (0 : Fin 1) (0 : Fin 1) e) = Be1 l e)
    (h6 : ∀ k e, x6 (ix3 (0 : Fin 1) k e) = W2 l k e) (h7 : ∀ e, x7 (ix3 (0 : Fin 1) (0 : Fin 1) e) = B2 l e)
    (hv : ∀ s e, v30 (ix2 s e) = h1 X W1 B1 l b s e) (s : Fin 512) (e : Fin 1024) :
    k0_pay8 (k0_pay3 x4) (k0_pay4 x5) (k0_pay5 x6) (k0_pay6 x7) v30 (ix2 s e) = h2 X W1 B1 G1 Be1 W2 B2 l b s e := by
  rw [k0_pay8_eq, addf_apply,
    tri512_real (lnr (k0_pay3 x4) (k0_pay4 x5) v30) (k0_pay5 x6) (fun s k => h1r X W1 B1 G1 Be1 l b s k) (fun k e => W2 l k e)
      (fun s k => lnr_spec X W1 B1 G1 Be1 l b (k0_pay3 x4) (k0_pay4 x5) v30
        (fun e => (pay3_apply x4 e).trans (h4 e)) (fun e => (pay4_apply x5 e).trans (h5 e)) hv s k)
      (fun k e => (pay5_apply x6 k e).trans (h6 k e))
      (fun s k => h1r_real X W1 B1 G1 Be1 hX hW1 hB1 hG1 hBe1 l b s k) (hW2 l),
    broadcastTo_1b_ab_apply, pay6_apply, h7]
  rfl

include hX hM hW1 hB1 hG1 hBe1 hW2 hB2 in

theorem payOf_apply (x0 : Vec Ideal S1x512x1024 .f32) (x1 : Vec Ideal S1x1x512 .f32) (x2 : Vec Ideal S1x1024x1024 .f32)
    (x3 x4 x5 : Vec Ideal S1x1x1024 .f32) (x6 : Vec Ideal S1x1024x1024 .f32) (x7 : Vec Ideal S1x1x1024 .f32)
    (h0 : ∀ s k, x0 (ix3 (0 : Fin 1) s k) = X b s k) (h1' : ∀ s, x1 (ix3 (0 : Fin 1) (0 : Fin 1) s) = M b s)
    (h2' : ∀ k e, x2 (ix3 (0 : Fin 1) k e) = W1 l k e) (h3 : ∀ e, x3 (ix3 (0 : Fin 1) (0 : Fin 1) e) = B1 l e)
    (h4 : ∀ e, x4 (ix3 (0 : Fin 1) (0 : Fin 1) e) = G1 l e) (h5 : ∀ e, x5 (ix3 (0 : Fin 1) (0 : Fin 1) e) = Be1 l e)
    (h6 : ∀ k e, x6 (ix3 (0 : Fin 1) k e) = W2 l k e) (h7 : ∀ e, x7 (ix3 (0 : Fin 1) (0 : Fin 1) e) = B2 l e) (e : Fin 1024) :
    payOf x0 x1 x2 x3 x4 x5 x6 x7 (ix2 (0 : Fin 1) e) = poolL X M W1 B1 G1 Be1 W2 B2 l b e := by
  rw [payOf_eq, shapeCast_shapeCast, divf_apply,
    tri1_real (k0_pay2 x1) (k0_pay8 (k0_pay3 x4) (k0_pay4 x5) (k0_pay5 x6) (k0_pay6 x7) (k0_pay7 x0 x2 x3))
      (fun s => M b s) (fun s e => h2 X W1 B1 G1 Be1 W2 B2 l b s e)
      (fun u s => (pay2_apply x1 u s).trans (h1' s))
      (fun s e => pay8_spec X W1 B1 G1 Be1 W2 B2 l b hX hW1 hB1 hG1 hBe1 hW2 x4 x5 x6 x7 (k0_pay7 x0 x2 x3) h4 h5 h6 h7
        (pay7_spec X W1 B1 l b hX hW1 x0 x2 x3 h0 h2' h3) s e)
      (hM b) (fun s e => h2_real X W1 B1 G1 Be1 W2 B2 hX hW1 hB1 hG1 hBe1 hW2 hB2 l b s e)]
  show Ideal.div _ (k0_pay9 (k0_pay2 x1)) = _
  rw [pay9_apply]
  unfold poolL msum
  simp only [h1']

end Spec

end Cert.KI

end
-- ==== Proof.KI.Blocks.lean ====
import proofs.«423535_j34024730919221_3_alg».proof.Proof.KI.Host
import Idealize.ShloMosaic.Lib.ValueIdx

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

local macro "pre_ops_list" : tactic =>
  `(tactic| simp only [preOps, hostOps0, hostOps0_1, hostOps0_2, hostOps0_3, hostOps0_4, hostOps0_5, List.flatten_cons, List.flatten_nil,
    List.append_nil, List.cons_append, List.nil_append])

theorem V_v22 (c : Dev nD) : V m c main_v22 = broadcastInDim S32x1x512 ![0, 2] bcast_S32x512_S32x1x512_0_2 (m ((c : Thread nD τ).loc main_arg1)) := by
  show StableHlo.after _ _ _ = _
  pre_ops_list
  after_results

theorem V_v23 (c : Dev nD) : V m c main_v23 = broadcastInDim S5x1x1024 ![0, 2] bcast_S5x1024_S5x1x1024_0_2 (m ((c : Thread nD τ).loc main_arg5)) := by
  show StableHlo.after _ _ _ = _
  pre_ops_list
  after_results

theorem V_v24 (c : Dev nD) : V m c main_v24 = broadcastInDim S5x1x1024 ![0, 2] bcast_S5x1024_S5x1x1024_0_2 (m ((c : Thread nD τ).loc main_arg6)) := by
  show StableHlo.after _ _ _ = _
  pre_ops_list
  after_results

theorem V_v25 (c : Dev nD) : V m c main_v25 = broadcastInDim S5x1x1024 ![0, 2] bcast_S5x1024_S5x1x1024_0_2 (m ((c : Thread nD τ).loc main_arg7)) := by
  show StableHlo.after _ _ _ = _
  pre_ops_list
  after_results

theorem V_v26 (c : Dev nD) : V m c main_v26 = broadcastInDim S5x1x1024 ![0, 2] bcast_S5x1024_S5x1x1024_0_2 (m ((c : Thread nD τ).loc main_arg9)) := by
  show StableHlo.after _ _ _ = _
  pre_ops_list
  after_results

theorem V_v22_apply (c : Dev nD) (b : Fin 32) (z : Fin 1) (s : Fin 512) :
    V m c main_v22 (ValueIdx.ix3 b z s) = m ((c : Thread nD τ).loc main_arg1) (ValueIdx.ix2 b s) := by
  rw [V_v22]
  exact broadcastInDim_apply _ _ _ _ (ValueIdx.ix2 b s) fun a => match a with | ⟨0, _⟩ => rfl | ⟨1, _⟩ => rfl

theorem bcast5_apply {α : Type} (x : S5x1024.Idx → α) (l : Fin 5) (z : Fin 1) (e : Fin 1024) :
    broadcastInDim S5x1x1024 ![0, 2] bcast_S5x1024_S5x1x1024_0_2 x (ValueIdx.ix3 l z e) = x (ValueIdx.ix2 l e) :=
  broadcastInDim_apply _ _ _ _ (ValueIdx.ix2 l e) fun a => match a with | ⟨0, _⟩ => rfl | ⟨1, _⟩ => rfl

theorem V_v23_apply (c : Dev nD) (l : Fin 5) (z : Fin 1) (e : Fin 1024) :
    V m c main_v23 (ValueIdx.ix3 l z e) = m ((c : Thread nD τ).loc main_arg5) (ValueIdx.ix2 l e) := by
  rw [V_v23]; exact bcast5_apply _ l z e
theorem V_v24_apply (c : Dev nD) (l : Fin 5) (z : Fin 1) (e : Fin 1024) :
    V m c main_v24 (ValueIdx.ix3 l z e) = m ((c : Thread nD τ).loc main_arg6) (ValueIdx.ix2 l e) := by
  rw [V_v24]; exact bcast5_apply _ l z e
theorem V_v25_apply (c : Dev nD) (l : Fin 5) (z : Fin 1) (e : Fin 1024) :
    V m c main_v25 (ValueIdx.ix3 l z e) = m ((c : Thread nD τ).loc main_arg7) (ValueIdx.ix2 l e) := by
  rw [V_v25]; exact bcast5_apply _ l z e
theorem V_v26_apply (c : Dev nD) (l : Fin 5) (z : Fin 1) (e : Fin 1024) :
    V m c main_v26 (ValueIdx.ix3 l z e) = m ((c : Thread nD τ).loc main_arg9) (ValueIdx.ix2 l e) := by
  rw [V_v26]; exact bcast5_apply _ l z e

def ptOf (i : grid0.Coords) : Fin 32 := ⟨8 * (i 0).val + (i 1).val, by
  have h0 : (i 0).val < 4 := (i 0).isLt
  have h1 : (i 1).val < 8 := (i 1).isLt
  omega⟩

theorem k0_off1_eq (i : grid0.Coords) : k0_off1 i = ![(ptOf i).val] := by
  unfold k0_off1 ptOf
  have h0 : (i 0).val < 4 := (i 0).isLt
  have h1 : (i 1).val < 8 := (i 1).isLt
  simp only [Scalar.muli, Scalar.addi, Scalar.indexCast, IntOp.muli, IntOp.addi]
  congr 1
  simp only [BitVec.toNat_add, BitVec.toNat_mul, BitVec.toNat_ofNat]
  omega

attribute [local irreducible] tbl

theorem word_at0 (i : grid0.Coords) (inb : ∀ a, (k0_off1 i) a + S1.size a ≤ S32.size a) (h1 : S1.numel = 1) :
    (tbl m).at 0 (Rect.unit (s := S32) (k0_off1 i) S1.size inb) h1 = tbl m 0 (ValueIdx.ix1 (ptOf i)) := by
  show tbl m 0 _ = tbl m 0 _
  refine congrArg (tbl m 0) (funext fun a => Fin.ext ?_)
  match a with
  | ⟨0, _⟩ =>
    show k0_off1 i 0 + 1 * (Shape.Idx.first (h1.symm ▸ Nat.one_pos) (0 : Fin 1)).val = (ptOf i).val
    have := (Shape.Idx.first (s := S1) (h1.symm ▸ Nat.one_pos) (0 : Fin 1)).isLt
    have e : S1.size (0 : Fin 1) = 1 := by decide
    rw [k0_off1_eq]
    simp only [Matrix.cons_val_zero]
    omega

theorem word_at1 (i : grid0.Coords) (inb : ∀ a, (k0_off1 i) a + S1.size a ≤ S32.size a) (h1 : S1.numel = 1) :
    (tbl m).at 1 (Rect.unit (s := S32) (k0_off1 i) S1.size inb) h1 = tbl m 1 (ValueIdx.ix1 (ptOf i)) := by
  show tbl m 1 _ = tbl m 1 _
  refine congrArg (tbl m 1) (funext fun a => Fin.ext ?_)
  match a with
  | ⟨0, _⟩ =>
    show k0_off1 i 0 + 1 * (Shape.Idx.first (h1.symm ▸ Nat.one_pos) (0 : Fin 1)).val = (ptOf i).val
    have := (Shape.Idx.first (s := S1) (h1.symm ▸ Nat.one_pos) (0 : Fin 1)).isLt
    have e : S1.size (0 : Fin 1) = 1 := by decide
    rw [k0_off1_eq]
    simp only [Matrix.cons_val_zero]
    omega

theorem transform0_eq (i : grid0.Coords) :
    cc0_transform_0 Facts₀.k0_off1_inb Facts₀.numel1_S1 (tbl m) i = ![(tbl m 0 (ValueIdx.ix1 (ptOf i))).toNat, 0, 0] := by
  have e : cc0_transform_0 Facts₀.k0_off1_inb Facts₀.numel1_S1 (tbl m) i
      = ![((tbl m).at 0 (Rect.unit (s := S32) (k0_off1 i) S1.size (Facts₀.k0_off1_inb i)) Facts₀.numel1_S1).toNat, 0, 0] := rfl
  rw [e, word_at0]

theorem transform1_eq (i : grid0.Coords) :
    cc0_transform_1 Facts₀.k0_off1_inb Facts₀.numel1_S1 (tbl m) i = ![(tbl m 0 (ValueIdx.ix1 (ptOf i))).toNat, 0, 0] := by
  have e : cc0_transform_1 Facts₀.k0_off1_inb Facts₀.numel1_S1 (tbl m) i
      = ![((tbl m).at 0 (Rect.unit (s := S32) (k0_off1 i) S1.size (Facts₀.k0_off1_inb i)) Facts₀.numel1_S1).toNat, 0, 0] := rfl
  rw [e, word_at0]

theorem transform2_eq (i : grid0.Coords) :
    cc0_transform_2 Facts₀.k0_off1_inb Facts₀.numel1_S1 (tbl m) i = ![(tbl m 1 (ValueIdx.ix1 (ptOf i))).toNat, 0, 0] := by
  have e : cc0_transform_2 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem transform3_eq (i : grid0.Coords) :
    cc0_transform_3 Facts₀.k0_off1_inb Facts₀.numel1_S1 (tbl m) i = ![(tbl m 1 (ValueIdx.ix1 (ptOf i))).toNat, 0, 0] := by
  have e : cc0_transform_3 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem transform4_eq (i : grid0.Coords) :
    cc0_transform_4 Facts₀.k0_off1_inb Facts₀.numel1_S1 (tbl m) i = ![(tbl m 1 (ValueIdx.ix1 (ptOf i))).toNat, 0, 0] := by
  have e : cc0_transform_4 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem transform5_eq (i : grid0.Coords) :
    cc0_transform_5 Facts₀.k0_off1_inb Facts₀.numel1_S1 (tbl m) i = ![(tbl m 1 (ValueIdx.ix1 (ptOf i))).toNat, 0, 0] := by
  have e : cc0_transform_5 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem transform6_eq (i : grid0.Coords) :
    cc0_transform_6 Facts₀.k0_off1_inb Facts₀.numel1_S1 (tbl m) i = ![(tbl m 1 (ValueIdx.ix1 (ptOf i))).toNat, 0, 0] := by
  have e : cc0_transform_6 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem transform7_eq (i : grid0.Coords) :
    cc0_transform_7 Facts₀.k0_off1_inb Facts₀.numel1_S1 (tbl m) i = ![(tbl m 1 (ValueIdx.ix1 (ptOf i))).toNat, 0, 0] := by
  have e : cc0_transform_7 Facts₀.k0_off1_inb Facts₀.numel1_S1 (tbl m) i
      = ![((tbl m).at 1 (Rect.unit (s := S32) (k0_off1 i) S1.size (Facts₀.k0_off1_inb i)) Facts₀.numel1_S1).toNat, 0, 0] := rfl
  rw [e, word_at1]

theorem iblk0_apply (hO : Ok m) (c : Dev nD) (t : Fin (cfgM m hO).N) (z : Fin 1) (s : Fin 512) (k : Fin 1024) :
    iblk m hO c 0 t (ValueIdx.ix3 z s k)
      = m ((c : Thread nD τ).loc main_arg0)
          (ValueIdx.ix3 ⟨(tbl m 0 (ValueIdx.ix1 (ptOf ((cfgM m hO).grid.coords t)))).toNat, tbl0_lt m _⟩ s k) := by
  rw [← V_of_not_written m c main_arg0 (by decide)]
  have key : iblk m hO c 0 t (ValueIdx.ix3 z s k)
      = V m c main_arg0 ((((cfgM m hO).win 0).blk t).view.emb (ValueIdx.ix3 z s k)) := rfl
  refine key.trans ?_
  refine congrArg (V m c main_arg0) (funext fun a => Fin.ext ?_)
  have e := transform0_eq m ((cfgM m hO).grid.coords t)
  have hz : z.val = 0 := by omega
  match a with
  | ⟨0, _⟩ =>
    show cc0_transform_0 Facts₀.k0_off1_inb Facts₀.numel1_S1 (tbl m) ((cfgM m hO).grid.coords t) (0 : Fin 3) * 1 + 1 * z.val = _
    rw [e, hz]; simp
  | ⟨1, _⟩ =>
    show cc0_transform_0 Facts₀.k0_off1_inb Facts₀.numel1_S1 (tbl m) ((cfgM m hO).grid.coords t) (1 : Fin 3) * 512 + 1 * s.val = s.val
    rw [e]; simp
  | ⟨2, _⟩ =>
    show cc0_transform_0 Facts₀.k0_off1_inb Facts₀.numel1_S1 (tbl m) ((cfgM m hO).grid.coords t) (2 : Fin 3) * 1024 + 1 * k.val = k.val
    rw [e]; simp

theorem iblk1_apply (hO : Ok m) (c : Dev nD) (t : Fin (cfgM m hO).N) (z : Fin 1) (y : Fin 1) (k : Fin 512) :
    iblk m hO c 1 t (ValueIdx.ix3 z y k)
      = m ((c : Thread nD τ).loc main_arg1)
          (ValueIdx.ix2 ⟨(tbl m 0 (ValueIdx.ix1 (ptOf ((cfgM m hO).grid.coords t)))).toNat, tbl0_lt m _⟩ k) := by
  rw [← V_v22_apply m c ⟨(tbl m 0 (ValueIdx.ix1 (ptOf ((cfgM m hO).grid.coords t)))).toNat, tbl0_lt m _⟩ y k]
  have key : iblk m hO c 1 t (ValueIdx.ix3 z y k)
      = V m c main_v22 ((((cfgM m hO).win 1).blk t).view.emb (ValueIdx.ix3 z y k)) := rfl
  refine key.trans ?_
  refine congrArg (V m c main_v22) (funext fun a => Fin.ext ?_)
  have e := transform1_eq m ((cfgM m hO).grid.coords t)
  have hz : z.val = 0 := by omega
  match a with
  | ⟨0, _⟩ =>
    show cc0_transform_1 Facts₀.k0_off1_inb Facts₀.numel1_S1 (tbl m) ((cfgM m hO).grid.coords t) (0 : Fin 3) * 1 + 1 * z.val = _
    rw [e, hz]; simp
  | ⟨1, _⟩ =>
    show cc0_transform_1 Facts₀.k0_off1_inb Facts₀.numel1_S1 (tbl m) ((cfgM m hO).grid.coords t) (1 : Fin 3) * 1 + 1 * y.val = y.val
    rw [e]; simp
  | ⟨2, _⟩ =>
    show cc0_transform_1 Facts₀.k0_off1_inb Facts₀.numel1_S1 (tbl m) ((cfgM m hO).grid.coords t) (2 : Fin 3) * 512 + 1 * k.val = k.val
    rw [e]; simp

theorem iblk2_apply (hO : Ok m) (c : Dev nD) (t : Fin (cfgM m hO).N) (z : Fin 1) (s : Fin 1024) (k : Fin 1024) :
    iblk m hO c 2 t (ValueIdx.ix3 z s k)
      = m ((c : Thread nD τ).loc main_arg4)
          (ValueIdx.ix3 ⟨(tbl m 1 (ValueIdx.ix1 (ptOf ((cfgM m hO).grid.coords t)))).toNat, tbl1_lt m _⟩ s k) := by
  rw [← V_of_not_written m c main_arg4 (by decide)]
  have key : iblk m hO c 2 t (ValueIdx.ix3 z s k)
      = V m c main_arg4 ((((cfgM m hO).win 2).blk t).view.emb (ValueIdx.ix3 z s k)) := rfl
  refine key.trans ?_
  refine congrArg (V m c main_arg4) (funext fun a => Fin.ext ?_)
  have e := transform2_eq m ((cfgM m hO).grid.coords t)
  have hz : z.val = 0 := by omega
  match a with
  | ⟨0, _⟩ =>
    show cc0_transform_2 Facts₀.k0_off1_inb Facts₀.numel1_S1 (tbl m) ((cfgM m hO).grid.coords t) (0 : Fin 3) * 1 + 1 * z.val = _
    rw [e, hz]; simp
  | ⟨1, _⟩ =>
    show cc0_transform_2 Facts₀.k0_off1_inb Facts₀.numel1_S1 (tbl m) ((cfgM m hO).grid.coords t) (1 : Fin 3) * 1024 + 1 * s.val = s.val
    rw [e]; simp
  | ⟨2, _⟩ =>
    show cc0_transform_2 Facts₀.k0_off1_inb Facts₀.numel1_S1 (tbl m) ((cfgM m hO).grid.coords t) (2 : Fin 3) * 1024 + 1 * k.val = k.val
    rw [e]; simp

theorem iblk3_apply (hO : Ok m) (c : Dev nD) (t : Fin (cfgM m hO).N) (z : Fin 1) (y : Fin 1) (k : Fin 1024) :
    iblk m hO c 3 t (ValueIdx.ix3 z y k)
      = m ((c : Thread nD τ).loc main_arg5)
          (ValueIdx.ix2 ⟨(tbl m 1 (ValueIdx.ix1 (ptOf ((cfgM m hO).grid.coords t)))).toNat, tbl1_lt m _⟩ k) := by
  rw [← V_v23_apply m c ⟨(tbl m 1 (ValueIdx.ix1 (ptOf ((cfgM m hO).grid.coords t)))).toNat, tbl1_lt m _⟩ y k]
  have key : iblk m hO c 3 t (ValueIdx.ix3 z y k)
      = V m c main_v23 ((((cfgM m hO).win 3).blk t).view.emb (ValueIdx.ix3 z y k)) := rfl
  refine key.trans ?_
  refine congrArg (V m c main_v23) (funext fun a => Fin.ext ?_)
  have e := transform3_eq m ((cfgM m hO).grid.coords t)
  have hz : z.val = 0 := by omega
  match a with
  | ⟨0, _⟩ =>
    show cc0_transform_3 Facts₀.k0_off1_inb Facts₀.numel1_S1 (tbl m) ((cfgM m hO).grid.coords t) (0 : Fin 3) * 1 + 1 * z.val = _
    rw [e, hz]; simp
  | ⟨1, _⟩ =>
    show cc0_transform_3 Facts₀.k0_off1_inb Facts₀.numel1_S1 (tbl m) ((cfgM m hO).grid.coords t) (1 : Fin 3) * 1 + 1 * y.val = y.val
    rw [e]; simp
  | ⟨2, _⟩ =>
    show cc0_transform_3 Facts₀.k0_off1_inb Facts₀.numel1_S1 (tbl m) ((cfgM m hO).grid.coords t) (2 : Fin 3) * 1024 + 1 * k.val = k.val
    rw [e]; simp

theorem iblk4_apply (hO : Ok m) (c : Dev nD) (t : Fin (cfgM m hO).N) (z : Fin 1) (y : Fin 1) (k : Fin 1024) :
    iblk m hO c 4 t (ValueIdx.ix3 z y k)
      = m ((c : Thread nD τ).loc main_arg6)
          (ValueIdx.ix2 ⟨(tbl m 1 (ValueIdx.ix1 (ptOf ((cfgM m hO).grid.coords t)))).toNat, tbl1_lt m _⟩ k) := by
  rw [← V_v24_apply m c ⟨(tbl m 1 (ValueIdx.ix1 (ptOf ((cfgM m hO).grid.coords t)))).toNat, tbl1_lt m _⟩ y k]
  have key : iblk m hO c 4 t (ValueIdx.ix3 z y k)
      = V m c main_v24 ((((cfgM m hO).win 4).blk t).view.emb (ValueIdx.ix3 z y k)) := rfl
  refine key.trans ?_
  refine congrArg (V m c main_v24) (funext fun a => Fin.ext ?_)
  have e := transform4_eq m ((cfgM m hO).grid.coords t)
  have hz : z.val = 0 := by omega
  match a with
  | ⟨0, _⟩ =>
    show cc0_transform_4 Facts₀.k0_off1_inb Facts₀.numel1_S1 (tbl m) ((cfgM m hO).grid.coords t) (0 : Fin 3) * 1 + 1 * z.val = _
    rw [e, hz]; simp
  | ⟨1, _⟩ =>
    show cc0_transform_4 Facts₀.k0_off1_inb Facts₀.numel1_S1 (tbl m) ((cfgM m hO).grid.coords t) (1 : Fin 3) * 1 + 1 * y.val = y.val
    rw [e]; simp
  | ⟨2, _⟩ =>
    show cc0_transform_4 Facts₀.k0_off1_inb Facts₀.numel1_S1 (tbl m) ((cfgM m hO).grid.coords t) (2 : Fin 3) * 1024 + 1 * k.val = k.val
    rw [e]; simp

theorem iblk5_apply (hO : Ok m) (c : Dev nD) (t : Fin (cfgM m hO).N) (z : Fin 1) (y : Fin 1) (k : Fin 1024) :
    iblk m hO c 5 t (ValueIdx.ix3 z y k)
      = m ((c : Thread nD τ).loc main_arg7)
          (ValueIdx.ix2 ⟨(tbl m 1 (ValueIdx.ix1 (ptOf ((cfgM m hO).grid.coords t)))).toNat, tbl1_lt m _⟩ k) := by
  rw [← V_v25_apply m c ⟨(tbl m 1 (ValueIdx.ix1 (ptOf ((cfgM m hO).grid.coords t)))).toNat, tbl1_lt m _⟩ y k]
  have key : iblk m hO c 5 t (ValueIdx.ix3 z y k)
      = V m c main_v25 ((((cfgM m hO).win 5).blk t).view.emb (ValueIdx.ix3 z y k)) := rfl
  refine key.trans ?_
  refine congrArg (V m c main_v25) (funext fun a => Fin.ext ?_)
  have e := transform5_eq m ((cfgM m hO).grid.coords t)
  have hz : z.val = 0 := by omega
  match a with
  | ⟨0, _⟩ =>
    show cc0_transform_5 Facts₀.k0_off1_inb Facts₀.numel1_S1 (tbl m) ((cfgM m hO).grid.coords t) (0 : Fin 3) * 1 + 1 * z.val = _
    rw [e, hz]; simp
  | ⟨1, _⟩ =>
    show cc0_transform_5 Facts₀.k0_off1_inb Facts₀.numel1_S1 (tbl m) ((cfgM m hO).grid.coords t) (1 : Fin 3) * 1 + 1 * y.val = y.val
    rw [e]; simp
  | ⟨2, _⟩ =>
    show cc0_transform_5 Facts₀.k0_off1_inb Facts₀.numel1_S1 (tbl m) ((cfgM m hO).grid.coords t) (2 : Fin 3) * 1024 + 1 * k.val = k.val
    rw [e]; simp

theorem iblk6_apply (hO : Ok m) (c : Dev nD) (t : Fin (cfgM m hO).N) (z : Fin 1) (s : Fin 1024) (k : Fin 1024) :
    iblk m hO c 6 t (ValueIdx.ix3 z s k)
      = m ((c : Thread nD τ).loc main_arg8)
          (ValueIdx.ix3 ⟨(tbl m 1 (ValueIdx.ix1 (ptOf ((cfgM m hO).grid.coords t)))).toNat, tbl1_lt m _⟩ s k) := by
  rw [← V_of_not_written m c main_arg8 (by decide)]
  have key : iblk m hO c 6 t (ValueIdx.ix3 z s k)
      = V m c main_arg8 ((((cfgM m hO).win 6).blk t).view.emb (ValueIdx.ix3 z s k)) := rfl
  refine key.trans ?_
  refine congrArg (V m c main_arg8) (funext fun a => Fin.ext ?_)
  have e := transform6_eq m ((cfgM m hO).grid.coords t)
  have hz : z.val = 0 := by omega
  match a with
  | ⟨0, _⟩ =>
    show cc0_transform_6 Facts₀.k0_off1_inb Facts₀.numel1_S1 (tbl m) ((cfgM m hO).grid.coords t) (0 : Fin 3) * 1 + 1 * z.val = _
    rw [e, hz]; simp
  | ⟨1, _⟩ =>
    show cc0_transform_6 Facts₀.k0_off1_inb Facts₀.numel1_S1 (tbl m) ((cfgM m hO).grid.coords t) (1 : Fin 3) * 1024 + 1 * s.val = s.val
    rw [e]; simp
  | ⟨2, _⟩ =>
    show cc0_transform_6 Facts₀.k0_off1_inb Facts₀.numel1_S1 (tbl m) ((cfgM m hO).grid.coords t) (2 : Fin 3) * 1024 + 1 * k.val = k.val
    rw [e]; simp

theorem iblk7_apply (hO : Ok m) (c : Dev nD) (t : Fin (cfgM m hO).N) (z : Fin 1) (y : Fin 1) (k : Fin 1024) :
    iblk m hO c 7 t (ValueIdx.ix3 z y k)
      = m ((c : Thread nD τ).loc main_arg9)
          (ValueIdx.ix2 ⟨(tbl m 1 (ValueIdx.ix1 (ptOf ((cfgM m hO).grid.coords t)))).toNat, tbl1_lt m _⟩ k) := by
  rw [← V_v26_apply m c ⟨(tbl m 1 (ValueIdx.ix1 (ptOf ((cfgM m hO).grid.coords t)))).toNat, tbl1_lt m _⟩ y k]
  have key : iblk m hO c 7 t (ValueIdx.ix3 z y k)
      = V m c main_v26 ((((cfgM m hO).win 7).blk t).view.emb (ValueIdx.ix3 z y k)) := rfl
  refine key.trans ?_
  refine congrArg (V m c main_v26) (funext fun a => Fin.ext ?_)
  have e := transform7_eq m ((cfgM m hO).grid.coords t)
  have hz : z.val = 0 := by omega
  match a with
  | ⟨0, _⟩ =>
    show cc0_transform_7 Facts₀.k0_off1_inb Facts₀.numel1_S1 (tbl m) ((cfgM m hO).grid.coords t) (0 : Fin 3) * 1 + 1 * z.val = _
    rw [e, hz]; simp
  | ⟨1, _⟩ =>
    show cc0_transform_7 Facts₀.k0_off1_inb Facts₀.numel1_S1 (tbl m) ((cfgM m hO).grid.coords t) (1 : Fin 3) * 1 + 1 * y.val = y.val
    rw [e]; simp
  | ⟨2, _⟩ =>
    show cc0_transform_7 Facts₀.k0_off1_inb Facts₀.numel1_S1 (tbl m) ((cfgM m hO).grid.coords t) (2 : Fin 3) * 1024 + 1 * k.val = k.val
    rw [e]; simp

theorem ptOf_coords (hO : Ok m) (t : Fin (cfgM m hO).N) : (ptOf ((cfgM m hO).grid.coords t)).val = t.val := by
  have hN : t.val < 32 := lt_of_lt_of_eq t.isLt N_0
  show 8 * (t.val / grid0.stride 0 % 4) + (t.val / grid0.stride 1 % 8) = t.val
  rw [show grid0.stride 0 = 8 by decide, show grid0.stride 1 = 1 by decide]
  omega

end Cert.KI

end
-- ==== Proof.KI.Pooled.lean ====
import proofs.«423535_j34024730919221_3_alg».proof.Proof.KI.Glue
import proofs.«423535_j34024730919221_3_alg».proof.Proof.KI.Pay
import proofs.«423535_j34024730919221_3_alg».proof.Proof.KI.Blocks

set_option maxRecDepth 16384

noncomputable section

namespace Cert.KI

namespace Glue

open Cert.KernelIdeal Cert.KernelIdeal.Gen
open Idealize.ShloMosaic Idealize.ShloMosaic.TcCoe
open Idealize.ShloMosaic.ValueIdx
open Idealize.SL.Sem

section Pooled

open Cert.Pool

variable (m : (ℓ : Loc nD τ sig) → Buf (Elt Ideal) ℓ)

theorem pooled_kpool_of_blocks (hO : Ok m) (c : Dev nD)
    (hblk : ∀ t : Fin 32, BlocksAt m hO c ⟨t.val, lt_of_lt_of_eq t.isLt (show 32 = (cfgM m hO).N from N_0.symm)⟩
      (sampleAt (idsOf m c) t) (langAt (idsOf m c) t))
    (hX : ∀ b s k, IsR (arrX m c b s k)) (hM : ∀ b s, IsR (arrM m c b s))
    (hW1 : ∀ l k e, IsR (arrW1 m c l k e)) (hB1 : ∀ l e, IsR (arrB1 m c l e)) (hG1 : ∀ l e, IsR (arrG1 m c l e))
    (hBe1 : ∀ l e, IsR (arrBe1 m c l e)) (hW2 : ∀ l k e, IsR (arrW2 m c l k e)) (hB2 : ∀ l e, IsR (arrB2 m c l e))
    (b : Fin 32) (e : Fin 1024) :
    X1 m hO c (Proc.devRef .tc main_v38) (ix2 b e)
      = kpool (arrX m c) (arrM m c) (arrIds m c) (arrW1 m c) (arrB1 m c) (arrG1 m c) (arrBe1 m c) (arrW2 m c)
          (arrB2 m c) b e :=
  pooled_bridge m hO c hblk
    (fun x0 x1 x2 x3 x4 x5 x6 x7 l b h0 h1 h2 h3 h4 h5 h6 h7 e =>
      payOf_apply (arrX m c) (arrM m c) (arrW1 m c) (arrB1 m c) (arrG1 m c) (arrBe1 m c) (arrW2 m c) (arrB2 m c) l b
        hX hM hW1 hB1 hG1 hBe1 hW2 hB2 x0 x1 x2 x3 x4 x5 x6 x7 h0 h1 h2 h3 h4 h5 h6 h7 e)
    b e

end Pooled

section Blocks

variable (m : (ℓ : Loc nD τ sig) → Buf (Elt Ideal) ℓ)

theorem fin_eq_of_toNat {n : Nat} (T : S32.Idx → BitVec 32) (p t : Fin 32) (hp : p = t) (r : Fin n)
    (hr : (T (ix1 t)).toNat = r.val) (hlt : (T (ix1 p)).toNat < n) : (⟨(T (ix1 p)).toNat, hlt⟩ : Fin n) = r := by
  subst hp; exact Fin.ext hr

theorem core_eq_zero (c : Dev nD) : c = 0 := Subsingleton.elim _ _

theorem blocksAt_of_apply (hO : Ok m) (c : Dev nD) (pt : grid0.Coords → Fin 32)
    (hpt : ∀ t : Fin (cfgM m hO).N, (pt ((cfgM m hO).grid.coords t)).val = t.val)
    (h0 : ∀ (t : Fin (cfgM m hO).N) (z : Fin 1) (s : Fin 512) (k : Fin 1024),
      (iblk m hO c 0 t : Vec Ideal S1x512x1024 .f32) (ix3 z s k)
        = (m ((c : Thread nD τ).loc main_arg0) : FVec Ideal S32x512x1024 .f32)
            (ix3 ⟨(tbl m 0 (ix1 (pt ((cfgM m hO).grid.coords t)))).toNat, tbl0_lt m _⟩ s k))
    (h1 : ∀ (t : Fin (cfgM m hO).N) (z y : Fin 1) (k : Fin 512),
      (iblk m hO c 1 t : Vec Ideal S1x1x512 .f32) (ix3 z y k)
        = (m ((c : Thread nD τ).loc main_arg1) : FVec Ideal S32x512 .f32)
            (ix2 ⟨(tbl m 0 (ix1 (pt ((cfgM m hO).grid.coords t)))).toNat, tbl0_lt m _⟩ k))
    (h2 : ∀ (t : Fin (cfgM m hO).N) (z : Fin 1) (s k : Fin 1024),
      (iblk m hO c 2 t : Vec Ideal S1x1024x1024 .f32) (ix3 z s k)
        = (m ((c : Thread nD τ).loc main_arg4) : FVec Ideal S5x1024x1024 .f32)
            (ix3 ⟨(tbl m 1 (ix1 (pt ((cfgM m hO).grid.coords t)))).toNat, tbl1_lt m _⟩ s k))
    (h3 : ∀ (t : Fin (cfgM m hO).N) (z y : Fin 1) (k : Fin 1024),
      (iblk m hO c 3 t : Vec Ideal S1x1x1024 .f32) (ix3 z y k)
        = (m ((c : Thread nD τ).loc main_arg5) : FVec Ideal S5x1024 .f32)
            (ix2 ⟨(tbl m 1 (ix1 (pt ((cfgM m hO).grid.coords t)))).toNat, tbl1_lt m _⟩ k))
    (h4 : ∀ (t : Fin (cfgM m hO).N) (z y : Fin 1) (k : Fin 1024),
      (iblk m hO c 4 t : Vec Ideal S1x1x1024 .f32) (ix3 z y k)
        = (m ((c : Thread nD τ).loc main_arg6) : FVec Ideal S5x1024 .f32)
            (ix2 ⟨(tbl m 1 (ix1 (pt ((cfgM m hO).grid.coords t)))).toNat, tbl1_lt m _⟩ k))
    (h5 : ∀ (t : Fin (cfgM m hO).N) (z y : Fin 1) (k : Fin 1024),
      (iblk m hO c 5 t : Vec Ideal S1x1x1024 .f32) (ix3 z y k)
        = (m ((c : Thread nD τ).loc main_arg7) : FVec Ideal S5x1024 .f32)
            (ix2 ⟨(tbl m 1 (ix1 (pt ((cfgM m hO).grid.coords t)))).toNat, tbl1_lt m _⟩ k))
    (h6 : ∀ (t : Fin (cfgM m hO).N) (z : Fin 1) (s k : Fin 1024),
      (iblk m hO c 6 t : Vec Ideal S1x1024x1024 .f32) (ix3 z s k)
        = (m ((c : Thread nD τ).loc main_arg8) : FVec Ideal S5x1024x1024 .f32)
            (ix3 ⟨(tbl m 1 (ix1 (pt ((cfgM m hO).grid.coords t)))).toNat, tbl1_lt m _⟩ s k))
    (h7 : ∀ (t : Fin (cfgM m hO).N) (z y : Fin 1) (k : Fin 1024),
      (iblk m hO c 7 t : Vec Ideal S1x1x1024 .f32) (ix3 z y k)
        = (m ((c : Thread nD τ).loc main_arg9) : FVec Ideal S5x1024 .f32)
            (ix2 ⟨(tbl m 1 (ix1 (pt ((cfgM m hO).grid.coords t)))).toNat, tbl1_lt m _⟩ k))
    (t : Fin 32) :
    BlocksAt m hO c ⟨t.val, lt_of_lt_of_eq t.isLt (show 32 = (cfgM m hO).N from N_0.symm)⟩
      (sampleAt (idsOf m (0 : Dev nD)) t) (langAt (idsOf m (0 : Dev nD)) t) := by
  have hp : pt ((cfgM m hO).grid.coords ⟨t.val, lt_of_lt_of_eq t.isLt (show 32 = (cfgM m hO).N from N_0.symm)⟩) = t :=
    Fin.ext (hpt _)
  have hs := fun hlt => fin_eq_of_toNat (n := 32) (tbl m 0) _ t hp (sampleAt (idsOf m (0 : Dev nD)) t) (tbl0_toNat m t) hlt
  have hl := fun hlt => fin_eq_of_toNat (n := 5) (tbl m 1) _ t hp (langAt (idsOf m (0 : Dev nD)) t) (tbl1_toNat m t) hlt
  exact
    { x0 := fun s k => (h0 _ 0 s k).trans
        (congrArg (fun i : Fin 32 => (m ((c : Thread nD τ).loc main_arg0) : FVec Ideal S32x512x1024 .f32) (ix3 i s k)) (hs _))
      x1 := fun s => (h1 _ 0 0 s).trans
        (congrArg (fun i : Fin 32 => (m ((c : Thread nD τ).loc main_arg1) : FVec Ideal S32x512 .f32) (ix2 i s)) (hs _))
      x2 := fun k e => (h2 _ 0 k e).trans
        (congrArg (fun i : Fin 5 => (m ((c : Thread nD τ).loc main_arg4) : FVec Ideal S5x1024x1024 .f32) (ix3 i k e)) (hl _))
      x3 := fun e => (h3 _ 0 0 e).trans
        (congrArg (fun i : Fin 5 => (m ((c : Thread nD τ).loc main_arg5) : FVec Ideal S5x1024 .f32) (ix2 i e)) (hl _))
      x4 := fun e => (h4 _ 0 0 e).trans
        (congrArg (fun i : Fin 5 => (m ((c : Thread nD τ).loc main_arg6) : FVec Ideal S5x1024 .f32) (ix2 i e)) (hl _))
      x5 := fun e => (h5 _ 0 0 e).trans
        (congrArg (fun i : Fin 5 => (m ((c : Thread nD τ).loc main_arg7) : FVec Ideal S5x1024 .f32) (ix2 i e)) (hl _))
      x6 := fun k e => (h6 _ 0 k e).trans
        (congrArg (fun i : Fin 5 => (m ((c : Thread nD τ).loc main_arg8) : FVec Ideal S5x1024x1024 .f32) (ix3 i k e)) (hl _))
      x7 := fun e => (h7 _ 0 0 e).trans
        (congrArg (fun i : Fin 5 => (m ((c : Thread nD τ).loc main_arg9) : FVec Ideal S5x1024 .f32) (ix2 i e)) (hl _)) }

end Blocks

section Final

open Cert.Pool

variable (m : (ℓ : Loc nD τ sig) → Buf (Elt Ideal) ℓ)

theorem blocksAt_all (hO : Ok m) (t : Fin 32) :
    BlocksAt m hO (0 : Dev nD) ⟨t.val, lt_of_lt_of_eq t.isLt (show 32 = (cfgM m hO).N from N_0.symm)⟩
      (sampleAt (idsOf m (0 : Dev nD)) t) (langAt (idsOf m (0 : Dev nD)) t) :=
  blocksAt_of_apply m hO (0 : Dev nD) ptOf (ptOf_coords m hO)
    (iblk0_apply m hO 0) (iblk1_apply m hO 0) (iblk2_apply m hO 0) (iblk3_apply m hO 0)
    (iblk4_apply m hO 0) (iblk5_apply m hO 0) (iblk6_apply m hO 0) (iblk7_apply m hO 0) t

theorem pooled_kpool (hO : Ok m) (c : Dev nD)
    (hX : ∀ b s k, IsR (arrX m c b s k)) (hM : ∀ b s, IsR (arrM m c b s))
    (hW1 : ∀ l k e, IsR (arrW1 m c l k e)) (hB1 : ∀ l e, IsR (arrB1 m c l e)) (hG1 : ∀ l e, IsR (arrG1 m c l e))
    (hBe1 : ∀ l e, IsR (arrBe1 m c l e)) (hW2 : ∀ l k e, IsR (arrW2 m c l k e)) (hB2 : ∀ l e, IsR (arrB2 m c l e))
    (b : Fin 32) (e : Fin 1024) :
    X1 m hO c (Proc.devRef .tc main_v38) (ix2 b e)
      = kpool (arrX m c) (arrM m c) (arrIds m c) (arrW1 m c) (arrB1 m c) (arrG1 m c) (arrBe1 m c) (arrW2 m c)
          (arrB2 m c) b e := by
  obtain rfl : c = 0 := core_eq_zero c
  exact pooled_kpool_of_blocks m hO 0 (blocksAt_all m hO) hX hM hW1 hB1 hG1 hBe1 hW2 hB2 b e

end Final

end Glue

end Cert.KI

end
-- ==== Proof.KI.Mem.lean ====
import proofs.«423535_j34024730919221_3_alg».proof.Proof.KI.Vals
import Idealize.ShloMosaic.Lib.Pipeline.FrameSuffix

set_option maxRecDepth 16384

noncomputable section

namespace Cert.KI

open Cert.KernelIdeal
open Idealize.ShloMosaic Idealize.SL.Sem

theorem mem_S'_of_arr (w : Fin 9) : Proc.devRef .tc (Pipeline.arrRef spec0 w) ∈ (S' : Finset (DevRef τ sig)) := by
  unfold S' Pipeline.tailRefs
  rw [Finset.mem_map]
  exact ⟨Pipeline.arrRef spec0 w, Finset.mem_union_left _ (Finset.mem_image_of_mem _ (Finset.mem_univ w)), rfl⟩

theorem mem_S'_of_rest (b : Ref sig .tc) (hs : b.isScoped = false) (ha : ∀ w, (spec0 w).arr.view.ref ≠ b)
    (hp : ∀ k, pre0.ref k ≠ b) : Proc.devRef .tc b ∈ (S' : Finset (DevRef τ sig)) := by
  unfold S' Pipeline.tailRefs
  rw [Finset.mem_map]
  refine ⟨b, Finset.mem_union_right _ ?_, rfl⟩
  rw [Finset.mem_sdiff]
  refine ⟨Pipeline.mem_restRefs_of b hs ha, ?_⟩
  rw [Finset.mem_image]
  rintro ⟨k, -, hk⟩
  exact hp k hk

theorem mem_S'_v68 : Proc.devRef .tc main_v68 ∈ (S' : Finset (DevRef τ sig)) := mem_S'_of_rest main_v68 rfl (by decide) (by decide)

end Cert.KI

end
-- ==== Proof.KI.Tail.lean ====
import proofs.«423535_j34024730919221_3_alg».proof.Proof.KI.Mem
import proofs.«423535_j34024730919221_3_alg».proof.Proof.KI.Host
import Idealize.ShloMosaic.Lib.StableHlo.Run

set_option maxRecDepth 16384

noncomputable section

namespace Cert.KI

open Cert.KernelIdeal Cert.KernelIdeal.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

noncomputable def written1 : List (Ref sig .tc) :=
  [main_v28, main_v29, main_v30, main_v31, main_c_7, main_v32, main_v33, main_c_8, main_v34, main_v35, main_v36, main_v37, main_v38,
   main_v39, main_v40, main_v41, main_v42, main_v43, main_cst, main_v44, main_v45, main_cst_9, main_v46, main_v47, main_v48, main_v49,
   main_v50, main_cst_10, main_v51, main_v52, main_cst_11, main_v53, main_v54, main_v55, main_v56, main_cst_12, main_v57, main_v58,
   main_v59, main_v60, main_v61, main_v62, main_v63, main_v64, main_v65, main_v66, main_v67]

noncomputable def written2 : List (Ref sig .tc) := [main_call3_cst, main_call3_v0, main_v68]

theorem writes_sub1 : (hostOps1 (F := F)).Forall fun op => op.writes ⊆ (written1.map (Proc.devRef (τ := τ) .tc)).toFinset := by
  simp only [hostOps1, List.Forall]; and_intros <;>
  exact Finset.singleton_subset_iff.mpr (List.mem_toFinset.mpr (List.mem_map_of_mem (by decide)))

theorem writes_sub2 : (hostOps1_1 (F := F)).Forall fun op => op.writes ⊆ (written2.map (Proc.devRef (τ := τ) .tc)).toFinset := by
  simp only [hostOps1_1, List.Forall]; and_intros <;>
  exact Finset.singleton_subset_iff.mpr (List.mem_toFinset.mpr (List.mem_map_of_mem (by decide)))

theorem X2_of_not_written (hO : Ok m) (c : Dev nD) (b : Ref sig .tc) (h1 : b ∉ written1) (h2 : b ∉ written2) :
    X2 m hO c (Proc.devRef .tc b) = Wx m hO c (Proc.devRef .tc b) :=
  (StableHlo.after_of_writes_sub (hostOps1_1 (F := F)) (X1 m hO c) writes_sub2 h2).trans
    (StableHlo.after_of_writes_sub (hostOps1 (F := F)) (Wx m hO c) writes_sub1 h1)

theorem Wx_bypass (hO : Ok m) (c : Dev nD) (b : Ref sig .tc) (hw : ∀ w, Pipeline.arrRef spec0 w ≠ b) (h0 : b ∉ written) :
    Wx m hO c (Proc.devRef .tc b) = m ((c : Thread nD τ).loc b) :=
  (Pipeline.withArrays_of_ne spec0 c (V0 m c) (Afin m hO c) b hw).trans (V_of_not_written m c b h0)

theorem Wx_arr (hO : Ok m) (c : Dev nD) (w : Fin 9) :
    Wx m hO c (Proc.devRef .tc (Pipeline.arrRef spec0 w)) = Afin m hO c w :=
  Pipeline.withArrays_arr spec0 winFacts0.arr_inj c (V0 m c) (Afin m hO c) w

noncomputable def argRefs : List (Ref sig .tc) :=
  [main_arg0, main_arg1, main_arg2, main_arg3, main_arg4, main_arg5, main_arg6, main_arg7, main_arg8, main_arg9, main_arg10, main_arg11,
   main_arg12, main_arg13]

-- an input window's array is handed back by the region as the host operations before it left it
theorem arr_kept (hO : Ok m) (c : Dev nD) (w : Fin 9) (hA : Afin m hO c w = V m c (Pipeline.arrRef spec0 w))
    (h1 : Pipeline.arrRef spec0 w ∉ written1) (h2 : Pipeline.arrRef spec0 w ∉ written2) (h0 : Pipeline.arrRef spec0 w ∉ written) :
    Proc.devRef .tc (Pipeline.arrRef spec0 w) ∈ (S' : Finset (DevRef τ sig))
      ∧ X2 m hO c (Proc.devRef .tc (Pipeline.arrRef spec0 w)) = m (c, Proc.devRef .tc (Pipeline.arrRef spec0 w)) :=
  ⟨mem_S'_of_arr w, (X2_of_not_written m hO c _ h1 h2).trans ((Wx_arr m hO c w).trans (hA.trans (V_of_not_written m c _ h0)))⟩

-- every argument is among the buffers the run accounts for and ends at its launch contents: three are input windows' arrays,
-- the others bypass the region; no host operation writes any of them
theorem arg_kept (hO : Ok m) (c : Dev nD) (b : Ref sig .tc) (hb : b ∈ argRefs) :
    Proc.devRef .tc b ∈ (S' : Finset (DevRef τ sig)) ∧ X2 m hO c (Proc.devRef .tc b) = m (c, Proc.devRef .tc b) := by
  simp only [argRefs, List.mem_cons, List.not_mem_nil, or_false] at hb
  rcases hb with rfl | rfl | rfl | rfl | rfl | rfl | rfl | rfl | rfl | rfl | rfl | rfl | rfl | rfl
  all_goals first
    | exact ⟨mem_S'_of_rest _ rfl (by decide) (by decide), (X2_of_not_written m hO c _ (by decide) (by decide)).trans (Wx_bypass m hO c _ (by decide) (by decide))⟩
    | exact arr_kept m hO c 0 rfl (by decide) (by decide) (by decide)
    | exact arr_kept m hO c 2 rfl (by decide) (by decide) (by decide)
    | exact arr_kept m hO c 6 rfl (by decide) (by decide) (by decide)

theorem kept (hO : Ok m) (c : Dev nD) {mem : (ℓ : Loc nD τ sig) → Buf (Elt F) ℓ}
    (h : ∀ b ∈ (S' : Finset (DevRef τ sig)), mem (c, b) = X2 m hO c b) (b : Ref sig .tc) (hb : b ∈ argRefs) :
    mem (c, Proc.devRef .tc b) = m (c, Proc.devRef .tc b) :=
  (h _ (arg_kept m hO c b hb).1).trans (arg_kept m hO c b hb).2

end Cert.KI

end
-- ==== Proof.KB.Base.lean ====
import proofs.«423535_j34024730919221_3_alg».proof.Proof.Gen.Kernel
import proofs.«423535_j34024730919221_3_alg».proof.Proof.Gen.Kernel.Skeleton
import proofs.«423535_j34024730919221_3_alg».proof.Proof.Gen.Kernel.Launch
import Idealize.ShloMosaic.Lib.Pipeline.Regions

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev preOps : List (HloOp τ sig (Elt F)) := List.flatten [hostOps0, hostOps0_1, hostOps0_2, hostOps0_3, hostOps0_4, hostOps0_5]

noncomputable abbrev Vl (c : Dev nD) : Valuation τ sig (Elt F) := fun b => m (c, b)

noncomputable abbrev V0 (c : Dev nD) : Valuation τ sig (Elt F) := StableHlo.after (preOps (F := F)) (Vl m c)

noncomputable abbrev V (c : Dev nD) (b : Ref sig .tc) : Buf (Elt F) ((c : Thread nD τ).loc b) := V0 m c (Proc.devRef .tc b)

noncomputable def tbl : pre0.Contents (Elt F) := fun j => V m (0 : Dev nD) (pre0.ref j)

noncomputable abbrev Ok : Prop := ok0 (F := F) (tbl m)

noncomputable abbrev adm (hO : Ok m) : (pcfg0 (F := F)).Adm := ⟨tbl m, hO⟩
noncomputable abbrev admP (hO : Ok m) : (p : Fin 1) → (pcfgs (F := F) p).Adm := fun _ => adm m hO
noncomputable abbrev cfgM (hO : Ok m) : Pipeline.Cfg sig Λ₀ := cfg0 (adm m hO)

noncomputable def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end Cert.KB

end
-- ==== Proof.KB.Data.lean ====
import proofs.«423535_j34024730919221_3_alg».proof.Proof.KB.Base
import Idealize.ShloMosaic.Lib.ValueIdx

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

noncomputable def payOf (x0 : Vec F S1x512x1024 .f32) (x1 : Vec F S1x1x512 .f32) (x2 : Vec F S1x1024x1024 .f32) (x3 : Vec F S1x1x1024 .f32)
    (x4 : Vec F S1x1x1024 .f32) (x5 : Vec F S1x1x1024 .f32) (x6 : Vec F S1x1024x1024 .f32) (x7 : Vec F S1x1x1024 .f32) : FVec F S1x1024 .f32 :=
  k0_pay1 (k0_pay9 (k0_pay2 x1)) (k0_pay10 (k0_pay2 x1)) (k0_pay11 (k0_pay2 x1))
    (k0_pay12 (k0_pay3 x4) (k0_pay4 x5) (k0_pay5 x6) (k0_pay6 x7) (k0_pay7 x0 x2 x3))
    (k0_pay13 (k0_pay3 x4) (k0_pay4 x5) (k0_pay5 x6) (k0_pay6 x7) (k0_pay7 x0 x2 x3))

noncomputable def rowRel (i : grid0.Coords) (p : FVec F S1x1024 .f32) (Y X : S8x1024.Idx → F .f32) : Prop :=
  ∀ idx : S8x1024.Idx, X idx = if (idx 0).val = (i 1).val then p (ValueIdx.ix2 (0 : Fin 1) (idx 1)) else Y idx

variable (m : (ℓ : Loc nD τ sig) → Buf (Elt F) ℓ) (ρ : Dev nD → PrngReg)

noncomputable def payAt (hO : Ok m) (c : Dev nD) (t : Fin (cfgM m hO).N) : FVec F S1x1024 .f32 :=
  payOf (iblk m hO c 0 t) (iblk m hO c 1 t) (iblk m hO c 2 t) (iblk m hO c 3 t) (iblk m hO c 4 t) (iblk m hO c 5 t) (iblk m hO c 6 t) (iblk m hO c 7 t)

noncomputable def Φc (c : Dev nD) : sProp 𝕄 :=
  iprop(Pipeline.prefHeld pre0 c (fun _ => fullShare) (tbl m)
    ∗ Pipeline.scopedRest (Ix := Unit) (Name := ℕ) (U := UR sig nD τ) (Lvl := ℕ) (Val := Elt F) spec0 c)

noncomputable def rd (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => rowRel ((cfgM m hO).grid.coords t) (payAt m hO c t) Y X
    | ⟨_ + 9, h⟩ => absurd h (Nat.not_lt.2 (Nat.le_add_left _ _))
  Φ _ := Φc m c
  q _ := fullShare
  owed _ := 0

noncomputable def Aout (hO : Ok m) (c : Dev nD) : FVec F S32x1024 .f32 := fun idx =>
  payAt m hO c ⟨(idx 0).val, lt_of_lt_of_eq (idx 0).isLt (show S32x1024.size 0 = (cfgM m hO).N from N_0.symm)⟩ (ValueIdx.ix2 (0 : Fin 1) (idx 1))

end Cert.KB

end
-- ==== Proof.KB.Vals.lean ====
import proofs.«423535_j34024730919221_3_alg».proof.Proof.KB.Data
import Idealize.ShloMosaic.Lib.Pipeline.FrameSuffix

set_option maxRecDepth 16384

noncomputable section

namespace Cert.KB

open Cert.Kernel Cert.Kernel.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

noncomputable def Afin (hO : Ok m) (c : Dev nD) : (w : Fin 9) → Buf (Elt F) ((spec0 w).arr.view.loc (c : Thread nD τ)) := fun w => match w with
  | ⟨0, _⟩ => V m c (Pipeline.arrRef spec0 0)
  | ⟨1, _⟩ => V m c (Pipeline.arrRef spec0 1)
  | ⟨2, _⟩ => V m c (Pipeline.arrRef spec0 2)
  | ⟨3, _⟩ => V m c (Pipeline.arrRef spec0 3)
  | ⟨4, _⟩ => V m c (Pipeline.arrRef spec0 4)
  | ⟨5, _⟩ => V m c (Pipeline.arrRef spec0 5)
  | ⟨6, _⟩ => V m c (Pipeline.arrRef spec0 6)
  | ⟨7, _⟩ => V m c (Pipeline.arrRef spec0 7)
  | ⟨8, _⟩ => Aout m hO c
  | ⟨_ + 9, h⟩ => absurd h (Nat.not_lt.2 (Nat.le_add_left _ _))

noncomputable abbrev Wx (hO : Ok m) (c : Dev nD) : Valuation τ sig (Elt F) := Pipeline.withArrays spec0 c (V0 m c) (Afin m hO c)

noncomputable abbrev S' : Finset (DevRef τ sig) := Pipeline.tailRefs (τ := τ) sig pre0 spec0

noncomputable abbrev X1 (hO : Ok m) (c : Dev nD) : Valuation τ sig (Elt F) := StableHlo.after hostOps1 (Wx m hO c)

noncomputable abbrev X2 (hO : Ok m) (c : Dev nD) : Valuation τ sig (Elt F) := StableHlo.after hostOps1_1 (X1 m hO c)

end Cert.KB

end
-- ==== Proof.KB.Arr.lean ====
import proofs.«423535_j34024730919221_3_alg».proof.Proof.KB.Data
import Idealize.ShloMosaic.Lib.Pipeline.FrameBody
import Idealize.ShloMosaic.Lib.Pipeline.Cells

set_option maxRecDepth 16384

noncomputable section

namespace Cert.KB

open Cert.Kernel Cert.Kernel.Gen
open Idealize.ShloMosaic Idealize.ShloMosaic.TcCoe
open Idealize.ShloMosaic.Pipeline (Dat RDat Cfg Window cellOf)

variable {F : FTy → Type} [FloatOps F]

variable (m : (ℓ : Loc nD τ sig) → Buf (Elt F) ℓ)

theorem cfgM_N (hO : Ok m) : (cfgM m hO).N = 32 := N_0

theorem lt32 (hO : Ok m) (t : Fin (cfgM m hO).N) : t.val < 32 := by
  exact Nat.lt_of_lt_of_eq t.isLt (cfgM_N m hO)

theorem coords1 (hO : Ok m) (t : Fin (cfgM m hO).N) : ((((cfgM m hO).grid.coords t : grid0.Coords)) 1).val = t.val % 8 :=
  (by decide +kernel : ∀ t : Fin grid0.N, ((grid0.coords t) 1).val = t.val % 8) t

theorem flush8 (hO : Ok m) (t : Fin (cfgM m hO).N) : ((cfgM m hO).win 8).flush t = true ↔ t.val % 8 = 7 :=
  (by decide +kernel : ∀ t : Fin grid0.N, Pipeline.Window.flushOf grid0 true cc0_transform_8 t = true ↔ t.val % 8 = 7) t

theorem fetch8 (hO : Ok m) (t : Fin (cfgM m hO).N) : ((cfgM m hO).win 8).fetch t = false := rfl

theorem isOut_in (hO : Ok m) (w : Fin (cfgM m hO).W) (hw : w.val < 8) : ((cfgM m hO).win w).isOut = false := by
  match w, hw with
  | ⟨0, _⟩, _ => rfl | ⟨1, _⟩, _ => rfl | ⟨2, _⟩, _ => rfl | ⟨3, _⟩, _ => rfl
  | ⟨4, _⟩, _ => rfl | ⟨5, _⟩, _ => rfl | ⟨6, _⟩, _ => rfl | ⟨7, _⟩, _ => rfl
  | ⟨_ + 8, _⟩, h => exact absurd h (by simp)

theorem finds_in (hO : Ok m) (c : Dev nD) (w : Fin (cfgM m hO).W) (hw : w.val < 8) (t : Fin (cfgM m hO).N)
    (Y : ((cfgM m hO).win w).block.Idx → Elt F ((cfgM m hO).win w).elt) (hY : (rd m hO c).Finds w t Y) :
    Y = iblk m hO c w t := by
  have hin : ((cfgM m hO).win w).isOut = false := isOut_in m hO w hw
  have hkeep : ∀ t Y X, (rd m hO c).after w t Y X → X = Y := by
    match w, hw with
    | ⟨0, _⟩, _ => exact fun _ _ _ h => h | ⟨1, _⟩, _ => exact fun _ _ _ h => h
    | ⟨2, _⟩, _ => exact fun _ _ _ h => h | ⟨3, _⟩, _ => exact fun _ _ _ h => h
    | ⟨4, _⟩, _ => exact fun _ _ _ h => h | ⟨5, _⟩, _ => exact fun _ _ _ h => h
    | ⟨6, _⟩, _ => exact fun _ _ _ h => h | ⟨7, _⟩, _ => exact fun _ _ _ h => h
    | ⟨_ + 8, _⟩, h => exact absurd h (by simp)
  obtain ⟨d, hd⟩ := RDat.finds_in_eq_fetched (rd m hO c) w hin (fun _ _ _ => rfl) hkeep t Y hY
  rw [hd]
  exact ((cfgM m hO).win w).cut_fill ((cfgM m hO).grid.coords t) d ((rd m hO c).blockOf w t)

theorem leaves8_step (hO : Ok m) (c : Dev nD) (t : Fin (cfgM m hO).N)
    (X : ((cfgM m hO).win 8).block.Idx → Elt F ((cfgM m hO).win 8).elt) (hX : (rd m hO c).Leaves 8 t X) :
    ∃ Y, (rd m hO c).Finds 8 t Y ∧ ∀ idx : S8x1024.Idx,
      X idx = if (idx 0).val = t.val % 8 then payAt m hO c t (ValueIdx.ix2 (0 : Fin 1) (idx 1)) else Y idx := by
  obtain ⟨Y, hY, hR⟩ := hX
  refine ⟨Y, hY, fun idx => ?_⟩
  have hR' : rowRel ((cfgM m hO).grid.coords t) (payAt m hO c t) Y X := hR
  have h := hR' idx
  rw [coords1 m hO t] at h
  exact h

theorem leaves8 (hO : Ok m) (c : Dev nD) :
    ∀ (n : Nat) (t : Fin (cfgM m hO).N), t.val = n →
    ∀ (X : ((cfgM m hO).win 8).block.Idx → Elt F ((cfgM m hO).win 8).elt), (rd m hO c).Leaves 8 t X →
    ∀ (s : Fin (cfgM m hO).N), s.val / 8 = t.val / 8 → s.val ≤ t.val →
    ∀ idx : S8x1024.Idx, (idx 0).val = s.val % 8 → X idx = payAt m hO c s (ValueIdx.ix2 (0 : Fin 1) (idx 1)) := by
  intro n
  induction n with
  | zero =>
    intro t ht X hX s hg hs idx hi
    obtain ⟨Y, hY, hR⟩ := leaves8_step m hO c t X hX
    have hst : s = t := Fin.ext (by omega)
    subst hst
    exact (hR idx).trans (if_pos hi)
  | succ n ih =>
    intro t ht X hX s hg hs idx hi
    obtain ⟨Y, hY, hR⟩ := leaves8_step m hO c t X hX
    by_cases hst : s.val = t.val
    · have hst' : s = t := Fin.ext hst
      subst hst'
      exact (hR idx).trans (if_pos hi)
    · refine (hR idx).trans ((if_neg (by omega)).trans ?_)
      rcases ((rd m hO c).finds_of_pos (fetch8 m hO t) (by omega) Y).mp hY with hfl | hL
      · exact absurd ((flush8 m hO _).mp hfl) (by show ¬ ((t.val - 1) % 8 = 7); omega)
      · exact ih ⟨t.val - 1, Nat.lt_of_le_of_lt (Nat.sub_le _ _) t.isLt⟩ (by show t.val - 1 = n; omega) Y hL s
          (by show s.val / 8 = (t.val - 1) / 8; omega) (by show s.val ≤ t.val - 1; omega) idx hi

theorem index8_0 (hO : Ok m) (u : Fin (cfgM m hO).N) : ((cfgM m hO).win 8).index u (0 : Fin 2) = u.val / 8 :=
  (by decide +kernel : ∀ t : Fin grid0.N, cc0_transform_8 (grid0.coords t) (0 : Fin 2) = t.val / 8) u

theorem index8_1 (hO : Ok m) (u : Fin (cfgM m hO).N) : ((cfgM m hO).win 8).index u (1 : Fin 2) = 0 := rfl

theorem emb8_0 (hO : Ok m) (u : Fin (cfgM m hO).N) (y : S8x1024.Idx) :
    ((((cfgM m hO).win 8).blk u).view.emb y (0 : Fin 2)).val = u.val / 8 * 8 + (y 0).val := by
  show ((cfgM m hO).win 8).index u (0 : Fin 2) * 8 + 1 * (y 0).val = _
  rw [index8_0]; omega

theorem emb8_1 (hO : Ok m) (u : Fin (cfgM m hO).N) (y : S8x1024.Idx) :
    ((((cfgM m hO).win 8).blk u).view.emb y (1 : Fin 2)).val = (y 1).val := by
  show ((cfgM m hO).win 8).index u (1 : Fin 2) * 1024 + 1 * (y 1).val = _
  rw [index8_1]; omega

theorem mem_blk8 (hO : Ok m) (u : Fin (cfgM m hO).N) (idx : S32x1024.Idx) :
    idx ∈ (((cfgM m hO).win 8).blk u).view.set ↔ (idx 0).val / 8 = u.val / 8 := by
  have hset : (((cfgM m hO).win 8).blk u).view.set = (((cfgM m hO).win 8).rect u).set := View.set_slice_whole _ _
  have hunit : idx ∈ (((cfgM m hO).win 8).rect u).set ↔
      ∀ a : Fin 2, ((cfgM m hO).win 8).index u a * S8x1024.size a ≤ (idx a).val
        ∧ (idx a).val < ((cfgM m hO).win 8).index u a * S8x1024.size a + S8x1024.size a := Rect.mem_set_unit
  have hiff : idx ∈ (((cfgM m hO).win 8).blk u).view.set ↔ idx ∈ (((cfgM m hO).win 8).rect u).set :=
    Iff.of_eq (congrArg (fun A : Finset S32x1024.Idx => idx ∈ A) hset)
  refine hiff.trans (hunit.trans ?_)
  have h0 : (idx 0).val < 32 := (idx 0).isLt
  have h1 : (idx 1).val < 1024 := (idx 1).isLt
  have e0 := index8_0 m hO u
  have e1 := index8_1 m hO u
  constructor
  · intro h
    have h' : ((cfgM m hO).win 8).index u (0 : Fin 2) * 8 ≤ (idx 0).val
        ∧ (idx 0).val < ((cfgM m hO).win 8).index u (0 : Fin 2) * 8 + 8 := h (0 : Fin 2)
    rw [e0] at h'; omega
  · intro h
    refine Fin.forall_fin_two.mpr ⟨?_, ?_⟩
    · show ((cfgM m hO).win 8).index u (0 : Fin 2) * 8 ≤ (idx 0).val
        ∧ (idx 0).val < ((cfgM m hO).win 8).index u (0 : Fin 2) * 8 + 8
      rw [e0]; omega
    · show ((cfgM m hO).win 8).index u (1 : Fin 2) * 1024 ≤ (idx 1).val
        ∧ (idx 1).val < ((cfgM m hO).win 8).index u (1 : Fin 2) * 1024 + 1024
      rw [e1]; omega

theorem arrAt8_aux (hO : Ok m) (c : Dev nD) :
    ∀ (n : Nat), n ≤ (cfgM m hO).N →
    ∀ G : Buf (Elt F) (((cfgM m hO).win 8).arr.view.loc (c.tc : Thread nD τ)), (rd m hO c).ArrAt 8 n G →
    ∀ s : Fin (cfgM m hO).N, s.val / 8 * 8 + 8 ≤ n →
    ∀ (idx : S32x1024.Idx) (e : Fin 1024), (idx 0).val = s.val → (idx 1).val = e.val →
      G idx = payAt m hO c s (ValueIdx.ix2 (0 : Fin 1) e)
  | 0 => fun _ _ _ s hs => absurd hs (by omega)
  | n + 1 => by
    intro hn G hG s hs idx e hi he
    have hlt : n < (cfgM m hO).N := hn
    have hsucc := RDat.ArrAt_succ (rd m hO c) 8 ⟨n, hlt⟩
    have hG' : (if ((cfgM m hO).win 8).flush ⟨n, hlt⟩ = true
        then (rd m hO c).ArrStep 8 ⟨n, hlt⟩ ((rd m hO c).ArrAt 8 n) else (rd m hO c).ArrAt 8 n) G := hsucc ▸ hG
    by_cases hf : ((cfgM m hO).win 8).flush ⟨n, hlt⟩ = true
    · rw [if_pos hf] at hG'
      obtain ⟨G₀, X, hG₀, hX, hGe⟩ := hG'
      have h7 : n % 8 = 7 := (flush8 m hO ⟨n, hlt⟩).mp hf
      subst hGe
      by_cases hin : (idx 0).val / 8 = n / 8
      · obtain ⟨(y : S8x1024.Idx), -, hy⟩ := Finset.mem_map.mp ((mem_blk8 m hO ⟨n, hlt⟩ idx).mpr hin)
        have k0 := emb8_0 m hO ⟨n, hlt⟩ y
        have k1 := emb8_1 m hO ⟨n, hlt⟩ y
        have hw := View.write_emb_of_mem (v := (((cfgM m hO).win 8).blk ⟨n, hlt⟩).view) (Val := Elt F) G₀
          (((cfgM m hO).win 8).cut ((cfgM m hO).grid.coords ⟨n, hlt⟩) X) (M := Finset.univ) (x := y) (Finset.mem_univ y)
        subst hy
        have k0' : n / 8 * 8 + (y 0).val = s.val := k0.symm.trans hi
        have k1' : (y 1).val = e.val := k1.symm.trans he
        have hrow := leaves8 m hO c n ⟨n, hlt⟩ rfl X hX s (by show s.val / 8 = n / 8; omega) (by show s.val ≤ n; omega) y
          (by show (y 0).val = s.val % 8; have := (y 0).isLt; omega)
        have e1 : y 1 = e := Fin.ext k1'
        rw [e1] at hrow
        exact hw.trans ((cast_eq _ _).trans hrow)
      · exact (View.write_of_not_mem _ _ _ (fun h => hin ((mem_blk8 m hO ⟨n, hlt⟩ idx).mp h))).trans
          (arrAt8_aux hO c n (Nat.le_of_lt hlt) G₀ hG₀ s (by omega) idx e hi he)
    · rw [if_neg hf] at hG'
      have h7 : n % 8 ≠ 7 := fun h => hf ((flush8 m hO ⟨n, hlt⟩).mpr h)
      exact arrAt8_aux hO c n (Nat.le_of_lt hlt) G hG' s (by omega) idx e hi he

theorem arrAt8 (hO : Ok m) (c : Dev nD) (G : Buf (Elt F) (((cfgM m hO).win 8).arr.view.loc (c.tc : Thread nD τ)))
    (hG : (rd m hO c).ArrAt 8 (cfgM m hO).N G) (s : Fin (cfgM m hO).N) (idx : S32x1024.Idx) (hi : (idx 0).val = s.val) :
    G idx = payAt m hO c s (ValueIdx.ix2 (0 : Fin 1) (idx 1)) :=
  arrAt8_aux m hO c (cfgM m hO).N (Nat.le_refl _) G hG s
    (by have h1 := lt32 m hO s; have h2 := cfgM_N m hO; omega) idx (idx 1) hi rfl

theorem arrAt8_eq (hO : Ok m) (c : Dev nD) (G : Buf (Elt F) (((cfgM m hO).win 8).arr.view.loc (c.tc : Thread nD τ)))
    (hG : (rd m hO c).ArrAt 8 (cfgM m hO).N G) : G = Aout m hO c :=
  funext fun (idx : S32x1024.Idx) =>
    (arrAt8 m hO c G hG ⟨(idx 0).val, lt_of_lt_of_eq (idx 0).isLt (show S32x1024.size 0 = (cfgM m hO).N from N_0.symm)⟩ idx rfl :
      G idx = payAt m hO c ⟨(idx 0).val, lt_of_lt_of_eq (idx 0).isLt (show S32x1024.size 0 = (cfgM m hO).N from N_0.symm)⟩
        (ValueIdx.ix2 (0 : Fin 1) (idx 1)))

theorem arrAt_in (hO : Ok m) (c : Dev nD) (w : Fin (cfgM m hO).W) (hw : w.val < 8)
    (G : Buf (Elt F) (((cfgM m hO).win w).arr.view.loc (c.tc : Thread nD τ)))
    (hG : (rd m hO c).ArrAt w (cfgM m hO).N G) : G = (rd m hO c).A w := by
  have hin : ((cfgM m hO).win w).isOut = false := isOut_in m hO w hw
  rw [RDat.ArrAt_in (rd m hO c) w hin] at hG
  exact hG

end Cert.KB

end
-- ==== Proof.KB.Body.lean ====
import proofs.«423535_j34024730919221_3_alg».proof.Proof.KB.Data
import proofs.«423535_j34024730919221_3_alg».proof.Proof.KB.Arr
import Idealize.ShloMosaic.Lib.Tactic
import Idealize.ShloMosaic.Lib.Pipeline.Frame
import Idealize.ShloMosaic.Lib.Pipeline.Value
import Idealize.ShloMosaic.Lib.WritesUnit
import Idealize.ShloMosaic.Lib.ValueIdx

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem k0_off2_eq (i : grid0.Coords) : k0_off2 i = ![(i 1).val, 0] := by
  have h : (i 1).val < 8 := (i 1).isLt
  show ![(BitVec.ofNat 32 (i 1).val).toNat, 0] = ![(i 1).val, 0]
  rw [BitVec.toNat_ofNat, Nat.mod_eq_of_lt (by omega)]

theorem zeros3 : (![0, 0, 0] : Fin 3 → ℕ) = fun _ => 0 := by
  funext a; fin_cases a <;> rfl

theorem readAt_whole_unread {κ : Kind} {sp : Space} {S : Shape} {e : EltTy} {M : Memref sig κ sp S e} (h : M.IsWhole)
    (X : S.Idx → Elt F e) {off : Fin S.rank → ℕ} (ho : off = fun _ => 0) (inb : ∀ a, off a + S.size a ≤ S.size a) :
    M.view.readAt (Elt F) (Rect.unit off S.size inb).toLoadRect (h.unread X) = X := by
  show View.ld (M.view.read (Elt F) (h.unread X)) (Rect.unit off S.size inb) = X
  rw [h.read_unread]
  exact View.ld_unit_zero ho inb X

theorem rowRel_store (i : grid0.Coords) {κ : Kind} {sp : Space} (v : View sig κ sp S8x1024 .f32) (f8 : v.ty.Contents (Elt F))
    (inb : ∀ a, (k0_off2 i) a + S1x1024.size a ≤ S8x1024.size a) (p : FVec F S1x1024 .f32) :
    rowRel i p (v.read (Elt F) f8)
      (v.read (Elt F) (v.writes (Elt F) f8 [(⟨Rect.unit (s := S8x1024) (k0_off2 i) S1x1024.size inb, p⟩ : View.Piece (Elt F) S8x1024 .f32)])) := by
  intro idx
  by_cases hrow : (idx 0).val = (i 1).val
  · rw [if_pos hrow]
    exact View.read_writes_cons_rows_of_mem v f8 inb p [] idx (ValueIdx.ix2 (0 : Fin 1) (idx 1)) (k0_off2_eq i) hrow rfl
  · rw [if_neg hrow]
    exact View.read_writes_cons_rows_of_not_mem v f8 inb p [] idx (k0_off2_eq i) (W := 1) rfl (by omega)

set_option maxHeartbeats 1000000 in
theorem kernelRun (c : Dev nD) (i : grid0.Coords)
    (arg4 : Memref sig .tc .vmem S1x512x1024 .f32) (harg4 : arg4.IsWhole)
    (arg5 : Memref sig .tc .vmem S1x1x512 .f32) (harg5 : arg5.IsWhole)
    (arg6 : Memref sig .tc .vmem S1x1024x1024 .f32) (harg6 : arg6.IsWhole)
    (arg7 arg8 arg9 : Memref sig .tc .vmem S1x1x1024 .f32) (harg7 : arg7.IsWhole) (harg8 : arg8.IsWhole) (harg9 : arg9.IsWhole)
    (arg10 : Memref sig .tc .vmem S1x1024x1024 .f32) (harg10 : arg10.IsWhole)
    (arg11 : Memref sig .tc .vmem S1x1x1024 .f32) (harg11 : arg11.IsWhole)
    (arg12 : Memref sig .tc .vmem S8x1024 .f32) (harg12 : arg12.IsWhole)
    (x0 : Vec F S1x512x1024 .f32) (x1 : Vec F S1x1x512 .f32) (x2 : Vec F S1x1024x1024 .f32)
    (x3 x4 x5 : Vec F S1x1x1024 .f32) (x6 : Vec F S1x1024x1024 .f32) (x7 : Vec F S1x1x1024 .f32)
    (d : Vec F S8x1024 .f32) :
      ∀ (E : Set ℕ) (K : PUnit → sProp 𝕄),
        iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4 ∗ owns (c : Thread nD τ) arg9 fullShare x5
            ∗ owns (c : Thread nD τ) arg10 fullShare x6 ∗ owns (c : Thread nD τ) arg11 fullShare x7
            ∗ owns (c : Thread nD τ) arg12 fullShare d
            ∗ (iprop(owns (c : Thread nD τ) arg4 fullShare x0 ∗ owns (c : Thread nD τ) arg5 fullShare x1
                ∗ owns (c : Thread nD τ) arg6 fullShare x2 ∗ owns (c : Thread nD τ) arg7 fullShare x3
                ∗ owns (c : Thread nD τ) arg8 fullShare x4 ∗ owns (c : Thread nD τ) arg9 fullShare x5
                ∗ owns (c : Thread nD τ) arg10 fullShare x6 ∗ owns (c : Thread nD τ) arg11 fullShare x7
                ∗ (∃ X, ⌜rowRel i (payOf x0 x1 x2 x3 x4 x5 x6 x7) d X⌝ ∗ owns (c : Thread nD τ) arg12 fullShare X)) -∗ K ⟨⟩))
          ⊢ wp frame (wpE (defs₀ (F := F)) Variants.none c none) E
              (cc0__adapter_pool_kernel i (Memref.whole main_v6) (Memref.isWhole_whole _) (Memref.whole main_v13) (Memref.isWhole_whole _)
                arg4 harg4 arg5 harg5 arg6 harg6 arg7 harg7 arg8 harg8 arg9 harg9 arg10 harg10 arg11 harg11 arg12 harg12) K := by
    intro E K
    simp only [cc0__adapter_pool_kernel_eq_skeleton]; unfold cc0__adapter_pool_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg4.eq_unread hf0
    obtain rfl := harg5.eq_unread hf1
    obtain rfl := harg6.eq_unread hf2
    obtain rfl := harg7.eq_unread hf3
    obtain rfl := harg8.eq_unread hf4
    obtain rfl := harg9.eq_unread hf5
    obtain rfl := harg10.eq_unread hf6
    obtain rfl := harg11.eq_unread hf7
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    iexists _; isplitr; swap
    · iexists _; isplitr; swap
      · iexact H8
      · ipureintro; rfl
    ipureintro
    subst hf8
    rw [readAt_whole_unread harg4 x0 zeros3, readAt_whole_unread harg5 x1 zeros3, readAt_whole_unread harg6 x2 zeros3,
      readAt_whole_unread harg7 x3 zeros3, readAt_whole_unread harg8 x4 zeros3, readAt_whole_unread harg9 x5 zeros3,
      readAt_whole_unread harg10 x6 zeros3, readAt_whole_unread harg11 x7 zeros3]
    exact rowRel_store i arg12.view f8 _ _

variable (m : (ℓ : Loc nD τ sig) → Buf (Elt F) ℓ)

theorem sound_body (hO : Ok m) (c : Dev nD) (t : Fin (cfgM m hO).N)
    (Y : (w : Fin (cfgM m hO).W) → ((cfgM m hO).win w).block.Idx → Elt F ((cfgM m hO).win w).elt) :
    iprop((rd m hO c).Φ t.castSucc ∗ (rd m hO c).owesAt () t.castSucc
        ∗ owns (c : Thread nD τ) (((cfgM m hO).win 0).stage ((cfgM m hO).slots t 0)) fullShare (Y 0)
        ∗ owns (c : Thread nD τ) (((cfgM m hO).win 1).stage ((cfgM m hO).slots t 1)) fullShare (Y 1)
        ∗ owns (c : Thread nD τ) (((cfgM m hO).win 2).stage ((cfgM m hO).slots t 2)) fullShare (Y 2)
        ∗ owns (c : Thread nD τ) (((cfgM m hO).win 3).stage ((cfgM m hO).slots t 3)) fullShare (Y 3)
        ∗ owns (c : Thread nD τ) (((cfgM m hO).win 4).stage ((cfgM m hO).slots t 4)) fullShare (Y 4)
        ∗ owns (c : Thread nD τ) (((cfgM m hO).win 5).stage ((cfgM m hO).slots t 5)) fullShare (Y 5)
        ∗ owns (c : Thread nD τ) (((cfgM m hO).win 6).stage ((cfgM m hO).slots t 6)) fullShare (Y 6)
        ∗ owns (c : Thread nD τ) (((cfgM m hO).win 7).stage ((cfgM m hO).slots t 7)) fullShare (Y 7)
        ∗ owns (c : Thread nD τ) (((cfgM m hO).win 8).stage ((cfgM m hO).slots t 8)) fullShare (Y 8))
      ⊢ wp frame (wpE (defs₀ (F := F)) Variants.none c none) Set.univ
          (cc0__adapter_pool_kernel ((cfgM m hO).grid.coords t) (Memref.whole main_v6) (Memref.isWhole_whole _) (Memref.whole main_v13) (Memref.isWhole_whole _)
            (spec0_0.stage ((cfgM m hO).slots t 0)) (hstage0_0 (((cfgM m hO).slots t 0).cast nbuf0_0))
            (spec0_1.stage ((cfgM m hO).slots t 1)) (hstage0_1 (((cfgM m hO).slots t 1).cast nbuf0_1))
            (spec0_2.stage ((cfgM m hO).slots t 2)) (hstage0_2 (((cfgM m hO).slots t 2).cast nbuf0_2))
            (spec0_3.stage ((cfgM m hO).slots t 3)) (hstage0_3 (((cfgM m hO).slots t 3).cast nbuf0_3))
            (spec0_4.stage ((cfgM m hO).slots t 4)) (hstage0_4 (((cfgM m hO).slots t 4).cast nbuf0_4))
            (spec0_5.stage ((cfgM m hO).slots t 5)) (hstage0_5 (((cfgM m hO).slots t 5).cast nbuf0_5))
            (spec0_6.stage ((cfgM m hO).slots t 6)) (hstage0_6 (((cfgM m hO).slots t 6).cast nbuf0_6))
            (spec0_7.stage ((cfgM m hO).slots t 7)) (hstage0_7 (((cfgM m hO).slots t 7).cast nbuf0_7))
            (spec0_8.stage ((cfgM m hO).slots t 8)) (hstage0_8 (((cfgM m hO).slots t 8).cast nbuf0_8)))
          (fun _ => iprop((rd m hO c).Φ t.castSucc ∗ (rd m hO c).owesAt () t.castSucc
            ∗ (∃ X, ⌜X = Y 0⌝ ∗ owns (c : Thread nD τ) (((cfgM m hO).win 0).stage ((cfgM m hO).slots t 0)) fullShare X)
            ∗ (∃ X, ⌜X = Y 1⌝ ∗ owns (c : Thread nD τ) (((cfgM m hO).win 1).stage ((cfgM m hO).slots t 1)) fullShare X)
            ∗ (∃ X, ⌜X = Y 2⌝ ∗ owns (c : Thread nD τ) (((cfgM m hO).win 2).stage ((cfgM m hO).slots t 2)) fullShare X)
            ∗ (∃ X, ⌜X = Y 3⌝ ∗ owns (c : Thread nD τ) (((cfgM m hO).win 3).stage ((cfgM m hO).slots t 3)) fullShare X)
            ∗ (∃ X, ⌜X = Y 4⌝ ∗ owns (c : Thread nD τ) (((cfgM m hO).win 4).stage ((cfgM m hO).slots t 4)) fullShare X)
            ∗ (∃ X, ⌜X = Y 5⌝ ∗ owns (c : Thread nD τ) (((cfgM m hO).win 5).stage ((cfgM m hO).slots t 5)) fullShare X)
            ∗ (∃ X, ⌜X = Y 6⌝ ∗ owns (c : Thread nD τ) (((cfgM m hO).win 6).stage ((cfgM m hO).slots t 6)) fullShare X)
            ∗ (∃ X, ⌜X = Y 7⌝ ∗ owns (c : Thread nD τ) (((cfgM m hO).win 7).stage ((cfgM m hO).slots t 7)) fullShare X)
            ∗ (∃ X, ⌜rowRel ((cfgM m hO).grid.coords t) (payOf (Y 0) (Y 1) (Y 2) (Y 3) (Y 4) (Y 5) (Y 6) (Y 7)) (Y 8) X⌝
                ∗ owns (c : Thread nD τ) (((cfgM m hO).win 8).stage ((cfgM m hO).slots t 8)) fullShare X))) := by
  iintro ⟨HΦ, Ho, H0, H1, H2, H3, H4, H5, H6, H7, H8⟩
  iapply ((kernelRun c ((cfgM m hO).grid.coords t) _ _ _ _ _ _ _ _ _ _ _ _ _ _ _ _ _ _ (Y 0) (Y 1) (Y 2) (Y 3) (Y 4) (Y 5) (Y 6) (Y 7) (Y 8)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  iexact H8

theorem body_obligation (hO : Ok m) (c : Dev nD) :
    (rd m hO c).BodyObligation (defs₀ (F := F)) Variants.none () Set.univ := by
  intro t Y hY
  rw [bigSep_W0, bigSep_W0]
  have hp : payOf (Y 0) (Y 1) (Y 2) (Y 3) (Y 4) (Y 5) (Y 6) (Y 7) = payAt m hO c t := by
    rw [finds_in m hO c 0 (by show (0 : ℕ) < 8; decide) t (Y 0) (hY 0), finds_in m hO c 1 (by show (1 : ℕ) < 8; decide) t (Y 1) (hY 1),
      finds_in m hO c 2 (by show (2 : ℕ) < 8; decide) t (Y 2) (hY 2), finds_in m hO c 3 (by show (3 : ℕ) < 8; decide) t (Y 3) (hY 3),
      finds_in m hO c 4 (by show (4 : ℕ) < 8; decide) t (Y 4) (hY 4), finds_in m hO c 5 (by show (5 : ℕ) < 8; decide) t (Y 5) (hY 5),
      finds_in m hO c 6 (by show (6 : ℕ) < 8; decide) t (Y 6) (hY 6), finds_in m hO c 7 (by show (7 : ℕ) < 8; decide) t (Y 7) (hY 7)]
    rfl
  have h := sound_body m hO c t Y
  rw [hp] at h
  exact h

end Cert.KB

end
-- ==== Proof.KB.Exit.lean ====
import proofs.«423535_j34024730919221_3_alg».proof.Proof.KB.Vals
import proofs.«423535_j34024730919221_3_alg».proof.Proof.KB.Arr
import Idealize.ShloMosaic.Lib.Pipeline.Regions
import Idealize.ShloMosaic.Lib.Pipeline.Frame
import Idealize.ShloMosaic.Lib.Pipeline.FrameSuffix

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

theorem tbl_eq (c : Dev nD) : (fun k => V m c (pre0.ref k)) = tbl m := by
  obtain rfl : c = 0 := Subsingleton.elim c 0
  rfl

set_option backward.isDefEq.respectTransparency.types false in

theorem reg_entry (hO : Ok m) (c : Dev nD) :
    (iprop((StableHlo.held (c : Thread nD τ) (Pipeline.ucRefs τ sig) (V0 m c)
          ∗ iprop(∃ W, owes (c : Thread nD τ) (0 : CellTallies nD τ sig Unit) W))
        ∗ Pipeline.ownSems0 (fun k : PEmpty => k.elim) c
        ∗ levAts (fun _ : GSem nD τ sig => (∅ : Finset Unit)) (fun (_ : GSem nD τ sig) (_ : Unit) => (0 : ℕ))) : sProp 𝕄)
      ⊢ |={Set.univ}=> iprop((rd m hO c).arrays (rd m hO c).A ∗ Pipeline.prefHeld pre0 c (fun _ => fullShare) (tbl m)
          ∗ (rd m hO c).owesAt () 0 ∗ iprop(emp) ∗ Pipeline.unscopedRestP pre0 spec0 c (V m c)) := by
  rw [show StableHlo.held (c : Thread nD τ) (Pipeline.ucRefs τ sig) (V0 m c) = unscopedBufs c (V m c) from (Pipeline.unscopedBufs_held c _).symm]
  have hsplit := (Pipeline.RDat.arrays_of_unscopedBufs (pcfgs (F := F)) (admP m hO) (fun _ c => rd m hO c) (p := 0)
      (launch0 (F := F)).win (launch0 (F := F)).arr_whole c ((rd m hO c).share_full fun _ => rfl) (V m c) fun _ => rfl).trans
    (sep_mono .rfl (Entails.of_eq ((Pipeline.unscopedRest_split (launch0 (F := F)).pre c (V m c)).trans
      (congrArg (fun t => iprop(Pipeline.prefHeld pre0 c (fun _ => fullShare) t ∗ Pipeline.unscopedRestP pre0 spec0 c (V m c))) (tbl_eq m c)))))
  iintro ⟨⟨Hub, HO⟩, -, -⟩
  ihave H := hsplit $$ Hub
  icases H with ⟨Ha, Hp, Hr⟩
  imodintro
  isplitl [Ha]; · iexact Ha
  isplitl [Hp]; · iexact Hp
  isplitl [HO]
  · unfold Pipeline.RDat.owesAt Pipeline.owesWithin
    icases HO with ⟨%W, HO⟩; iexists W; isplitr; · ipureintro; exact fun _ _ => Or.inl trivial
    iexact HO
  isplitr [Hr]; · iempintro
  iexact Hr

section Afin
variable (hO : Ok m) (c : Dev nD)
  (A : (w : Fin (cfgM m hO).W) → Buf (Elt F) (((cfgM m hO).win w).arr.view.loc (c : Thread nD τ)))
  (hA : ∀ w, (rd m hO c).ArrAt w (cfgM m hO).N (A w))
include hA

theorem afin_0 (h : 0 < (cfgM m hO).W) : A ⟨0, h⟩ = Afin m hO c ⟨0, h⟩ := arrAt_in m hO c ⟨0, h⟩ (Nat.zero_lt_succ 7) _ (hA _)
theorem afin_1 (h : 1 < (cfgM m hO).W) : A ⟨1, h⟩ = Afin m hO c ⟨1, h⟩ := arrAt_in m hO c ⟨1, h⟩ (show (1 : ℕ) < 8 by omega) _ (hA _)
theorem afin_2 (h : 2 < (cfgM m hO).W) : A ⟨2, h⟩ = Afin m hO c ⟨2, h⟩ := arrAt_in m hO c ⟨2, h⟩ (show (2 : ℕ) < 8 by omega) _ (hA _)
theorem afin_3 (h : 3 < (cfgM m hO).W) : A ⟨3, h⟩ = Afin m hO c ⟨3, h⟩ := arrAt_in m hO c ⟨3, h⟩ (show (3 : ℕ) < 8 by omega) _ (hA _)
theorem afin_4 (h : 4 < (cfgM m hO).W) : A ⟨4, h⟩ = Afin m hO c ⟨4, h⟩ := arrAt_in m hO c ⟨4, h⟩ (show (4 : ℕ) < 8 by omega) _ (hA _)
theorem afin_5 (h : 5 < (cfgM m hO).W) : A ⟨5, h⟩ = Afin m hO c ⟨5, h⟩ := arrAt_in m hO c ⟨5, h⟩ (show (5 : ℕ) < 8 by omega) _ (hA _)
theorem afin_6 (h : 6 < (cfgM m hO).W) : A ⟨6, h⟩ = Afin m hO c ⟨6, h⟩ := arrAt_in m hO c ⟨6, h⟩ (show (6 : ℕ) < 8 by omega) _ (hA _)
theorem afin_7 (h : 7 < (cfgM m hO).W) : A ⟨7, h⟩ = Afin m hO c ⟨7, h⟩ := arrAt_in m hO c ⟨7, h⟩ (show (7 : ℕ) < 8 by omega) _ (hA _)

theorem afin_8 (h : 8 < (cfgM m hO).W) : A ⟨8, h⟩ = Afin m hO c ⟨8, h⟩ := arrAt8_eq m hO c _ (hA _)

theorem afin_of_arrAt : A = Afin m hO c := by
  funext w
  obtain ⟨n, h⟩ := w
  obtain _ | _ | _ | _ | _ | _ | _ | _ | _ | n := n
  · exact afin_0 m hO c A hA h
  · exact afin_1 m hO c A hA h
  · exact afin_2 m hO c A hA h
  · exact afin_3 m hO c A hA h
  · exact afin_4 m hO c A hA h
  · exact afin_5 m hO c A hA h
  · exact afin_6 m hO c A hA h
  · exact afin_7 m hO c A hA h
  · exact afin_8 m hO c A hA h
  · exact absurd h (Nat.not_lt.2 (Nat.le_add_left _ _))

end Afin

set_option backward.isDefEq.respectTransparency.types false in

theorem arraysAt_open (hO : Ok m) (c : Dev nD) :
    ((rd m hO c).arraysAt (cfgM m hO).N : sProp 𝕄)
      ⊢ iprop(∃ A, ⌜∀ w, (rd m hO c).ArrAt w (cfgM m hO).N (A w)⌝ ∗ Pipeline.arrPts spec0 c A) := by
  have hwh : ∀ w, ((cfgM m hO).win w).arr.IsWhole := (launch0 (F := F)).arr_whole
  unfold Pipeline.RDat.arraysAt
  iintro Ha
  ihave Ha' := (BI.bigSep_exists_pi Finset.univ (fun w G => iprop(⌜(rd m hO c).ArrAt w (cfgM m hO).N G⌝
      ∗ ((cfgM m hO).win w).arr.view.loc (c : Thread nD τ) ↦[((cfgM m hO).win w).arr.view.set]{(rd m hO c).share w} G))) $$ Ha
  icases Ha' with ⟨%A, Ha⟩
  ihave Ha2 := (BI.bigSep_pure_sep Finset.univ (fun w => (rd m hO c).ArrAt w (cfgM m hO).N (A w))
      (fun w => ((cfgM m hO).win w).arr.view.loc (c : Thread nD τ) ↦[((cfgM m hO).win w).arr.view.set]{(rd m hO c).share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(hwh w).set_eq_univ, (rd m hO c).share_full (fun _ => rfl) w]) :
      (bigSep Finset.univ fun w => (((cfgM m hO).win w).arr.view.loc (c : Thread nD τ) ↦[((cfgM m hO).win w).arr.view.set]{(rd m hO c).share w} A w : sProp 𝕄))
        = bigSep Finset.univ fun w => (((c : Thread nD τ).loc (Pipeline.arrRef spec0 w)) ↦{fullShare} A w : sProp 𝕄)))
  iexact Ha

set_option backward.isDefEq.respectTransparency.types false in

theorem held_Wx (hO : Ok m) (c : Dev nD) :
    (StableHlo.held (c : Thread nD τ) S' (Wx m hO c) : sProp 𝕄)
      = iprop(Pipeline.arrPts spec0 c (Afin m hO c) ∗ Pipeline.unscopedRestP pre0 spec0 c (V m c)) := by
  have hinj : Function.Injective (Pipeline.arrRef (spec0)) := (launch0 (F := F)).win.arr_inj
  have h1 : (fun w => Wx m hO c (Proc.devRef .tc (Pipeline.arrRef spec0 w))) = Afin m hO c :=
    funext fun w => Pipeline.withArrays_arr spec0 hinj c (V0 m c) (Afin m hO c) w
  have h2 : (Pipeline.unscopedRestP pre0 spec0 c (fun b => Wx m hO c (Proc.devRef .tc b)) : sProp 𝕄)
      = Pipeline.unscopedRestP pre0 spec0 c (V m c) := by
    unfold Pipeline.unscopedRestP
    exact bigSep_congr fun b hb => by
      have e := Pipeline.withArrays_of_ne spec0 c (V0 m c) (Afin m hO c) b fun w e =>
        (Finset.mem_sdiff.mp (Finset.mem_sdiff.mp hb).1).2 (Finset.mem_image.mpr ⟨w, Finset.mem_univ _, e⟩)
      exact congrArg (fun v : Buf (Elt F) ((c : Thread nD τ).loc b) => (((c : Thread nD τ).loc b ↦{fullShare} v) : sProp 𝕄)) e
  refine (Pipeline.held_tailRefs pre0 spec0 hinj c (Wx m hO c)).trans ?_
  rw [h1, h2]

set_option backward.isDefEq.respectTransparency.types false in

theorem reg_exit (hO : Ok m) (c : Dev nD) :
    (iprop((rd m hO c).arraysAt (cfgM m hO).N ∗ (rd m hO c).owesAt () (Fin.last (cfgM m hO).N)
        ∗ Pipeline.prefHeld pre0 c (fun _ => fullShare) (tbl m) ∗ Pipeline.unscopedRestP pre0 spec0 c (V m c)) : sProp 𝕄)
      ⊢ |={Set.univ}=> iprop(StableHlo.held (c : Thread nD τ) S' (Wx m hO c)
          ∗ (Pipeline.prefHeld pre0 c (fun _ => fullShare) (tbl m)
            ∗ iprop(∃ W, owes (c : Thread nD τ) (0 : CellTallies nD τ sig Unit) W))) := by
  rw [held_Wx m hO c]
  iintro ⟨Ha, HO, HY, HZ⟩
  ihave H := (arraysAt_open m hO c) $$ Ha
  icases H with ⟨%A, %hA, Ha⟩
  obtain rfl := afin_of_arrAt m hO c A hA
  imodintro
  isplitl [Ha HZ]
  · isplitl [Ha]; · iexact Ha
    iexact HZ
  isplitl [HY]; · iexact HY
  unfold Pipeline.RDat.owesAt Pipeline.owesWithin
  icases HO with ⟨%W, -, HO⟩; iexists W; iexact HO

theorem pre0_ref (k : Fin pre0.K) : pre0.ref k = main_v6 ∨ pre0.ref k = main_v13 := by
  match k with
  | ⟨0, _⟩ => exact .inl rfl
  | ⟨1, _⟩ => exact .inr rfl
  | ⟨_ + 2, h⟩ => exact absurd h (Nat.not_lt.2 (Nat.le_add_left _ _))

theorem tsub1 : ∀ op ∈ (hostOps1 : List (HloOp τ sig (Elt F))), op.bufs ⊆ S' := by
  intro op hop
  refine Pipeline.sub_tailRefs pre0 spec0 op ((List.forall_iff_forall_mem.mp hostOps1_sub) op hop) fun k => ?_
  rcases pre0_ref k with hk | hk <;> rw [hk] <;> clear hk <;>
    ((repeat (cases hop with
      | head => simp only [StableHlo.nullary_bufs, StableHlo.unary_bufs, StableHlo.binary_bufs, StableHlo.ternary_bufs,
          Finset.mem_insert, Finset.mem_singleton, (Proc.devRef_injective _).eq_iff]; decide
      | tail _ hop => ?_)); exact nomatch hop)

theorem tsub1_1 : ∀ op ∈ (hostOps1_1 : List (HloOp τ sig (Elt F))), op.bufs ⊆ S' := by
  intro op hop
  refine Pipeline.sub_tailRefs pre0 spec0 op ((List.forall_iff_forall_mem.mp hostOps1_1_sub) op hop) fun k => ?_
  rcases pre0_ref k with hk | hk <;> rw [hk] <;> clear hk <;>
    ((repeat (cases hop with
      | head => simp only [StableHlo.nullary_bufs, StableHlo.unary_bufs, StableHlo.binary_bufs, StableHlo.ternary_bufs,
          Finset.mem_insert, Finset.mem_singleton, (Proc.devRef_injective _).eq_iff]; decide
      | tail _ hop => ?_)); exact nomatch hop)

end Cert.KB

end
-- ==== Proof.KB.Run.lean ====
import proofs.«423535_j34024730919221_3_alg».proof.Proof.KB.Vals
import proofs.«423535_j34024730919221_3_alg».proof.Proof.KB.Body
import proofs.«423535_j34024730919221_3_alg».proof.Proof.KB.Exit
import Idealize.ShloMosaic.Lib.Pipeline.Regions
import Idealize.ShloMosaic.Lib.Pipeline.Frame
import Idealize.ShloMosaic.Lib.Pipeline.FrameSuffix

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop(∃ W, owes (c : Thread nD τ) (0 : CellTallies nD τ sig Unit) W)

noncomputable abbrev S : Finset (DevRef τ sig) := Pipeline.ucRefs τ sig

theorem sub_of {ops : List (HloOp τ sig (Elt F))} (h : ops.Forall fun op => op.bufs ⊆ StableHlo.tcRefs τ sig) :
    ∀ op ∈ ops, op.bufs ⊆ S := fun op hop => Pipeline.sub_ucRefs op ((List.forall_iff_forall_mem.mp h) op hop)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh0_3 : ∀ op ∈ (hostOps0_3 : List (HloOp τ sig (Elt F))), op.fresh = ∅ := by
  intro _ h; (repeat (cases h with | head => rfl | tail _ h => ?_)); exact nomatch h
theorem fresh0_4 : ∀ op ∈ (hostOps0_4 : List (HloOp τ sig (Elt F))), op.fresh = ∅ := by
  intro _ h; (repeat (cases h with | head => rfl | tail _ h => ?_)); exact nomatch h
theorem fresh0_5 : ∀ op ∈ (hostOps0_5 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h

noncomputable abbrev U1 (c : Dev nD) : Valuation τ sig (Elt F) := StableHlo.after hostOps0 (Vl m c)
noncomputable abbrev U2 (c : Dev nD) : Valuation τ sig (Elt F) := StableHlo.after hostOps0_1 (U1 m c)
noncomputable abbrev U3 (c : Dev nD) : Valuation τ sig (Elt F) := StableHlo.after hostOps0_2 (U2 m c)
noncomputable abbrev U4 (c : Dev nD) : Valuation τ sig (Elt F) := StableHlo.after hostOps0_3 (U3 m c)
noncomputable abbrev U5 (c : Dev nD) : Valuation τ sig (Elt F) := StableHlo.after hostOps0_4 (U4 m c)
noncomputable abbrev U6 (c : Dev nD) : Valuation τ sig (Elt F) := StableHlo.after hostOps0_5 (U5 m c)

theorem U6_eq (c : Dev nD) : U6 m c = V0 m c := by
  show _ = StableHlo.after (List.flatten [hostOps0, hostOps0_1, hostOps0_2, hostOps0_3, hostOps0_4, hostOps0_5]) (Vl m c)
  simp only [List.flatten_cons, List.flatten_nil, List.append_nil, StableHlo.after_append]

noncomputable def segP0 : Pipeline.HostSeg (Name := ℕ) (U := UR sig nD τ) (pcfgs (F := F)) defs₀ 𝒱₀ L lv :=
  Pipeline.HostSeg.ofOps _ _ _ _ _ S hostOps0 (sub_of hostOps0_sub) fresh0 (Vl m) R
noncomputable def segP1 : Pipeline.HostSeg (Name := ℕ) (U := UR sig nD τ) (pcfgs (F := F)) defs₀ 𝒱₀ L lv :=
  Pipeline.HostSeg.ofOps _ _ _ _ _ S hostOps0_1 (sub_of hostOps0_1_sub) fresh0_1 (U1 m) R
noncomputable def segP2 : Pipeline.HostSeg (Name := ℕ) (U := UR sig nD τ) (pcfgs (F := F)) defs₀ 𝒱₀ L lv :=
  Pipeline.HostSeg.ofOps _ _ _ _ _ S hostOps0_2 (sub_of hostOps0_2_sub) fresh0_2 (U2 m) R
noncomputable def segP3 : Pipeline.HostSeg (Name := ℕ) (U := UR sig nD τ) (pcfgs (F := F)) defs₀ 𝒱₀ L lv :=
  Pipeline.HostSeg.ofOps _ _ _ _ _ S hostOps0_3 (sub_of hostOps0_3_sub) fresh0_3 (U3 m) R
noncomputable def segP4 : Pipeline.HostSeg (Name := ℕ) (U := UR sig nD τ) (pcfgs (F := F)) defs₀ 𝒱₀ L lv :=
  Pipeline.HostSeg.ofOps _ _ _ _ _ S hostOps0_4 (sub_of hostOps0_4_sub) fresh0_4 (U4 m) R
noncomputable def segP5 : Pipeline.HostSeg (Name := ℕ) (U := UR sig nD τ) (pcfgs (F := F)) defs₀ 𝒱₀ L lv :=
  Pipeline.HostSeg.ofOps _ _ _ _ _ S hostOps0_5 (sub_of hostOps0_5_sub) fresh0_5 (U5 m) R

noncomputable abbrev rdats (hO : Ok m) : (p : Fin 1) → (c : Dev nD) → RDat τ (Elt F) Unit ℕ (UR sig nD τ) ℕ (Pipeline.pin (pcfgs (F := F)) (admP m hO) p) c :=
  fun _ c => rd m hO c

noncomputable abbrev R' (c : Dev nD) : sProp 𝕄 := iprop(Pipeline.prefHeld pre0 c (fun _ => fullShare) (tbl m) ∗ R c)

theorem body_obl (hO : Ok m) (c : Dev nD) : (rd m hO c).BodyObligation (defs₀ (F := F)) 𝒱₀ () Set.univ :=
  body_obligation m hO c

set_option backward.isDefEq.respectTransparency.types false in
noncomputable def reg (hO : Ok m) : Pipeline.RDat.RegionSeg (pcfgs (F := F)) (admP m hO) (rdats m hO) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := body_obl m hO c
  hwaits := Pipeline.RDat.hwaits_of_owed_zero _ _ _ _ L lv 0 fun _ _ => rfl
  pre c := iprop(StableHlo.held (c : Thread nD τ) S (V0 m c) ∗ R c)
  post c := iprop(StableHlo.held (c : Thread nD τ) S' (Wx m hO c) ∗ R' m c)
  X c := iprop(emp)
  Y c := Pipeline.prefHeld pre0 c (fun _ => fullShare) (tbl m)
  Z c := Pipeline.unscopedRestP pre0 spec0 c (V m c)
  hentry c := reg_entry m hO c
  hin c := by
    rw [show (rd m hO c).Φ 0 = Φc m c from rfl]; unfold Φc
    iintro ⟨-, Hp, Hr⟩
    isplitl [Hp] <;> iassumption
  hout c := by
    rw [Pipeline.ownSems0_none, show (rd m hO c).Φ (Fin.last _) = Φc m c from rfl]; unfold Φc
    iintro ⟨Hp, Hr⟩
    isplitl [Hp]; · iexact Hp
    isplitr; · iempintro
    iexact Hr
  hexit c := reg_exit m hO c

noncomputable def segT0 (hO : Ok m) : Pipeline.HostSeg (Name := ℕ) (U := UR sig nD τ) (pcfgs (F := F)) defs₀ 𝒱₀ L lv :=
  Pipeline.HostSeg.ofOps _ _ _ _ _ S' hostOps1 tsub1 fresh1 (Wx m hO) (R' m)
noncomputable def segT1 (hO : Ok m) : Pipeline.HostSeg (Name := ℕ) (U := UR sig nD τ) (pcfgs (F := F)) defs₀ 𝒱₀ L lv :=
  Pipeline.HostSeg.ofOps _ _ _ _ _ S' hostOps1_1 tsub1_1 fresh1_1 (X1 m hO) (R' m)

noncomputable abbrev segs (hO : Ok m) : List (Pipeline.RDat.Seg (pcfgs (F := F)) (admP m hO) (rdats m hO) () defs₀ 𝒱₀ L lv) :=
  [.host (segP0 m), .host (segP1 m), .host (segP2 m), .host (segP3 m), .host (segP4 m), .host (segP5 m),
   .region (reg m hO), .host (segT0 m hO), .host (segT1 m hO)]

theorem hmain (hO : Ok m) (c : Dev nD) (Q : PUnit → sProp 𝕄) :
    wp frame (wpE (Pipeline.defs (pcfgs (F := F)) defs₀) (Variants.lift 𝒱₀) (c : Thread nD τ) none) Set.univ (Pipeline.RDat.Seg.run (segs m hO)) Q
      ⊢ wp frame (wpE (Pipeline.defs (pcfgs (F := F)) defs₀) (Variants.lift 𝒱₀) (c : Thread nD τ) none) Set.univ (main (F := F) c) Q := by
  rw [Pipeline.RDat.Seg.run_eq_chain, main_chain]
  exact .rfl

noncomputable def u₀ (hO : Ok m) : UR sig nD τ :=
  initOf (Pipeline.cells (Pipeline.pin (pcfgs (F := F)) (admP m hO)) (cellOf_inj (admP m hO)))
    (Pipeline.launchToks (Pipeline.pin (pcfgs (F := F)) (admP m hO)) (cellOf_inj (admP m hO)))

set_option backward.isDefEq.respectTransparency.types false in

theorem run_main (hO : Ok m) : θ_run defs (onTc (τ := τ) (main (F := F))) ⟨m, fun _ => 0, ρ⟩
    (fun r => ∀ (c : Dev nD), ∀ b ∈ (S' : Finset (DevRef τ sig)), r.2.mem (c, b) = X2 m hO c b) :=
  Pipeline.RDat.θ_run_regions_kit (pcfgs (F := F)) (admP m hO) (rdats m hO) () (cellOf_inj (admP m hO)) emb₁ defs₀ 𝒱₀ L lv m ρ main (segs m hO)
    (hmain m hO)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀ m hO)
    (hu₀ := by
      unfold u₀
      iintro Hu; imodintro
      isplitl [Hu]
      · iapply (show (ownU _ : sProp 𝕄) ⊢ BI.own (emb₁ (initOf (Pipeline.cells (Pipeline.pin (pcfgs (F := F)) (admP m hO)) (cellOf_inj (admP m hO)))
          (Pipeline.launchToks (Pipeline.pin (pcfgs (F := F)) (admP m hO)) (cellOf_inj (admP m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) S (Vl m c) ∗ R c))
    (Tₙ := fun c => iprop(StableHlo.held (c : Thread nD τ) S' (X2 m hO c) ∗ Pipeline.prefHeld pre0 c (fun _ => fullShare) (tbl m)))
    (hch := ⟨fun _ => .rfl, fun _ => .rfl, fun _ => .rfl, fun _ => .rfl, fun _ => .rfl, fun _ => .rfl,
      fun c => Entails.of_eq (by
        show iprop(StableHlo.held (c : Thread nD τ) S (U6 m c) ∗ R c) = iprop(StableHlo.held (c : Thread nD τ) S (V0 m c) ∗ R c)
        rw [U6_eq]),
      fun _ => .rfl, fun _ => .rfl, fun c => by
        show iprop(StableHlo.held (c : Thread nD τ) S' (X2 m hO c) ∗ (Pipeline.prefHeld pre0 c (fun _ => fullShare) (tbl m) ∗ R c)) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) S (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ (S' : Finset (DevRef τ sig)), s.mem (c, b) = X2 m hO c b)
    (hfin := fun c s' => by
      have hr : iprop((bigSep (S' : Finset (DevRef τ sig)) fun b => ((((c : Dev nD), b) : Loc nD τ sig) ↦{fullShare} X2 m hO c b : sProp 𝕄)) ∗ SI s')
          ⊢ iprop(⌜∀ b ∈ (S' : Finset (DevRef τ sig)), s'.mem.mem ((c : Dev nD), b) = X2 m hO c b⌝ ∗ SI s') :=
        pointsTo_read_all (S' : Finset (DevRef τ sig)) (fun b => (((c : Dev nD), b) : Loc nD τ sig)) (fun b => X2 m hO c b) s'
      unfold StableHlo.held
      iintro ⟨⟨Hh, -⟩, HSI⟩
      ihave H := hr $$ [Hh HSI]
      · isplitl [Hh] <;> iassumption
      icases H with ⟨%h, HSI⟩
      imodintro
      isplitr; · ipureintro; exact h
      iexact HSI)
    (hQ := fun _ h c => h c)

end Cert.KB

end
-- ==== Proof.KB.Mem.lean ====
import proofs.«423535_j34024730919221_3_alg».proof.Proof.KB.Vals
import Idealize.ShloMosaic.Lib.Pipeline.FrameSuffix

set_option maxRecDepth 16384

noncomputable section

namespace Cert.KB

open Cert.Kernel
open Idealize.ShloMosaic Idealize.SL.Sem

theorem mem_S'_of_arr (w : Fin 9) : Proc.devRef .tc (Pipeline.arrRef spec0 w) ∈ (S' : Finset (DevRef τ sig)) := by
  unfold S' Pipeline.tailRefs
  rw [Finset.mem_map]
  exact ⟨Pipeline.arrRef spec0 w, Finset.mem_union_left _ (Finset.mem_image_of_mem _ (Finset.mem_univ w)), rfl⟩

theorem mem_S'_of_rest (b : Ref sig .tc) (hs : b.isScoped = false) (ha : ∀ w, (spec0 w).arr.view.ref ≠ b)
    (hp : ∀ k, pre0.ref k ≠ b) : Proc.devRef .tc b ∈ (S' : Finset (DevRef τ sig)) := by
  unfold S' Pipeline.tailRefs
  rw [Finset.mem_map]
  refine ⟨b, Finset.mem_union_right _ ?_, rfl⟩
  rw [Finset.mem_sdiff]
  refine ⟨Pipeline.mem_restRefs_of b hs ha, ?_⟩
  rw [Finset.mem_image]
  rintro ⟨k, -, hk⟩
  exact hp k hk

theorem mem_S'_v68 : Proc.devRef .tc main_v68 ∈ (S' : Finset (DevRef τ sig)) := mem_S'_of_rest main_v68 rfl (by decide) (by decide)

end Cert.KB

end
-- ==== Proof.KB.Host.lean ====
import proofs.«423535_j34024730919221_3_alg».proof.Proof.KB.Base
import proofs.«423535_j34024730919221_3_alg».proof.Proof.SortFacts
import proofs.«423535_j34024730919221_3_alg».proof.Proof.LibEdgeTable
import Idealize.ShloMosaic.Lib.StableHlo.Run
import Idealize.ShloMosaic.Lib.ValueIdx
import Idealize.ShloMosaic.Lib.Pipeline.Value

set_option maxRecDepth 16384

noncomputable section

namespace Cert.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable (m : (ℓ : Loc nD τ sig) → Buf (Elt F) ℓ)

local macro "pre_ops_list" : tactic =>
  `(tactic| simp only [preOps, hostOps0, hostOps0_1, hostOps0_2, hostOps0_3, hostOps0_4, hostOps0_5, List.flatten_cons, List.flatten_nil,
    List.append_nil, List.cons_append, List.nil_append])

noncomputable def written : List (Ref sig .tc) :=
  [main_c, main_v0, main_v1, main_c_0, main_v2, main_v3, main_v4, main_c_1, main_c_2,
   main_call0_v0, main_call0_v1, main_call0_v2, main_call0_v3, main_call0_v4, main_v5,
   main_call1_v0, main_call1_v1_0, main_v6,
   main_c_3, main_v7, main_v8, main_c_4, main_v9, main_v10, main_v11, main_v12, main_v13, main_c_5, main_v14, main_v15,
   main_c_6, main_v16, main_v17, main_v18, main_v19, main_v20,
   main_call2_v0, main_call2_v1_0, main_v21,
   main_v22, main_v23, main_v24, main_v25, main_v26]

theorem writes_sub : (preOps (F := F)).Forall fun op => op.writes ⊆ (written.map (Proc.devRef (τ := τ) .tc)).toFinset := by
  pre_ops_list
  simp only [List.Forall]; and_intros <;>
  exact Finset.singleton_subset_iff.mpr (List.mem_toFinset.mpr (List.mem_map_of_mem (by decide)))

theorem V_of_not_written (c : Dev nD) (b : Ref sig .tc) (hb : b ∉ written) : V m c b = m ((c : Thread nD τ).loc b) :=
  StableHlo.after_of_writes_sub (preOps (F := F)) (Vl m c) writes_sub hb

def clampIds (ids : (⟨S32, .i32⟩ : BufTy).Contents (Elt F)) : (⟨S32, .i32⟩ : BufTy).Contents (Elt F) :=
  minsi (broadcastInDim S32 ![] bcast_S_S32 (constantI S_ 32 4#32)) (maxsi (broadcastInDim S32 ![] bcast_S_S32 (constantI S_ 32 0#32)) ids)

def argsortOf (x : (⟨S32, .i32⟩ : BufTy).Contents (Elt F)) : (⟨S32, .i32⟩ : BufTy).Contents (Elt F) :=
  (Host.sort2 S32 0 comparator_i32_i32_d0 x (iotaInDim S32 32 0)).2

def normIdx (p : (⟨S32, .i32⟩ : BufTy).Contents (Elt F)) : (⟨S32, .i32⟩ : BufTy).Contents (Elt F) :=
  select (cmpi .slt p (broadcastInDim S32 ![] bcast_S_S32 (constantI S_ 32 0#32))) (addi p (broadcastInDim S32 ![] bcast_S_S32 (constantI S_ 32 32#32))) p

def takeAt {e : EltTy} (x : (⟨S32, e⟩ : BufTy).Contents (Elt F)) (p : (⟨S32, .i32⟩ : BufTy).Contents (Elt F)) : (⟨S32, e⟩ : BufTy).Contents (Elt F) :=
  Host.gather gather_S32_S32x1_S32_n_0_n_n_0_1_1 x (broadcastInDim S32x1 ![0] bcast_S32_S32x1_0 (normIdx p))

theorem V_v6 (c : Dev nD) : V m c main_v6 = argsortOf (clampIds (m ((c : Thread nD τ).loc main_arg2))) := by
  show StableHlo.after _ _ _ = _
  pre_ops_list
  after_results
  rfl

theorem V_v13 (c : Dev nD) : V m c main_v13 = takeAt (clampIds (m ((c : Thread nD τ).loc main_arg2))) (argsortOf (clampIds (m ((c : Thread nD τ).loc main_arg2)))) := by
  show StableHlo.after _ _ _ = _
  pre_ops_list
  after_results_simp
  rfl

theorem clampIds_apply (ids : (⟨S32, .i32⟩ : BufTy).Contents (Elt F)) (y : S32.Idx) :
    clampIds ids y = IntOp.minsi 4#32 (IntOp.maxsi 0#32 (ids y)) := rfl

theorem clamp_toNat_lt (w : BitVec 32) : (IntOp.minsi 4#32 (IntOp.maxsi 0#32 w)).toNat < 5 := by
  have h4 : (4#32 : BitVec 32).toInt = 4 := by decide
  have h0 : (0#32 : BitVec 32).toInt = 0 := by decide
  have hw := BitVec.toInt_eq_toNat_cond w
  have hlt := w.isLt
  by_cases hn : w.toInt < 0
  · have e : IntOp.maxsi 0#32 w = 0#32 := by simp [IntOp.maxsi, BitVec.slt, h0, hn]
    rw [e]; decide
  · have e : IntOp.maxsi 0#32 w = w := by simp [IntOp.maxsi, BitVec.slt, h0, hn]
    rw [e]
    by_cases hb : 4 < w.toInt
    · have e2 : IntOp.minsi 4#32 w = 4#32 := by simp [IntOp.minsi, BitVec.slt, h4, hb]
      rw [e2]; decide
    · have e2 : IntOp.minsi 4#32 w = w := by simp [IntOp.minsi, BitVec.slt, h4, hb]
      rw [e2]; split at hw <;> omega

theorem norm_id (w : BitVec 32) (h : w.toNat < 32) :
    Scalar.select (IntOp.cmpi .slt w 0#32) (IntOp.addi w 32#32) w = w := by
  have hw := BitVec.toInt_eq_toNat_cond w
  have h0 : (0#32 : BitVec 32).toInt = 0 := by decide
  have : ¬ w.toInt < 0 := by split at hw <;> omega
  simp [Scalar.select, IntOp.cmpi, BitVec.slt, h0, this]

theorem toInt_toNat_small (w : BitVec 32) (h : w.toNat < 32) : min w.toInt.toNat 31 = w.toNat := by
  have hw := BitVec.toInt_eq_toNat_cond w
  split at hw <;> omega

theorem argsortOf_eq (x : (⟨S32, .i32⟩ : BufTy).Contents (Elt F)) : argsortOf x = Cert.SortF.argsort x := rfl

theorem argsortOf_lt (x : (⟨S32, .i32⟩ : BufTy).Contents (Elt F)) (j : S32.Idx) : (argsortOf x j).toNat < 32 := by
  rw [argsortOf_eq]; exact Cert.SortF.argsort_toNat_lt _ j

theorem takeAt_apply {e : EltTy} (x : (⟨S32, e⟩ : BufTy).Contents (Elt F)) (p : (⟨S32, .i32⟩ : BufTy).Contents (Elt F))
    (hp : ∀ j, (p j).toNat < 32) (t : Fin 32) :
    takeAt x p (ValueIdx.ix1 t) = x (ValueIdx.ix1 ⟨(p (ValueIdx.ix1 t)).toNat, hp _⟩) := by
  unfold takeAt
  refine (Cert.LibEdgeTable.gather_pick_apply (n := 32) (k := 32) (by decide) _ x _ t).trans ?_
  have hb : broadcastInDim S32x1 ![0] bcast_S32_S32x1_0 (normIdx p) (ValueIdx.ix2 t (0 : Fin 1)) = p (ValueIdx.ix1 t) := by
    rw [broadcastInDim_apply _ _ _ _ (ValueIdx.ix1 t) (fun a => match a with | ⟨0, _⟩ => rfl)]
    exact norm_id _ (hp _)
  refine congrArg x (congrArg ValueIdx.ix1 (Fin.ext ?_))
  show min (broadcastInDim S32x1 ![0] bcast_S32_S32x1_0 (normIdx p) (ValueIdx.ix2 t (0 : Fin 1))).toInt.toNat (32 - 1) = _
  rw [hb]; exact toInt_toNat_small _ (hp _)

abbrev ids : (⟨S32, .i32⟩ : BufTy).Contents (Elt F) := m (((0 : Dev nD) : Thread nD τ).loc main_arg2)

theorem tbl0_eq : tbl m 0 = argsortOf (clampIds (ids m)) := V_v6 m 0

theorem tbl1_eq : tbl m 1 = takeAt (clampIds (ids m)) (argsortOf (clampIds (ids m))) := V_v13 m 0

theorem tbl0_lt : ∀ x, (tbl m 0 x).toNat < 32 := fun x => by
  rw [tbl0_eq]; exact argsortOf_lt _ x

theorem tbl1_apply (t : Fin 32) :
    tbl m 1 (ValueIdx.ix1 t) = clampIds (ids m) (ValueIdx.ix1 ⟨(tbl m 0 (ValueIdx.ix1 t)).toNat, tbl0_lt m _⟩) := by
  have h := takeAt_apply (clampIds (ids m)) (argsortOf (clampIds (ids m))) (argsortOf_lt _) t
  rw [tbl1_eq]
  refine h.trans ?_
  congr 1

theorem tbl1_lt : ∀ x, (tbl m 1 x).toNat < 5 := fun x => by
  have hx : ∀ y : S32.Idx, (tbl m 1 y).toNat < 5 := fun y => by
    obtain ⟨t, rfl⟩ : ∃ t : Fin 32, y = ValueIdx.ix1 t := ⟨y 0, ValueIdx.eq_ix1 y⟩
    rw [tbl1_apply, clampIds_apply]; exact clamp_toNat_lt _
  exact hx x

theorem inb3 {n A B w : Nat} (tr : Fin 3 → Nat) (hw : w < n) (e : tr = ![w, 0, 0]) (a : Fin 3) :
    (tr a + 1) * (⟨3, ![1, A, B]⟩ : Shape).size a ≤ (⟨3, ![n, A, B]⟩ : Shape).size a := by
  subst e; fin_cases a <;> simp <;> omega

theorem ok : Ok m :=
  ⟨fun i => ⟨inb3 _ (tbl0_lt m _) rfl, Or.inl rfl⟩, fun i => ⟨inb3 _ (tbl0_lt m _) rfl, Or.inl rfl⟩,
   fun i => ⟨inb3 _ (tbl1_lt m _) rfl, Or.inl rfl⟩, fun i => ⟨inb3 _ (tbl1_lt m _) rfl, Or.inl rfl⟩,
   fun i => ⟨inb3 _ (tbl1_lt m _) rfl, Or.inl rfl⟩, fun i => ⟨inb3 _ (tbl1_lt m _) rfl, Or.inl rfl⟩,
   fun i => ⟨inb3 _ (tbl1_lt m _) rfl, Or.inl rfl⟩, fun i => ⟨inb3 _ (tbl1_lt m _) rfl, Or.inl rfl⟩⟩

end Cert.KB

end
-- ==== Proof.KB.Tail.lean ====
import proofs.«423535_j34024730919221_3_alg».proof.Proof.KB.Mem
import proofs.«423535_j34024730919221_3_alg».proof.Proof.KB.Host
import Idealize.ShloMosaic.Lib.StableHlo.Run

set_option maxRecDepth 16384

noncomputable section

namespace Cert.KB

open Cert.Kernel Cert.Kernel.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

noncomputable def written1 : List (Ref sig .tc) :=
  [main_v28, main_v29, main_v30, main_v31, main_c_7, main_v32, main_v33, main_c_8, main_v34, main_v35, main_v36, main_v37, main_v38,
   main_v39, main_v40, main_v41, main_v42, main_v43, main_cst, main_v44, main_v45, main_cst_9, main_v46, main_v47, main_v48, main_v49,
   main_v50, main_cst_10, main_v51, main_v52, main_cst_11, main_v53, main_v54, main_v55, main_v56, main_cst_12, main_v57, main_v58,
   main_v59, main_v60, main_v61, main_v62, main_v63, main_v64, main_v65, main_v66, main_v67]

noncomputable def written2 : List (Ref sig .tc) := [main_call3_cst, main_call3_v0, main_v68]

theorem writes_sub1 : (hostOps1 (F := F)).Forall fun op => op.writes ⊆ (written1.map (Proc.devRef (τ := τ) .tc)).toFinset := by
  simp only [hostOps1, List.Forall]; and_intros <;>
  exact Finset.singleton_subset_iff.mpr (List.mem_toFinset.mpr (List.mem_map_of_mem (by decide)))

theorem writes_sub2 : (hostOps1_1 (F := F)).Forall fun op => op.writes ⊆ (written2.map (Proc.devRef (τ := τ) .tc)).toFinset := by
  simp only [hostOps1_1, List.Forall]; and_intros <;>
  exact Finset.singleton_subset_iff.mpr (List.mem_toFinset.mpr (List.mem_map_of_mem (by decide)))

theorem X2_of_not_written (hO : Ok m) (c : Dev nD) (b : Ref sig .tc) (h1 : b ∉ written1) (h2 : b ∉ written2) :
    X2 m hO c (Proc.devRef .tc b) = Wx m hO c (Proc.devRef .tc b) :=
  (StableHlo.after_of_writes_sub (hostOps1_1 (F := F)) (X1 m hO c) writes_sub2 h2).trans
    (StableHlo.after_of_writes_sub (hostOps1 (F := F)) (Wx m hO c) writes_sub1 h1)

theorem Wx_bypass (hO : Ok m) (c : Dev nD) (b : Ref sig .tc) (hw : ∀ w, Pipeline.arrRef spec0 w ≠ b) (h0 : b ∉ written) :
    Wx m hO c (Proc.devRef .tc b) = m ((c : Thread nD τ).loc b) :=
  (Pipeline.withArrays_of_ne spec0 c (V0 m c) (Afin m hO c) b hw).trans (V_of_not_written m c b h0)

theorem Wx_arr (hO : Ok m) (c : Dev nD) (w : Fin 9) :
    Wx m hO c (Proc.devRef .tc (Pipeline.arrRef spec0 w)) = Afin m hO c w :=
  Pipeline.withArrays_arr spec0 winFacts0.arr_inj c (V0 m c) (Afin m hO c) w

noncomputable def argRefs : List (Ref sig .tc) :=
  [main_arg0, main_arg1, main_arg2, main_arg3, main_arg4, main_arg5, main_arg6, main_arg7, main_arg8, main_arg9, main_arg10, main_arg11,
   main_arg12, main_arg13]

-- an input window's array is handed back by the region as the host operations before it left it
theorem arr_kept (hO : Ok m) (c : Dev nD) (w : Fin 9) (hA : Afin m hO c w = V m c (Pipeline.arrRef spec0 w))
    (h1 : Pipeline.arrRef spec0 w ∉ written1) (h2 : Pipeline.arrRef spec0 w ∉ written2) (h0 : Pipeline.arrRef spec0 w ∉ written) :
    Proc.devRef .tc (Pipeline.arrRef spec0 w) ∈ (S' : Finset (DevRef τ sig))
      ∧ X2 m hO c (Proc.devRef .tc (Pipeline.arrRef spec0 w)) = m (c, Proc.devRef .tc (Pipeline.arrRef spec0 w)) :=
  ⟨mem_S'_of_arr w, (X2_of_not_written m hO c _ h1 h2).trans ((Wx_arr m hO c w).trans (hA.trans (V_of_not_written m c _ h0)))⟩

-- every argument is among the buffers the run accounts for and ends at its launch contents: three are input windows' arrays,
-- the others bypass the region; no host operation writes any of them
theorem arg_kept (hO : Ok m) (c : Dev nD) (b : Ref sig .tc) (hb : b ∈ argRefs) :
    Proc.devRef .tc b ∈ (S' : Finset (DevRef τ sig)) ∧ X2 m hO c (Proc.devRef .tc b) = m (c, Proc.devRef .tc b) := by
  simp only [argRefs, List.mem_cons, List.not_mem_nil, or_false] at hb
  rcases hb with rfl | rfl | rfl | rfl | rfl | rfl | rfl | rfl | rfl | rfl | rfl | rfl | rfl | rfl
  all_goals first
    | exact ⟨mem_S'_of_rest _ rfl (by decide) (by decide), (X2_of_not_written m hO c _ (by decide) (by decide)).trans (Wx_bypass m hO c _ (by decide) (by decide))⟩
    | exact arr_kept m hO c 0 rfl (by decide) (by decide) (by decide)
    | exact arr_kept m hO c 2 rfl (by decide) (by decide) (by decide)
    | exact arr_kept m hO c 6 rfl (by decide) (by decide) (by decide)

theorem kept (hO : Ok m) (c : Dev nD) {mem : (ℓ : Loc nD τ sig) → Buf (Elt F) ℓ}
    (h : ∀ b ∈ (S' : Finset (DevRef τ sig)), mem (c, b) = X2 m hO c b) (b : Ref sig .tc) (hb : b ∈ argRefs) :
    mem (c, Proc.devRef .tc b) = m (c, Proc.devRef .tc b) :=
  (h _ (arg_kept m hO c b hb).1).trans (arg_kept m hO c b hb).2

end Cert.KB

end
-- ==== Proof.Frames.lean ====
import proofs.«423535_j34024730919221_3_alg».proof.Defs
import proofs.«423535_j34024730919221_3_alg».proof.Proof.Gen.Pre_finite_inputs
import proofs.«423535_j34024730919221_3_alg».proof.Proof.KI.Run
import proofs.«423535_j34024730919221_3_alg».proof.Proof.KI.Tail
import proofs.«423535_j34024730919221_3_alg».proof.Proof.KB.Run
import proofs.«423535_j34024730919221_3_alg».proof.Proof.KB.Tail

set_option maxRecDepth 16384

noncomputable section

namespace Cert.Proof.Fin

open Idealize.ShloMosaic Idealize.SL.Sem

-- a kernel's frame is its run with everything but the fourteen arguments dropped
open Cert.KernelIdeal in
theorem frame_ki : Cert.frame_KernelIdeal (hKernelIdeal := Cert.KernelIdeal.Gen.facts) (hPre_finite_inputs := Cert.Pre_finite_inputs.Gen.facts) :=
  fun m g _ => (θ_run Cert.KernelIdeal.defs _ _).mono (fun r h c =>
    have k := Cert.KI.kept m (Cert.KI.ok m) c (h c)
    ⟨k main_arg0 (by decide), k main_arg1 (by decide), k main_arg2 (by decide), k main_arg3 (by decide), k main_arg4 (by decide), k main_arg5 (by decide), k main_arg6 (by decide),
     k main_arg7 (by decide), k main_arg8 (by decide), k main_arg9 (by decide), k main_arg10 (by decide), k main_arg11 (by decide), k main_arg12 (by decide), k main_arg13 (by decide)⟩)
    (Cert.KI.run_main m g (Cert.KI.ok m))

open Cert.Kernel in
theorem frame_k : Cert.frame_Kernel (hKernel := Cert.Kernel.Gen.facts) (hPre_finite_inputs := Cert.Pre_finite_inputs.Gen.facts) :=
  fun m g _ => (θ_run Cert.Kernel.defs _ _).mono (fun r h c =>
    have k := Cert.KB.kept m (Cert.KB.ok m) c (h c)
    ⟨k main_arg0 (by decide), k main_arg1 (by decide), k main_arg2 (by decide), k main_arg3 (by decide), k main_arg4 (by decide), k main_arg5 (by decide), k main_arg6 (by decide),
     k main_arg7 (by decide), k main_arg8 (by decide), k main_arg9 (by decide), k main_arg10 (by decide), k main_arg11 (by decide), k main_arg12 (by decide), k main_arg13 (by decide)⟩)
    (Cert.KB.run_main m g (Cert.KB.ok m))

end Cert.Proof.Fin

end
-- ==== Proof.Ref1.lean ====
import proofs.«423535_j34024730919221_3_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

abbrev CF (F : FTy → Type) (s : Shape) : Type := (⟨s, .f32⟩ : BufTy).Contents (Elt F)
abbrev CI (F : FTy → Type) (s : Shape) : Type := (⟨s, .i32⟩ : BufTy).Contents (Elt F)

local macro "bufs_sub" : tactic => `(tactic| simp only [List.Forall, nullary_bufs_sub, unary_bufs_sub, binary_bufs_sub, reshape_bufs_sub, and_self])

local macro "writes_sub" : tactic => `(tactic| (simp only [List.Forall]; and_intros <;>
  (simp only [nullary_writes, unary_writes, binary_writes, reshape_writes, Finset.singleton_subset_iff, List.mem_toFinset]
   exact List.mem_map_of_mem (by decide))))

noncomputable abbrev ops0 : List (HloOp τ sig (Elt F)) :=
  [ nullary main_cst (constant S_ .f32 0x00000000#32),
    unary main_cst main_v0 (broadcastInDim S32x512x1024 ![] bcast_S_S32x512x1024 : CF F S_ → CF F S32x512x1024),
    unary main_arg4 main_v1 ((extractStridedSlice S1x1024x1024 ![0, 0, 0] · slices_S5x1024x1024_S1x1024x1024_0_0_0) : CF F S5x1024x1024 → CF F S1x1024x1024),
    reshape main_v1 main_v2 rfl shapeCasts_S1x1024x1024_S1024x1024,
    binary main_arg0 main_v2 main_v3 ((fun l r => Host.dotGeneral dot_S32x512x1024_S1024x1024_S32x512x1024_2_0_01_1_n_n none l r) : CF F S32x512x1024 → CF F S1024x1024 → CF F S32x512x1024),
    unary main_arg5 main_v4 ((extractStridedSlice S1x1024 ![0, 0] · slices_S5x1024_S1x1024_0_0) : CF F S5x1024 → CF F S1x1024),
    reshape main_v4 main_v5 rfl shapeCasts_S1x1024_S1024,
    unary main_v5 main_v6 (broadcastInDim S1x1x1024 ![2] bcast_S1024_S1x1x1024_2 : CF F S1024 → CF F S1x1x1024),
    unary main_v6 main_v7 (broadcastInDim S32x512x1024 ![0, 1, 2] bcast_S1x1x1024_S32x512x1024_0_1_2 : CF F S1x1x1024 → CF F S32x512x1024),
    binary main_v3 main_v7 main_v8 (addf : CF F S32x512x1024 → CF F S32x512x1024 → CF F S32x512x1024),
    unary main_arg6 main_v9 ((extractStridedSlice S1x1024 ![0, 0] · slices_S5x1024_S1x1024_0_0) : CF F S5x1024 → CF F S1x1024),
    reshape main_v9 main_v10 rfl shapeCasts_S1x1024_S1024,
    unary main_arg7 main_v11 ((extractStridedSlice S1x1024 ![0, 0] · slices_S5x1024_S1x1024_0_0) : CF F S5x1024 → CF F S1x1024),
    reshape main_v11 main_v12 rfl shapeCasts_S1x1024_S1024,
    nullary main_cst_0 (constant S_ .f32 0x00000000#32),
    binary main_v8 main_cst_0 main_v13 ((fun x v => Host.reduceAdd x v reducesTo_S32x512x1024_S32x512_d2 h_S_) : CF F S32x512x1024 → CF F S_ → CF F S32x512),
    unary main_v13 main_v14 (broadcastInDim S32x512x1 ![0, 1] bcast_S32x512_S32x512x1_0_1 : CF F S32x512 → CF F S32x512x1),
    nullary main_cst_1 (constant S_ .f32 0x44800000#32),
    unary main_cst_1 main_v15 (broadcastInDim S32x512x1 ![] bcast_S_S32x512x1 : CF F S_ → CF F S32x512x1),
    binary main_v14 main_v15 main_v16 (Host.divf : CF F S32x512x1 → CF F S32x512x1 → CF F S32x512x1),
    unary main_v16 main_v17 (broadcastInDim S32x512x1024 ![0, 1, 2] bcast_S32x512x1_S32x512x1024_0_1_2 : CF F S32x512x1 → CF F S32x512x1024),
    binary main_v8 main_v17 main_v18 (subf : CF F S32x512x1024 → CF F S32x512x1024 → CF F S32x512x1024),
    binary main_v18 main_v18 main_v19 (mulf : CF F S32x512x1024 → CF F S32x512x1024 → CF F S32x512x1024),
    nullary main_cst_2 (constant S_ .f32 0x00000000#32),
    binary main_v19 main_cst_2 main_v20 ((fun x v => Host.reduceAdd x v reducesTo_S32x512x1024_S32x512_d2 h_S_) : CF F S32x512x1024 → CF F S_ → CF F S32x512),
    unary main_v20 main_v21 (broadcastInDim S32x512x1 ![0, 1] bcast_S32x512_S32x512x1_0_1 : CF F S32x512 → CF F S32x512x1),
    nullary main_cst_3 (constant S_ .f32 0x44800000#32),
    unary main_cst_3 main_v22 (broadcastInDim S32x512x1 ![] bcast_S_S32x512x1 : CF F S_ → CF F S32x512x1),
    binary main_v21 main_v22 main_v23 (Host.divf : CF F S32x512x1 → CF F S32x512x1 → CF F S32x512x1),
    unary main_v16 main_v24 (broadcastInDim S32x512x1024 ![0, 1, 2] bcast_S32x512x1_S32x512x1024_0_1_2 : CF F S32x512x1 → CF F S32x512x1024),
    binary main_v8 main_v24 main_v25 (subf : CF F S32x512x1024 → CF F S32x512x1024 → CF F S32x512x1024),
    nullary main_cst_4 (constant S_ .f32 0x3727C5AC#32),
    unary main_cst_4 main_v26 (broadcastInDim S32x512x1 ![] bcast_S_S32x512x1 : CF F S_ → CF F S32x512x1),
    binary main_v23 main_v26 main_v27 (addf : CF F S32x512x1 → CF F S32x512x1 → CF F S32x512x1),
    unary main_v27 main_v28 (Host.rsqrt : CF F S32x512x1 → CF F S32x512x1),
    unary main_v28 main_v29 (broadcastInDim S32x512x1024 ![0, 1, 2] bcast_S32x512x1_S32x512x1024_0_1_2 : CF F S32x512x1 → CF F S32x512x1024),
    binary main_v25 main_v29 main_v30 (mulf : CF F S32x512x1024 → CF F S32x512x1024 → CF F S32x512x1024),
    unary main_v10 main_v31 (broadcastInDim S1x1x1024 ![2] bcast_S1024_S1x1x1024_2 : CF F S1024 → CF F S1x1x1024),
    unary main_v31 main_v32 (broadcastInDim S32x512x1024 ![0, 1, 2] bcast_S1x1x1024_S32x512x1024_0_1_2 : CF F S1x1x1024 → CF F S32x512x1024),
    binary main_v30 main_v32 main_v33 (mulf : CF F S32x512x1024 → CF F S32x512x1024 → CF F S32x512x1024),
    unary main_v12 main_v34 (broadcastInDim S1x1x1024 ![2] bcast_S1024_S1x1x1024_2 : CF F S1024 → CF F S1x1x1024),
    unary main_v34 main_v35 (broadcastInDim S32x512x1024 ![0, 1, 2] bcast_S1x1x1024_S32x512x1024_0_1_2 : CF F S1x1x1024 → CF F S32x512x1024),
    binary main_v33 main_v35 main_v36 (addf : CF F S32x512x1024 → CF F S32x512x1024 → CF F S32x512x1024),
    TRef.nullary (TRef.of (T := ⟨S_, .f32⟩) main_call0_cst) (constant S_ .f32 0x00000000#32),
    TRef.unary (TRef.of (T := ⟨S_, .f32⟩) main_call0_cst) (TRef.of (T := ⟨S32x512x1024, .f32⟩) main_call0_v0) (broadcastInDim S32x512x1024 ![] bcast_S_S32x512x1024),
    TRef.binary (TRef.of (T := ⟨S32x512x1024, .f32⟩) main_v36) (TRef.of (T := ⟨S32x512x1024, .f32⟩) main_call0_v0) (TRef.of (T := ⟨S32x512x1024, .f32⟩) main_v37) maximumf,
    unary main_arg8 main_v38 ((extractStridedSlice S1x1024x1024 ![0, 0, 0] · slices_S5x1024x1024_S1x1024x1024_0_0_0) : CF F S5x1024x1024 → CF F S1x1024x1024),
    reshape main_v38 main_v39 rfl shapeCasts_S1x1024x1024_S1024x1024,
    binary main_v37 main_v39 main_v40 ((fun l r => Host.dotGeneral dot_S32x512x1024_S1024x1024_S32x512x1024_2_0_01_1_n_n none l r) : CF F S32x512x1024 → CF F S1024x1024 → CF F S32x512x1024),
    unary main_arg9 main_v41 ((extractStridedSlice S1x1024 ![0, 0] · slices_S5x1024_S1x1024_0_0) : CF F S5x1024 → CF F S1x1024),
    reshape main_v41 main_v42 rfl shapeCasts_S1x1024_S1024,
    unary main_v42 main_v43 (broadcastInDim S1x1x1024 ![2] bcast_S1024_S1x1x1024_2 : CF F S1024 → CF F S1x1x1024),
    unary main_v43 main_v44 (broadcastInDim S32x512x1024 ![0, 1, 2] bcast_S1x1x1024_S32x512x1024_0_1_2 : CF F S1x1x1024 → CF F S32x512x1024),
    binary main_v40 main_v44 main_v45 (addf : CF F S32x512x1024 → CF F S32x512x1024 → CF F S32x512x1024),
    nullary main_c (constantI S_ 32 0#32),
    unary main_c main_v46 (broadcastInDim S32 ![] bcast_S_S32 : CI F S_ → CI F S32),
    binary main_arg2 main_v46 main_v47 (cmpi .eq : CI F S32 → CI F S32 → (⟨S32, .i1⟩ : BufTy).Contents (Elt F)),
    unary main_v47 main_v48 (uitofp .f32 : (⟨S32, .i1⟩ : BufTy).Contents (Elt F) → CF F S32),
    unary main_v48 main_v49 (broadcastInDim S32x1x1 ![0] bcast_S32_S32x1x1_0 : CF F S32 → CF F S32x1x1),
    unary main_v49 main_v50 (broadcastInDim S32x512x1024 ![0, 1, 2] bcast_S32x1x1_S32x512x1024_0_1_2 : CF F S32x1x1 → CF F S32x512x1024),
    binary main_v50 main_v45 main_v51 (mulf : CF F S32x512x1024 → CF F S32x512x1024 → CF F S32x512x1024),
    binary main_v0 main_v51 main_v52 (addf : CF F S32x512x1024 → CF F S32x512x1024 → CF F S32x512x1024) ]

set_option maxRecDepth 8192 in
theorem main_part0_eq (c : Dev nD) : main_part0 (F := F) c = seq ops0 := rfl

set_option maxRecDepth 8192 in
theorem ops0_sub : (ops0 : List (HloOp τ sig (Elt F))).Forall fun op => op.bufs ⊆ tcRefs τ sig := by bufs_sub

set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h

noncomputable abbrev ops1 : List (HloOp τ sig (Elt F)) :=
  [ unary main_arg4 main_v53 ((extractStridedSlice S1x1024x1024 ![1, 0, 0] · slices_S5x1024x1024_S1x1024x1024_1_0_0) : CF F S5x1024x1024 → CF F S1x1024x1024),
    reshape main_v53 main_v54 rfl shapeCasts_S1x1024x1024_S1024x1024,
    binary main_arg0 main_v54 main_v55 ((fun l r => Host.dotGeneral dot_S32x512x1024_S1024x1024_S32x512x1024_2_0_01_1_n_n none l r) : CF F S32x512x1024 → CF F S1024x1024 → CF F S32x512x1024),
    unary main_arg5 main_v56 ((extractStridedSlice S1x1024 ![1, 0] · slices_S5x1024_S1x1024_1_0) : CF F S5x1024 → CF F S1x1024),
    reshape main_v56 main_v57 rfl shapeCasts_S1x1024_S1024,
    unary main_v57 main_v58 (broadcastInDim S1x1x1024 ![2] bcast_S1024_S1x1x1024_2 : CF F S1024 → CF F S1x1x1024),
    unary main_v58 main_v59 (broadcastInDim S32x512x1024 ![0, 1, 2] bcast_S1x1x1024_S32x512x1024_0_1_2 : CF F S1x1x1024 → CF F S32x512x1024),
    binary main_v55 main_v59 main_v60 (addf : CF F S32x512x1024 → CF F S32x512x1024 → CF F S32x512x1024),
    unary main_arg6 main_v61 ((extractStridedSlice S1x1024 ![1, 0] · slices_S5x1024_S1x1024_1_0) : CF F S5x1024 → CF F S1x1024),
    reshape main_v61 main_v62 rfl shapeCasts_S1x1024_S1024,
    unary main_arg7 main_v63 ((extractStridedSlice S1x1024 ![1, 0] · slices_S5x1024_S1x1024_1_0) : CF F S5x1024 → CF F S1x1024),
    reshape main_v63 main_v64 rfl shapeCasts_S1x1024_S1024,
    nullary main_cst_5 (constant S_ .f32 0x00000000#32),
    binary main_v60 main_cst_5 main_v65 ((fun x v => Host.reduceAdd x v reducesTo_S32x512x1024_S32x512_d2 h_S_) : CF F S32x512x1024 → CF F S_ → CF F S32x512),
    unary main_v65 main_v66 (broadcastInDim S32x512x1 ![0, 1] bcast_S32x512_S32x512x1_0_1 : CF F S32x512 → CF F S32x512x1),
    nullary main_cst_6 (constant S_ .f32 0x44800000#32),
    unary main_cst_6 main_v67 (broadcastInDim S32x512x1 ![] bcast_S_S32x512x1 : CF F S_ → CF F S32x512x1),
    binary main_v66 main_v67 main_v68 (Host.divf : CF F S32x512x1 → CF F S32x512x1 → CF F S32x512x1),
    unary main_v68 main_v69 (broadcastInDim S32x512x1024 ![0, 1, 2] bcast_S32x512x1_S32x512x1024_0_1_2 : CF F S32x512x1 → CF F S32x512x1024),
    binary main_v60 main_v69 main_v70 (subf : CF F S32x512x1024 → CF F S32x512x1024 → CF F S32x512x1024),
    binary main_v70 main_v70 main_v71 (mulf : CF F S32x512x1024 → CF F S32x512x1024 → CF F S32x512x1024),
    nullary main_cst_7 (constant S_ .f32 0x00000000#32),
    binary main_v71 main_cst_7 main_v72 ((fun x v => Host.reduceAdd x v reducesTo_S32x512x1024_S32x512_d2 h_S_) : CF F S32x512x1024 → CF F S_ → CF F S32x512),
    unary main_v72 main_v73 (broadcastInDim S32x512x1 ![0, 1] bcast_S32x512_S32x512x1_0_1 : CF F S32x512 → CF F S32x512x1),
    nullary main_cst_8 (constant S_ .f32 0x44800000#32),
    unary main_cst_8 main_v74 (broadcastInDim S32x512x1 ![] bcast_S_S32x512x1 : CF F S_ → CF F S32x512x1),
    binary main_v73 main_v74 main_v75 (Host.divf : CF F S32x512x1 → CF F S32x512x1 → CF F S32x512x1),
    unary main_v68 main_v76 (broadcastInDim S32x512x1024 ![0, 1, 2] bcast_S32x512x1_S32x512x1024_0_1_2 : CF F S32x512x1 → CF F S32x512x1024),
    binary main_v60 main_v76 main_v77 (subf : CF F S32x512x1024 → CF F S32x512x1024 → CF F S32x512x1024),
    nullary main_cst_9 (constant S_ .f32 0x3727C5AC#32),
    unary main_cst_9 main_v78 (broadcastInDim S32x512x1 ![] bcast_S_S32x512x1 : CF F S_ → CF F S32x512x1),
    binary main_v75 main_v78 main_v79 (addf : CF F S32x512x1 → CF F S32x512x1 → CF F S32x512x1),
    unary main_v79 main_v80 (Host.rsqrt : CF F S32x512x1 → CF F S32x512x1),
    unary main_v80 main_v81 (broadcastInDim S32x512x1024 ![0, 1, 2] bcast_S32x512x1_S32x512x1024_0_1_2 : CF F S32x512x1 → CF F S32x512x1024),
    binary main_v77 main_v81 main_v82 (mulf : CF F S32x512x1024 → CF F S32x512x1024 → CF F S32x512x1024),
    unary main_v62 main_v83 (broadcastInDim S1x1x1024 ![2] bcast_S1024_S1x1x1024_2 : CF F S1024 → CF F S1x1x1024),
    unary main_v83 main_v84 (broadcastInDim S32x512x1024 ![0, 1, 2] bcast_S1x1x1024_S32x512x1024_0_1_2 : CF F S1x1x1024 → CF F S32x512x1024),
    binary main_v82 main_v84 main_v85 (mulf : CF F S32x512x1024 → CF F S32x512x1024 → CF F S32x512x1024),
    unary main_v64 main_v86 (broadcastInDim S1x1x1024 ![2] bcast_S1024_S1x1x1024_2 : CF F S1024 → CF F S1x1x1024),
    unary main_v86 main_v87 (broadcastInDim S32x512x1024 ![0, 1, 2] bcast_S1x1x1024_S32x512x1024_0_1_2 : CF F S1x1x1024 → CF F S32x512x1024),
    binary main_v85 main_v87 main_v88 (addf : CF F S32x512x1024 → CF F S32x512x1024 → CF F S32x512x1024),
    TRef.nullary (TRef.of (T := ⟨S_, .f32⟩) main_call1_cst) (constant S_ .f32 0x00000000#32),
    TRef.unary (TRef.of (T := ⟨S_, .f32⟩) main_call1_cst) (TRef.of (T := ⟨S32x512x1024, .f32⟩) main_call1_v0) (broadcastInDim S32x512x1024 ![] bcast_S_S32x512x1024),
    TRef.binary (TRef.of (T := ⟨S32x512x1024, .f32⟩) main_v88) (TRef.of (T := ⟨S32x512x1024, .f32⟩) main_call1_v0) (TRef.of (T := ⟨S32x512x1024, .f32⟩) main_v89) maximumf,
    unary main_arg8 main_v90 ((extractStridedSlice S1x1024x1024 ![1, 0, 0] · slices_S5x1024x1024_S1x1024x1024_1_0_0) : CF F S5x1024x1024 → CF F S1x1024x1024),
    reshape main_v90 main_v91 rfl shapeCasts_S1x1024x1024_S1024x1024,
    binary main_v89 main_v91 main_v92 ((fun l r => Host.dotGeneral dot_S32x512x1024_S1024x1024_S32x512x1024_2_0_01_1_n_n none l r) : CF F S32x512x1024 → CF F S1024x1024 → CF F S32x512x1024),
    unary main_arg9 main_v93 ((extractStridedSlice S1x1024 ![1, 0] · slices_S5x1024_S1x1024_1_0) : CF F S5x1024 → CF F S1x1024),
    reshape main_v93 main_v94 rfl shapeCasts_S1x1024_S1024,
    unary main_v94 main_v95 (broadcastInDim S1x1x1024 ![2] bcast_S1024_S1x1x1024_2 : CF F S1024 → CF F S1x1x1024),
    unary main_v95 main_v96 (broadcastInDim S32x512x1024 ![0, 1, 2] bcast_S1x1x1024_S32x512x1024_0_1_2 : CF F S1x1x1024 → CF F S32x512x1024),
    binary main_v92 main_v96 main_v97 (addf : CF F S32x512x1024 → CF F S32x512x1024 → CF F S32x512x1024),
    nullary main_c_10 (constantI S_ 32 1#32),
    unary main_c_10 main_v98 (broadcastInDim S32 ![] bcast_S_S32 : CI F S_ → CI F S32),
    binary main_arg2 main_v98 main_v99 (cmpi .eq : CI F S32 → CI F S32 → (⟨S32, .i1⟩ : BufTy).Contents (Elt F)),
    unary main_v99 main_v100 (uitofp .f32 : (⟨S32, .i1⟩ : BufTy).Contents (Elt F) → CF F S32),
    unary main_v100 main_v101 (broadcastInDim S32x1x1 ![0] bcast_S32_S32x1x1_0 : CF F S32 → CF F S32x1x1),
    unary main_v101 main_v102 (broadcastInDim S32x512x1024 ![0, 1, 2] bcast_S32x1x1_S32x512x1024_0_1_2 : CF F S32x1x1 → CF F S32x512x1024),
    binary main_v102 main_v97 main_v103 (mulf : CF F S32x512x1024 → CF F S32x512x1024 → CF F S32x512x1024),
    binary main_v52 main_v103 main_v104 (addf : CF F S32x512x1024 → CF F S32x512x1024 → CF F S32x512x1024),
    unary main_arg4 main_v105 ((extractStridedSlice S1x1024x1024 ![2, 0, 0] · slices_S5x1024x1024_S1x1024x1024_2_0_0) : CF F S5x1024x1024 → CF F S1x1024x1024),
    reshape main_v105 main_v106 rfl shapeCasts_S1x1024x1024_S1024x1024 ]

set_option maxRecDepth 8192 in
theorem main_part1_eq (c : Dev nD) : main_part1 (F := F) c = seq ops1 := rfl

set_option maxRecDepth 8192 in
theorem ops1_sub : (ops1 : List (HloOp τ sig (Elt F))).Forall fun op => op.bufs ⊆ tcRefs τ sig := by bufs_sub

set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h

noncomputable abbrev ops2 : List (HloOp τ sig (Elt F)) :=
  [ binary main_arg0 main_v106 main_v107 ((fun l r => Host.dotGeneral dot_S32x512x1024_S1024x1024_S32x512x1024_2_0_01_1_n_n none l r) : CF F S32x512x1024 → CF F S1024x1024 → CF F S32x512x1024),
    unary main_arg5 main_v108 ((extractStridedSlice S1x1024 ![2, 0] · slices_S5x1024_S1x1024_2_0) : CF F S5x1024 → CF F S1x1024),
    reshape main_v108 main_v109 rfl shapeCasts_S1x1024_S1024,
    unary main_v109 main_v110 (broadcastInDim S1x1x1024 ![2] bcast_S1024_S1x1x1024_2 : CF F S1024 → CF F S1x1x1024),
    unary main_v110 main_v111 (broadcastInDim S32x512x1024 ![0, 1, 2] bcast_S1x1x1024_S32x512x1024_0_1_2 : CF F S1x1x1024 → CF F S32x512x1024),
    binary main_v107 main_v111 main_v112 (addf : CF F S32x512x1024 → CF F S32x512x1024 → CF F S32x512x1024),
    unary main_arg6 main_v113 ((extractStridedSlice S1x1024 ![2, 0] · slices_S5x1024_S1x1024_2_0) : CF F S5x1024 → CF F S1x1024),
    reshape main_v113 main_v114 rfl shapeCasts_S1x1024_S1024,
    unary main_arg7 main_v115 ((extractStridedSlice S1x1024 ![2, 0] · slices_S5x1024_S1x1024_2_0) : CF F S5x1024 → CF F S1x1024),
    reshape main_v115 main_v116 rfl shapeCasts_S1x1024_S1024,
    nullary main_cst_11 (constant S_ .f32 0x00000000#32),
    binary main_v112 main_cst_11 main_v117 ((fun x v => Host.reduceAdd x v reducesTo_S32x512x1024_S32x512_d2 h_S_) : CF F S32x512x1024 → CF F S_ → CF F S32x512),
    unary main_v117 main_v118 (broadcastInDim S32x512x1 ![0, 1] bcast_S32x512_S32x512x1_0_1 : CF F S32x512 → CF F S32x512x1),
    nullary main_cst_12 (constant S_ .f32 0x44800000#32),
    unary main_cst_12 main_v119 (broadcastInDim S32x512x1 ![] bcast_S_S32x512x1 : CF F S_ → CF F S32x512x1),
    binary main_v118 main_v119 main_v120 (Host.divf : CF F S32x512x1 → CF F S32x512x1 → CF F S32x512x1),
    unary main_v120 main_v121 (broadcastInDim S32x512x1024 ![0, 1, 2] bcast_S32x512x1_S32x512x1024_0_1_2 : CF F S32x512x1 → CF F S32x512x1024),
    binary main_v112 main_v121 main_v122 (subf : CF F S32x512x1024 → CF F S32x512x1024 → CF F S32x512x1024),
    binary main_v122 main_v122 main_v123 (mulf : CF F S32x512x1024 → CF F S32x512x1024 → CF F S32x512x1024),
    nullary main_cst_13 (constant S_ .f32 0x00000000#32),
    binary main_v123 main_cst_13 main_v124 ((fun x v => Host.reduceAdd x v reducesTo_S32x512x1024_S32x512_d2 h_S_) : CF F S32x512x1024 → CF F S_ → CF F S32x512),
    unary main_v124 main_v125 (broadcastInDim S32x512x1 ![0, 1] bcast_S32x512_S32x512x1_0_1 : CF F S32x512 → CF F S32x512x1),
    nullary main_cst_14 (constant S_ .f32 0x44800000#32),
    unary main_cst_14 main_v126 (broadcastInDim S32x512x1 ![] bcast_S_S32x512x1 : CF F S_ → CF F S32x512x1),
    binary main_v125 main_v126 main_v127 (Host.divf : CF F S32x512x1 → CF F S32x512x1 → CF F S32x512x1),
    unary main_v120 main_v128 (broadcastInDim S32x512x1024 ![0, 1, 2] bcast_S32x512x1_S32x512x1024_0_1_2 : CF F S32x512x1 → CF F S32x512x1024),
    binary main_v112 main_v128 main_v129 (subf : CF F S32x512x1024 → CF F S32x512x1024 → CF F S32x512x1024),
    nullary main_cst_15 (constant S_ .f32 0x3727C5AC#32),
    unary main_cst_15 main_v130 (broadcastInDim S32x512x1 ![] bcast_S_S32x512x1 : CF F S_ → CF F S32x512x1),
    binary main_v127 main_v130 main_v131 (addf : CF F S32x512x1 → CF F S32x512x1 → CF F S32x512x1),
    unary main_v131 main_v132 (Host.rsqrt : CF F S32x512x1 → CF F S32x512x1),
    unary main_v132 main_v133 (broadcastInDim S32x512x1024 ![0, 1, 2] bcast_S32x512x1_S32x512x1024_0_1_2 : CF F S32x512x1 → CF F S32x512x1024),
    binary main_v129 main_v133 main_v134 (mulf : CF F S32x512x1024 → CF F S32x512x1024 → CF F S32x512x1024),
    unary main_v114 main_v135 (broadcastInDim S1x1x1024 ![2] bcast_S1024_S1x1x1024_2 : CF F S1024 → CF F S1x1x1024),
    unary main_v135 main_v136 (broadcastInDim S32x512x1024 ![0, 1, 2] bcast_S1x1x1024_S32x512x1024_0_1_2 : CF F S1x1x1024 → CF F S32x512x1024),
    binary main_v134 main_v136 main_v137 (mulf : CF F S32x512x1024 → CF F S32x512x1024 → CF F S32x512x1024),
    unary main_v116 main_v138 (broadcastInDim S1x1x1024 ![2] bcast_S1024_S1x1x1024_2 : CF F S1024 → CF F S1x1x1024),
    unary main_v138 main_v139 (broadcastInDim S32x512x1024 ![0, 1, 2] bcast_S1x1x1024_S32x512x1024_0_1_2 : CF F S1x1x1024 → CF F S32x512x1024),
    binary main_v137 main_v139 main_v140 (addf : CF F S32x512x1024 → CF F S32x512x1024 → CF F S32x512x1024),
    TRef.nullary (TRef.of (T := ⟨S_, .f32⟩) main_call2_cst) (constant S_ .f32 0x00000000#32),
    TRef.unary (TRef.of (T := ⟨S_, .f32⟩) main_call2_cst) (TRef.of (T := ⟨S32x512x1024, .f32⟩) main_call2_v0) (broadcastInDim S32x512x1024 ![] bcast_S_S32x512x1024),
    TRef.binary (TRef.of (T := ⟨S32x512x1024, .f32⟩) main_v140) (TRef.of (T := ⟨S32x512x1024, .f32⟩) main_call2_v0) (TRef.of (T := ⟨S32x512x1024, .f32⟩) main_v141) maximumf,
    unary main_arg8 main_v142 ((extractStridedSlice S1x1024x1024 ![2, 0, 0] · slices_S5x1024x1024_S1x1024x1024_2_0_0) : CF F S5x1024x1024 → CF F S1x1024x1024),
    reshape main_v142 main_v143 rfl shapeCasts_S1x1024x1024_S1024x1024,
    binary main_v141 main_v143 main_v144 ((fun l r => Host.dotGeneral dot_S32x512x1024_S1024x1024_S32x512x1024_2_0_01_1_n_n none l r) : CF F S32x512x1024 → CF F S1024x1024 → CF F S32x512x1024),
    unary main_arg9 main_v145 ((extractStridedSlice S1x1024 ![2, 0] · slices_S5x1024_S1x1024_2_0) : CF F S5x1024 → CF F S1x1024),
    reshape main_v145 main_v146 rfl shapeCasts_S1x1024_S1024,
    unary main_v146 main_v147 (broadcastInDim S1x1x1024 ![2] bcast_S1024_S1x1x1024_2 : CF F S1024 → CF F S1x1x1024),
    unary main_v147 main_v148 (broadcastInDim S32x512x1024 ![0, 1, 2] bcast_S1x1x1024_S32x512x1024_0_1_2 : CF F S1x1x1024 → CF F S32x512x1024),
    binary main_v144 main_v148 main_v149 (addf : CF F S32x512x1024 → CF F S32x512x1024 → CF F S32x512x1024),
    nullary main_c_16 (constantI S_ 32 2#32),
    unary main_c_16 main_v150 (broadcastInDim S32 ![] bcast_S_S32 : CI F S_ → CI F S32),
    binary main_arg2 main_v150 main_v151 (cmpi .eq : CI F S32 → CI F S32 → (⟨S32, .i1⟩ : BufTy).Contents (Elt F)),
    unary main_v151 main_v152 (uitofp .f32 : (⟨S32, .i1⟩ : BufTy).Contents (Elt F) → CF F S32),
    unary main_v152 main_v153 (broadcastInDim S32x1x1 ![0] bcast_S32_S32x1x1_0 : CF F S32 → CF F S32x1x1),
    unary main_v153 main_v154 (broadcastInDim S32x512x1024 ![0, 1, 2] bcast_S32x1x1_S32x512x1024_0_1_2 : CF F S32x1x1 → CF F S32x512x1024),
    binary main_v154 main_v149 main_v155 (mulf : CF F S32x512x1024 → CF F S32x512x1024 → CF F S32x512x1024),
    binary main_v104 main_v155 main_v156 (addf : CF F S32x512x1024 → CF F S32x512x1024 → CF F S32x512x1024),
    unary main_arg4 main_v157 ((extractStridedSlice S1x1024x1024 ![3, 0, 0] · slices_S5x1024x1024_S1x1024x1024_3_0_0) : CF F S5x1024x1024 → CF F S1x1024x1024),
    reshape main_v157 main_v158 rfl shapeCasts_S1x1024x1024_S1024x1024,
    binary main_arg0 main_v158 main_v159 ((fun l r => Host.dotGeneral dot_S32x512x1024_S1024x1024_S32x512x1024_2_0_01_1_n_n none l r) : CF F S32x512x1024 → CF F S1024x1024 → CF F S32x512x1024),
    unary main_arg5 main_v160 ((extractStridedSlice S1x1024 ![3, 0] · slices_S5x1024_S1x1024_3_0) : CF F S5x1024 → CF F S1x1024) ]

set_option maxRecDepth 8192 in
theorem main_part2_eq (c : Dev nD) : main_part2 (F := F) c = seq ops2 := rfl

set_option maxRecDepth 8192 in
theorem ops2_sub : (ops2 : List (HloOp τ sig (Elt F))).Forall fun op => op.bufs ⊆ tcRefs τ sig := by bufs_sub

set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h

noncomputable abbrev ops3 : List (HloOp τ sig (Elt F)) :=
  [ reshape main_v160 main_v161 rfl shapeCasts_S1x1024_S1024,
    unary main_v161 main_v162 (broadcastInDim S1x1x1024 ![2] bcast_S1024_S1x1x1024_2 : CF F S1024 → CF F S1x1x1024),
    unary main_v162 main_v163 (broadcastInDim S32x512x1024 ![0, 1, 2] bcast_S1x1x1024_S32x512x1024_0_1_2 : CF F S1x1x1024 → CF F S32x512x1024),
    binary main_v159 main_v163 main_v164 (addf : CF F S32x512x1024 → CF F S32x512x1024 → CF F S32x512x1024),
    unary main_arg6 main_v165 ((extractStridedSlice S1x1024 ![3, 0] · slices_S5x1024_S1x1024_3_0) : CF F S5x1024 → CF F S1x1024),
    reshape main_v165 main_v166 rfl shapeCasts_S1x1024_S1024,
    unary main_arg7 main_v167 ((extractStridedSlice S1x1024 ![3, 0] · slices_S5x1024_S1x1024_3_0) : CF F S5x1024 → CF F S1x1024),
    reshape main_v167 main_v168 rfl shapeCasts_S1x1024_S1024,
    nullary main_cst_17 (constant S_ .f32 0x00000000#32),
    binary main_v164 main_cst_17 main_v169 ((fun x v => Host.reduceAdd x v reducesTo_S32x512x1024_S32x512_d2 h_S_) : CF F S32x512x1024 → CF F S_ → CF F S32x512),
    unary main_v169 main_v170 (broadcastInDim S32x512x1 ![0, 1] bcast_S32x512_S32x512x1_0_1 : CF F S32x512 → CF F S32x512x1),
    nullary main_cst_18 (constant S_ .f32 0x44800000#32),
    unary main_cst_18 main_v171 (broadcastInDim S32x512x1 ![] bcast_S_S32x512x1 : CF F S_ → CF F S32x512x1),
    binary main_v170 main_v171 main_v172 (Host.divf : CF F S32x512x1 → CF F S32x512x1 → CF F S32x512x1),
    unary main_v172 main_v173 (broadcastInDim S32x512x1024 ![0, 1, 2] bcast_S32x512x1_S32x512x1024_0_1_2 : CF F S32x512x1 → CF F S32x512x1024),
    binary main_v164 main_v173 main_v174 (subf : CF F S32x512x1024 → CF F S32x512x1024 → CF F S32x512x1024),
    binary main_v174 main_v174 main_v175 (mulf : CF F S32x512x1024 → CF F S32x512x1024 → CF F S32x512x1024),
    nullary main_cst_19 (constant S_ .f32 0x00000000#32),
    binary main_v175 main_cst_19 main_v176 ((fun x v => Host.reduceAdd x v reducesTo_S32x512x1024_S32x512_d2 h_S_) : CF F S32x512x1024 → CF F S_ → CF F S32x512),
    unary main_v176 main_v177 (broadcastInDim S32x512x1 ![0, 1] bcast_S32x512_S32x512x1_0_1 : CF F S32x512 → CF F S32x512x1),
    nullary main_cst_20 (constant S_ .f32 0x44800000#32),
    unary main_cst_20 main_v178 (broadcastInDim S32x512x1 ![] bcast_S_S32x512x1 : CF F S_ → CF F S32x512x1),
    binary main_v177 main_v178 main_v179 (Host.divf : CF F S32x512x1 → CF F S32x512x1 → CF F S32x512x1),
    unary main_v172 main_v180 (broadcastInDim S32x512x1024 ![0, 1, 2] bcast_S32x512x1_S32x512x1024_0_1_2 : CF F S32x512x1 → CF F S32x512x1024),
    binary main_v164 main_v180 main_v181 (subf : CF F S32x512x1024 → CF F S32x512x1024 → CF F S32x512x1024),
    nullary main_cst_21 (constant S_ .f32 0x3727C5AC#32),
    unary main_cst_21 main_v182 (broadcastInDim S32x512x1 ![] bcast_S_S32x512x1 : CF F S_ → CF F S32x512x1),
    binary main_v179 main_v182 main_v183 (addf : CF F S32x512x1 → CF F S32x512x1 → CF F S32x512x1),
    unary main_v183 main_v184 (Host.rsqrt : CF F S32x512x1 → CF F S32x512x1),
    unary main_v184 main_v185 (broadcastInDim S32x512x1024 ![0, 1, 2] bcast_S32x512x1_S32x512x1024_0_1_2 : CF F S32x512x1 → CF F S32x512x1024),
    binary main_v181 main_v185 main_v186 (mulf : CF F S32x512x1024 → CF F S32x512x1024 → CF F S32x512x1024),
    unary main_v166 main_v187 (broadcastInDim S1x1x1024 ![2] bcast_S1024_S1x1x1024_2 : CF F S1024 → CF F S1x1x1024),
    unary main_v187 main_v188 (broadcastInDim S32x512x1024 ![0, 1, 2] bcast_S1x1x1024_S32x512x1024_0_1_2 : CF F S1x1x1024 → CF F S32x512x1024),
    binary main_v186 main_v188 main_v189 (mulf : CF F S32x512x1024 → CF F S32x512x1024 → CF F S32x512x1024),
    unary main_v168 main_v190 (broadcastInDim S1x1x1024 ![2] bcast_S1024_S1x1x1024_2 : CF F S1024 → CF F S1x1x1024),
    unary main_v190 main_v191 (broadcastInDim S32x512x1024 ![0, 1, 2] bcast_S1x1x1024_S32x512x1024_0_1_2 : CF F S1x1x1024 → CF F S32x512x1024),
    binary main_v189 main_v191 main_v192 (addf : CF F S32x512x1024 → CF F S32x512x1024 → CF F S32x512x1024),
    TRef.nullary (TRef.of (T := ⟨S_, .f32⟩) main_call3_cst) (constant S_ .f32 0x00000000#32),
    TRef.unary (TRef.of (T := ⟨S_, .f32⟩) main_call3_cst) (TRef.of (T := ⟨S32x512x1024, .f32⟩) main_call3_v0) (broadcastInDim S32x512x1024 ![] bcast_S_S32x512x1024),
    TRef.binary (TRef.of (T := ⟨S32x512x1024, .f32⟩) main_v192) (TRef.of (T := ⟨S32x512x1024, .f32⟩) main_call3_v0) (TRef.of (T := ⟨S32x512x1024, .f32⟩) main_v193) maximumf,
    unary main_arg8 main_v194 ((extractStridedSlice S1x1024x1024 ![3, 0, 0] · slices_S5x1024x1024_S1x1024x1024_3_0_0) : CF F S5x1024x1024 → CF F S1x1024x1024),
    reshape main_v194 main_v195 rfl shapeCasts_S1x1024x1024_S1024x1024,
    binary main_v193 main_v195 main_v196 ((fun l r => Host.dotGeneral dot_S32x512x1024_S1024x1024_S32x512x1024_2_0_01_1_n_n none l r) : CF F S32x512x1024 → CF F S1024x1024 → CF F S32x512x1024),
    unary main_arg9 main_v197 ((extractStridedSlice S1x1024 ![3, 0] · slices_S5x1024_S1x1024_3_0) : CF F S5x1024 → CF F S1x1024),
    reshape main_v197 main_v198 rfl shapeCasts_S1x1024_S1024,
    unary main_v198 main_v199 (broadcastInDim S1x1x1024 ![2] bcast_S1024_S1x1x1024_2 : CF F S1024 → CF F S1x1x1024),
    unary main_v199 main_v200 (broadcastInDim S32x512x1024 ![0, 1, 2] bcast_S1x1x1024_S32x512x1024_0_1_2 : CF F S1x1x1024 → CF F S32x512x1024),
    binary main_v196 main_v200 main_v201 (addf : CF F S32x512x1024 → CF F S32x512x1024 → CF F S32x512x1024),
    nullary main_c_22 (constantI S_ 32 3#32),
    unary main_c_22 main_v202 (broadcastInDim S32 ![] bcast_S_S32 : CI F S_ → CI F S32),
    binary main_arg2 main_v202 main_v203 (cmpi .eq : CI F S32 → CI F S32 → (⟨S32, .i1⟩ : BufTy).Contents (Elt F)),
    unary main_v203 main_v204 (uitofp .f32 : (⟨S32, .i1⟩ : BufTy).Contents (Elt F) → CF F S32),
    unary main_v204 main_v205 (broadcastInDim S32x1x1 ![0] bcast_S32_S32x1x1_0 : CF F S32 → CF F S32x1x1),
    unary main_v205 main_v206 (broadcastInDim S32x512x1024 ![0, 1, 2] bcast_S32x1x1_S32x512x1024_0_1_2 : CF F S32x1x1 → CF F S32x512x1024),
    binary main_v206 main_v201 main_v207 (mulf : CF F S32x512x1024 → CF F S32x512x1024 → CF F S32x512x1024),
    binary main_v156 main_v207 main_v208 (addf : CF F S32x512x1024 → CF F S32x512x1024 → CF F S32x512x1024),
    unary main_arg4 main_v209 ((extractStridedSlice S1x1024x1024 ![4, 0, 0] · slices_S5x1024x1024_S1x1024x1024_4_0_0) : CF F S5x1024x1024 → CF F S1x1024x1024),
    reshape main_v209 main_v210 rfl shapeCasts_S1x1024x1024_S1024x1024,
    binary main_arg0 main_v210 main_v211 ((fun l r => Host.dotGeneral dot_S32x512x1024_S1024x1024_S32x512x1024_2_0_01_1_n_n none l r) : CF F S32x512x1024 → CF F S1024x1024 → CF F S32x512x1024),
    unary main_arg5 main_v212 ((extractStridedSlice S1x1024 ![4, 0] · slices_S5x1024_S1x1024_4_0) : CF F S5x1024 → CF F S1x1024),
    reshape main_v212 main_v213 rfl shapeCasts_S1x1024_S1024,
    unary main_v213 main_v214 (broadcastInDim S1x1x1024 ![2] bcast_S1024_S1x1x1024_2 : CF F S1024 → CF F S1x1x1024) ]

set_option maxRecDepth 8192 in
theorem main_part3_eq (c : Dev nD) : main_part3 (F := F) c = seq ops3 := rfl

set_option maxRecDepth 8192 in
theorem ops3_sub : (ops3 : List (HloOp τ sig (Elt F))).Forall fun op => op.bufs ⊆ tcRefs τ sig := by bufs_sub

set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h

noncomputable abbrev ops4 : List (HloOp τ sig (Elt F)) :=
  [ unary main_v214 main_v215 (broadcastInDim S32x512x1024 ![0, 1, 2] bcast_S1x1x1024_S32x512x1024_0_1_2 : CF F S1x1x1024 → CF F S32x512x1024),
    binary main_v211 main_v215 main_v216 (addf : CF F S32x512x1024 → CF F S32x512x1024 → CF F S32x512x1024),
    unary main_arg6 main_v217 ((extractStridedSlice S1x1024 ![4, 0] · slices_S5x1024_S1x1024_4_0) : CF F S5x1024 → CF F S1x1024),
    reshape main_v217 main_v218 rfl shapeCasts_S1x1024_S1024,
    unary main_arg7 main_v219 ((extractStridedSlice S1x1024 ![4, 0] · slices_S5x1024_S1x1024_4_0) : CF F S5x1024 → CF F S1x1024),
    reshape main_v219 main_v220 rfl shapeCasts_S1x1024_S1024,
    nullary main_cst_23 (constant S_ .f32 0x00000000#32),
    binary main_v216 main_cst_23 main_v221 ((fun x v => Host.reduceAdd x v reducesTo_S32x512x1024_S32x512_d2 h_S_) : CF F S32x512x1024 → CF F S_ → CF F S32x512),
    unary main_v221 main_v222 (broadcastInDim S32x512x1 ![0, 1] bcast_S32x512_S32x512x1_0_1 : CF F S32x512 → CF F S32x512x1),
    nullary main_cst_24 (constant S_ .f32 0x44800000#32),
    unary main_cst_24 main_v223 (broadcastInDim S32x512x1 ![] bcast_S_S32x512x1 : CF F S_ → CF F S32x512x1),
    binary main_v222 main_v223 main_v224 (Host.divf : CF F S32x512x1 → CF F S32x512x1 → CF F S32x512x1),
    unary main_v224 main_v225 (broadcastInDim S32x512x1024 ![0, 1, 2] bcast_S32x512x1_S32x512x1024_0_1_2 : CF F S32x512x1 → CF F S32x512x1024),
    binary main_v216 main_v225 main_v226 (subf : CF F S32x512x1024 → CF F S32x512x1024 → CF F S32x512x1024),
    binary main_v226 main_v226 main_v227 (mulf : CF F S32x512x1024 → CF F S32x512x1024 → CF F S32x512x1024),
    nullary main_cst_25 (constant S_ .f32 0x00000000#32),
    binary main_v227 main_cst_25 main_v228 ((fun x v => Host.reduceAdd x v reducesTo_S32x512x1024_S32x512_d2 h_S_) : CF F S32x512x1024 → CF F S_ → CF F S32x512),
    unary main_v228 main_v229 (broadcastInDim S32x512x1 ![0, 1] bcast_S32x512_S32x512x1_0_1 : CF F S32x512 → CF F S32x512x1),
    nullary main_cst_26 (constant S_ .f32 0x44800000#32),
    unary main_cst_26 main_v230 (broadcastInDim S32x512x1 ![] bcast_S_S32x512x1 : CF F S_ → CF F S32x512x1),
    binary main_v229 main_v230 main_v231 (Host.divf : CF F S32x512x1 → CF F S32x512x1 → CF F S32x512x1),
    unary main_v224 main_v232 (broadcastInDim S32x512x1024 ![0, 1, 2] bcast_S32x512x1_S32x512x1024_0_1_2 : CF F S32x512x1 → CF F S32x512x1024),
    binary main_v216 main_v232 main_v233 (subf : CF F S32x512x1024 → CF F S32x512x1024 → CF F S32x512x1024),
    nullary main_cst_27 (constant S_ .f32 0x3727C5AC#32),
    unary main_cst_27 main_v234 (broadcastInDim S32x512x1 ![] bcast_S_S32x512x1 : CF F S_ → CF F S32x512x1),
    binary main_v231 main_v234 main_v235 (addf : CF F S32x512x1 → CF F S32x512x1 → CF F S32x512x1),
    unary main_v235 main_v236 (Host.rsqrt : CF F S32x512x1 → CF F S32x512x1),
    unary main_v236 main_v237 (broadcastInDim S32x512x1024 ![0, 1, 2] bcast_S32x512x1_S32x512x1024_0_1_2 : CF F S32x512x1 → CF F S32x512x1024),
    binary main_v233 main_v237 main_v238 (mulf : CF F S32x512x1024 → CF F S32x512x1024 → CF F S32x512x1024),
    unary main_v218 main_v239 (broadcastInDim S1x1x1024 ![2] bcast_S1024_S1x1x1024_2 : CF F S1024 → CF F S1x1x1024),
    unary main_v239 main_v240 (broadcastInDim S32x512x1024 ![0, 1, 2] bcast_S1x1x1024_S32x512x1024_0_1_2 : CF F S1x1x1024 → CF F S32x512x1024),
    binary main_v238 main_v240 main_v241 (mulf : CF F S32x512x1024 → CF F S32x512x1024 → CF F S32x512x1024),
    unary main_v220 main_v242 (broadcastInDim S1x1x1024 ![2] bcast_S1024_S1x1x1024_2 : CF F S1024 → CF F S1x1x1024),
    unary main_v242 main_v243 (broadcastInDim S32x512x1024 ![0, 1, 2] bcast_S1x1x1024_S32x512x1024_0_1_2 : CF F S1x1x1024 → CF F S32x512x1024),
    binary main_v241 main_v243 main_v244 (addf : CF F S32x512x1024 → CF F S32x512x1024 → CF F S32x512x1024),
    TRef.nullary (TRef.of (T := ⟨S_, .f32⟩) main_call4_cst) (constant S_ .f32 0x00000000#32),
    TRef.unary (TRef.of (T := ⟨S_, .f32⟩) main_call4_cst) (TRef.of (T := ⟨S32x512x1024, .f32⟩) main_call4_v0) (broadcastInDim S32x512x1024 ![] bcast_S_S32x512x1024),
    TRef.binary (TRef.of (T := ⟨S32x512x1024, .f32⟩) main_v244) (TRef.of (T := ⟨S32x512x1024, .f32⟩) main_call4_v0) (TRef.of (T := ⟨S32x512x1024, .f32⟩) main_v245) maximumf,
    unary main_arg8 main_v246 ((extractStridedSlice S1x1024x1024 ![4, 0, 0] · slices_S5x1024x1024_S1x1024x1024_4_0_0) : CF F S5x1024x1024 → CF F S1x1024x1024),
    reshape main_v246 main_v247 rfl shapeCasts_S1x1024x1024_S1024x1024,
    binary main_v245 main_v247 main_v248 ((fun l r => Host.dotGeneral dot_S32x512x1024_S1024x1024_S32x512x1024_2_0_01_1_n_n none l r) : CF F S32x512x1024 → CF F S1024x1024 → CF F S32x512x1024),
    unary main_arg9 main_v249 ((extractStridedSlice S1x1024 ![4, 0] · slices_S5x1024_S1x1024_4_0) : CF F S5x1024 → CF F S1x1024),
    reshape main_v249 main_v250 rfl shapeCasts_S1x1024_S1024,
    unary main_v250 main_v251 (broadcastInDim S1x1x1024 ![2] bcast_S1024_S1x1x1024_2 : CF F S1024 → CF F S1x1x1024),
    unary main_v251 main_v252 (broadcastInDim S32x512x1024 ![0, 1, 2] bcast_S1x1x1024_S32x512x1024_0_1_2 : CF F S1x1x1024 → CF F S32x512x1024),
    binary main_v248 main_v252 main_v253 (addf : CF F S32x512x1024 → CF F S32x512x1024 → CF F S32x512x1024),
    nullary main_c_28 (constantI S_ 32 4#32),
    unary main_c_28 main_v254 (broadcastInDim S32 ![] bcast_S_S32 : CI F S_ → CI F S32),
    binary main_arg2 main_v254 main_v255 (cmpi .eq : CI F S32 → CI F S32 → (⟨S32, .i1⟩ : BufTy).Contents (Elt F)),
    unary main_v255 main_v256 (uitofp .f32 : (⟨S32, .i1⟩ : BufTy).Contents (Elt F) → CF F S32),
    unary main_v256 main_v257 (broadcastInDim S32x1x1 ![0] bcast_S32_S32x1x1_0 : CF F S32 → CF F S32x1x1),
    unary main_v257 main_v258 (broadcastInDim S32x512x1024 ![0, 1, 2] bcast_S32x1x1_S32x512x1024_0_1_2 : CF F S32x1x1 → CF F S32x512x1024),
    binary main_v258 main_v253 main_v259 (mulf : CF F S32x512x1024 → CF F S32x512x1024 → CF F S32x512x1024),
    binary main_v208 main_v259 main_v260 (addf : CF F S32x512x1024 → CF F S32x512x1024 → CF F S32x512x1024),
    unary main_arg1 main_v261 (broadcastInDim S32x512x1 ![0, 1] bcast_S32x512_S32x512x1_0_1 : CF F S32x512 → CF F S32x512x1),
    unary main_v261 main_v262 (broadcastInDim S32x512x1024 ![0, 1, 2] bcast_S32x512x1_S32x512x1024_0_1_2 : CF F S32x512x1 → CF F S32x512x1024),
    binary main_v260 main_v262 main_v263 (mulf : CF F S32x512x1024 → CF F S32x512x1024 → CF F S32x512x1024),
    nullary main_cst_29 (constant S_ .f32 0x00000000#32),
    binary main_v263 main_cst_29 main_v264 ((fun x v => Host.reduceAdd x v reducesTo_S32x512x1024_S32x1024_d1 h_S_) : CF F S32x512x1024 → CF F S_ → CF F S32x1024),
    nullary main_cst_30 (constant S_ .f32 0x00000000#32),
    binary main_arg1 main_cst_30 main_v265 ((fun x v => Host.reduceAdd x v reducesTo_S32x512_S32_d1 h_S_) : CF F S32x512 → CF F S_ → CF F S32),
    unary main_v265 main_v266 (broadcastInDim S32x1 ![0] bcast_S32_S32x1_0 : CF F S32 → CF F S32x1) ]

set_option maxRecDepth 8192 in
theorem main_part4_eq (c : Dev nD) : main_part4 (F := F) c = seq ops4 := rfl

set_option maxRecDepth 8192 in
theorem ops4_sub : (ops4 : List (HloOp τ sig (Elt F))).Forall fun op => op.bufs ⊆ tcRefs τ sig := by bufs_sub

set_option maxRecDepth 8192 in
set_option maxHeartbeats 4000000 in
theorem ops4_fresh : ∀ op ∈ (ops4 : List (HloOp τ sig (Elt F))), op.fresh = ∅ := by
  intro _ h; (repeat (cases h with | head => rfl | tail _ h => ?_)); exact nomatch h

noncomputable abbrev ops5 : List (HloOp τ sig (Elt F)) :=
  [ unary main_v266 main_v267 (broadcastInDim S32x1024 ![0, 1] bcast_S32x1_S32x1024_0_1 : CF F S32x1 → CF F S32x1024),
    binary main_v264 main_v267 main_v268 (Host.divf : CF F S32x1024 → CF F S32x1024 → CF F S32x1024),
    binary main_v268 main_arg3 main_v269 ((fun a b => concatenate S32x1124 1 [⟨S32x1024, a⟩, ⟨S32x100, b⟩] concatenates_S32x1024_S32x100_S32x1124_d1) : CF F S32x1024 → CF F S32x100 → CF F S32x1124),
    binary main_v269 main_arg10 main_v270 ((fun l r => Host.dotGeneral dot_S32x1124_S1124x512_S32x512_1_0_0_1_n_n none l r) : CF F S32x1124 → CF F S1124x512 → CF F S32x512),
    unary main_arg11 main_v271 (broadcastInDim S1x512 ![1] bcast_S512_S1x512_1 : CF F S512 → CF F S1x512),
    unary main_v271 main_v272 (broadcastInDim S32x512 ![0, 1] bcast_S1x512_S32x512_0_1 : CF F S1x512 → CF F S32x512),
    binary main_v270 main_v272 main_v273 (addf : CF F S32x512 → CF F S32x512 → CF F S32x512),
    nullary main_cst_31 (constant S_ .f32 0x00000000#32),
    binary main_v273 main_cst_31 main_v274 ((fun x v => Host.reduceAdd x v reducesTo_S32x512_S32_d1 h_S_) : CF F S32x512 → CF F S_ → CF F S32),
    unary main_v274 main_v275 (broadcastInDim S32x1 ![0] bcast_S32_S32x1_0 : CF F S32 → CF F S32x1),
    nullary main_cst_32 (constant S_ .f32 0x44000000#32),
    unary main_cst_32 main_v276 (broadcastInDim S32x1 ![] bcast_S_S32x1 : CF F S_ → CF F S32x1),
    binary main_v275 main_v276 main_v277 (Host.divf : CF F S32x1 → CF F S32x1 → CF F S32x1),
    unary main_v277 main_v278 (broadcastInDim S32x512 ![0, 1] bcast_S32x1_S32x512_0_1 : CF F S32x1 → CF F S32x512),
    binary main_v273 main_v278 main_v279 (subf : CF F S32x512 → CF F S32x512 → CF F S32x512),
    binary main_v279 main_v279 main_v280 (mulf : CF F S32x512 → CF F S32x512 → CF F S32x512),
    nullary main_cst_33 (constant S_ .f32 0x00000000#32),
    binary main_v280 main_cst_33 main_v281 ((fun x v => Host.reduceAdd x v reducesTo_S32x512_S32_d1 h_S_) : CF F S32x512 → CF F S_ → CF F S32),
    unary main_v281 main_v282 (broadcastInDim S32x1 ![0] bcast_S32_S32x1_0 : CF F S32 → CF F S32x1),
    nullary main_cst_34 (constant S_ .f32 0x44000000#32),
    unary main_cst_34 main_v283 (broadcastInDim S32x1 ![] bcast_S_S32x1 : CF F S_ → CF F S32x1),
    binary main_v282 main_v283 main_v284 (Host.divf : CF F S32x1 → CF F S32x1 → CF F S32x1),
    unary main_v277 main_v285 (broadcastInDim S32x512 ![0, 1] bcast_S32x1_S32x512_0_1 : CF F S32x1 → CF F S32x512),
    binary main_v273 main_v285 main_v286 (subf : CF F S32x512 → CF F S32x512 → CF F S32x512),
    nullary main_cst_35 (constant S_ .f32 0x3727C5AC#32),
    unary main_cst_35 main_v287 (broadcastInDim S32x1 ![] bcast_S_S32x1 : CF F S_ → CF F S32x1),
    binary main_v284 main_v287 main_v288 (addf : CF F S32x1 → CF F S32x1 → CF F S32x1),
    unary main_v288 main_v289 (Host.rsqrt : CF F S32x1 → CF F S32x1),
    unary main_v289 main_v290 (broadcastInDim S32x512 ![0, 1] bcast_S32x1_S32x512_0_1 : CF F S32x1 → CF F S32x512),
    binary main_v286 main_v290 main_v291 (mulf : CF F S32x512 → CF F S32x512 → CF F S32x512),
    unary main_arg12 main_v292 (broadcastInDim S1x512 ![1] bcast_S512_S1x512_1 : CF F S512 → CF F S1x512),
    unary main_v292 main_v293 (broadcastInDim S32x512 ![0, 1] bcast_S1x512_S32x512_0_1 : CF F S1x512 → CF F S32x512),
    binary main_v291 main_v293 main_v294 (mulf : CF F S32x512 → CF F S32x512 → CF F S32x512),
    unary main_arg13 main_v295 (broadcastInDim S1x512 ![1] bcast_S512_S1x512_1 : CF F S512 → CF F S1x512),
    unary main_v295 main_v296 (broadcastInDim S32x512 ![0, 1] bcast_S1x512_S32x512_0_1 : CF F S1x512 → CF F S32x512),
    binary main_v294 main_v296 main_v297 (addf : CF F S32x512 → CF F S32x512 → CF F S32x512),
    TRef.nullary (TRef.of (T := ⟨S_, .f32⟩) main_call5_cst) (constant S_ .f32 0x00000000#32),
    TRef.unary (TRef.of (T := ⟨S_, .f32⟩) main_call5_cst) (TRef.of (T := ⟨S32x512, .f32⟩) main_call5_v0) (broadcastInDim S32x512 ![] bcast_S_S32x512),
    TRef.binary (TRef.of (T := ⟨S32x512, .f32⟩) main_v297) (TRef.of (T := ⟨S32x512, .f32⟩) main_call5_v0) (TRef.of (T := ⟨S32x512, .f32⟩) main_v298) maximumf ]

set_option maxRecDepth 8192 in
theorem main_part5_eq (c : Dev nD) : main_part5 (F := F) c = seq ops5 := rfl

set_option maxRecDepth 8192 in
theorem ops5_sub : (ops5 : List (HloOp τ sig (Elt F))).Forall fun op => op.bufs ⊆ tcRefs τ sig := by bufs_sub

set_option maxRecDepth 8192 in
set_option maxHeartbeats 4000000 in
theorem ops5_fresh : ∀ op ∈ (ops5 : List (HloOp τ sig (Elt F))), op.fresh = ∅ := by
  intro _ h; (repeat (cases h with | head => rfl | tail _ h => ?_)); exact nomatch h

def matL (o3 : Fin 3 → Nat) (h3 : S5x1024x1024.Slices o3 S1x1024x1024) (W : CF F S5x1024x1024) : CF F S1024x1024 :=
  shapeCast _ (extractStridedSlice S1x1024x1024 o3 W h3) shapeCasts_S1x1024x1024_S1024x1024

def vecL (o2 : Fin 2 → Nat) (h2 : S5x1024.Slices o2 S1x1024) (p : CF F S5x1024) : CF F S1024 :=
  shapeCast _ (extractStridedSlice S1x1024 o2 p h2) shapeCasts_S1x1024_S1024

def rowB (v : CF F S1024) : CF F S32x512x1024 :=
  broadcastInDim S32x512x1024 ![0, 1, 2] bcast_S1x1x1024_S32x512x1024_0_1_2 (broadcastInDim S1x1x1024 ![2] bcast_S1024_S1x1x1024_2 v)

def denseL (o3 : Fin 3 → Nat) (h3 : S5x1024x1024.Slices o3 S1x1024x1024) (o2 : Fin 2 → Nat) (h2 : S5x1024.Slices o2 S1x1024)
    (x : CF F S32x512x1024) (W : CF F S5x1024x1024) (b : CF F S5x1024) : CF F S32x512x1024 :=
  addf (Host.dotGeneral dot_S32x512x1024_S1024x1024_S32x512x1024_2_0_01_1_n_n none x (matL o3 h3 W)) (rowB (vecL o2 h2 b))

def lnMean (h : CF F S32x512x1024) : CF F S32x512x1 :=
  Host.divf (broadcastInDim S32x512x1 ![0, 1] bcast_S32x512_S32x512x1_0_1
      (Host.reduceAdd h (constant S_ .f32 0x00000000#32) reducesTo_S32x512x1024_S32x512_d2 h_S_))
    (broadcastInDim S32x512x1 ![] bcast_S_S32x512x1 (constant S_ .f32 0x44800000#32))

def lnDev (h : CF F S32x512x1024) : CF F S32x512x1024 :=
  subf h (broadcastInDim S32x512x1024 ![0, 1, 2] bcast_S32x512x1_S32x512x1024_0_1_2 (lnMean h))

def lnRelu (h g be : CF F S32x512x1024) : CF F S32x512x1024 :=
  maximumf
    (addf (mulf (mulf (lnDev h) (broadcastInDim S32x512x1024 ![0, 1, 2] bcast_S32x512x1_S32x512x1024_0_1_2
        (Host.rsqrt (addf (lnMean (mulf (lnDev h) (lnDev h)))
          (broadcastInDim S32x512x1 ![] bcast_S_S32x512x1 (constant S_ .f32 0x3727C5AC#32)))))) g) be)
    (broadcastInDim S32x512x1024 ![] bcast_S_S32x512x1024 (constant S_ .f32 0x00000000#32))

def adapterL (o3 : Fin 3 → Nat) (h3 : S5x1024x1024.Slices o3 S1x1024x1024) (o2 : Fin 2 → Nat) (h2 : S5x1024.Slices o2 S1x1024)
    (x0 : CF F S32x512x1024) (x4 : CF F S5x1024x1024) (x5 x6 x7 : CF F S5x1024) (x8 : CF F S5x1024x1024) (x9 : CF F S5x1024) :
    CF F S32x512x1024 :=
  denseL o3 h3 o2 h2 (lnRelu (denseL o3 h3 o2 h2 x0 x4 x5) (rowB (vecL o2 h2 x6)) (rowB (vecL o2 h2 x7))) x8 x9

def maskL (c : BitVec 32) (x2 : CI F S32) : CF F S32x512x1024 :=
  broadcastInDim S32x512x1024 ![0, 1, 2] bcast_S32x1x1_S32x512x1024_0_1_2 (broadcastInDim S32x1x1 ![0] bcast_S32_S32x1x1_0
    (uitofp .f32 (cmpi .eq x2 (broadcastInDim S32 ![] bcast_S_S32 (constantI S_ 32 c)))))

def termL (c : BitVec 32) (o3 : Fin 3 → Nat) (h3 : S5x1024x1024.Slices o3 S1x1024x1024) (o2 : Fin 2 → Nat) (h2 : S5x1024.Slices o2 S1x1024)
    (x0 : CF F S32x512x1024) (x2 : CI F S32) (x4 : CF F S5x1024x1024) (x5 x6 x7 : CF F S5x1024) (x8 : CF F S5x1024x1024)
    (x9 : CF F S5x1024) : CF F S32x512x1024 :=
  mulf (maskL c x2) (adapterL o3 h3 o2 h2 x0 x4 x5 x6 x7 x8 x9)

section Acc
variable (x0 : CF F S32x512x1024) (x2 : CI F S32) (x4 : CF F S5x1024x1024) (x5 x6 x7 : CF F S5x1024) (x8 : CF F S5x1024x1024)
  (x9 : CF F S5x1024)

def acc0 : CF F S32x512x1024 :=
  addf (broadcastInDim S32x512x1024 ![] bcast_S_S32x512x1024 (constant S_ .f32 0x00000000#32))
    (termL 0#32 ![0, 0, 0] slices_S5x1024x1024_S1x1024x1024_0_0_0 ![0, 0] slices_S5x1024_S1x1024_0_0 x0 x2 x4 x5 x6 x7 x8 x9)
def acc1 : CF F S32x512x1024 :=
  addf (acc0 x0 x2 x4 x5 x6 x7 x8 x9)
    (termL 1#32 ![1, 0, 0] slices_S5x1024x1024_S1x1024x1024_1_0_0 ![1, 0] slices_S5x1024_S1x1024_1_0 x0 x2 x4 x5 x6 x7 x8 x9)
def acc2 : CF F S32x512x1024 :=
  addf (acc1 x0 x2 x4 x5 x6 x7 x8 x9)
    (termL 2#32 ![2, 0, 0] slices_S5x1024x1024_S1x1024x1024_2_0_0 ![2, 0] slices_S5x1024_S1x1024_2_0 x0 x2 x4 x5 x6 x7 x8 x9)
def acc3 : CF F S32x512x1024 :=
  addf (acc2 x0 x2 x4 x5 x6 x7 x8 x9)
    (termL 3#32 ![3, 0, 0] slices_S5x1024x1024_S1x1024x1024_3_0_0 ![3, 0] slices_S5x1024_S1x1024_3_0 x0 x2 x4 x5 x6 x7 x8 x9)
def acc4 : CF F S32x512x1024 :=
  addf (acc3 x0 x2 x4 x5 x6 x7 x8 x9)
    (termL 4#32 ![4, 0, 0] slices_S5x1024x1024_S1x1024x1024_4_0_0 ![4, 0] slices_S5x1024_S1x1024_4_0 x0 x2 x4 x5 x6 x7 x8 x9)

end Acc

def poolNum (x0 : CF F S32x512x1024) (x1 : CF F S32x512) (x2 : CI F S32) (x4 : CF F S5x1024x1024) (x5 x6 x7 : CF F S5x1024)
    (x8 : CF F S5x1024x1024) (x9 : CF F S5x1024) : CF F S32x1024 :=
  Host.reduceAdd (mulf (acc4 x0 x2 x4 x5 x6 x7 x8 x9)
      (broadcastInDim S32x512x1024 ![0, 1, 2] bcast_S32x512x1_S32x512x1024_0_1_2 (broadcastInDim S32x512x1 ![0, 1] bcast_S32x512_S32x512x1_0_1 x1)))
    (constant S_ .f32 0x00000000#32) reducesTo_S32x512x1024_S32x1024_d1 h_S_

def poolDen (x1 : CF F S32x512) : CF F S32x1 :=
  broadcastInDim S32x1 ![0] bcast_S32_S32x1_0 (Host.reduceAdd x1 (constant S_ .f32 0x00000000#32) reducesTo_S32x512_S32_d1 h_S_)

def pooledR (x0 : CF F S32x512x1024) (x1 : CF F S32x512) (x2 : CI F S32) (x4 : CF F S5x1024x1024) (x5 x6 x7 : CF F S5x1024)
    (x8 : CF F S5x1024x1024) (x9 : CF F S5x1024) : CF F S32x1024 :=
  Host.divf (poolNum x0 x1 x2 x4 x5 x6 x7 x8 x9) (broadcastInDim S32x1024 ![0, 1] bcast_S32x1_S32x1024_0_1 (poolDen x1))

def tailR (P : CF F S32x1024) (lda : CF F S32x100) (Wf : CF F S1124x512) (bf gf betaf : CF F S512) : CF F S32x512 :=

  let cat : CF F S32x1124 :=
    concatenate S32x1124 1 [⟨S32x1024, P⟩, ⟨S32x100, lda⟩] concatenates_S32x1024_S32x100_S32x1124_d1
  let y : CF F S32x512 :=
    addf (Host.dotGeneral dot_S32x1124_S1124x512_S32x512_1_0_0_1_n_n none cat Wf)
      (broadcastInDim S32x512 ![0, 1] bcast_S1x512_S32x512_0_1 (broadcastInDim S1x512 ![1] bcast_S512_S1x512_1 bf))

  let mean : CF F S32x1 :=
    Host.divf (broadcastInDim S32x1 ![0] bcast_S32_S32x1_0
        (Host.reduceAdd y (constant S_ .f32 0x00000000#32) reducesTo_S32x512_S32_d1 h_S_))
      (broadcastInDim S32x1 ![] bcast_S_S32x1 (constant S_ .f32 0x44000000#32))

  let d1 : CF F S32x512 := subf y (broadcastInDim S32x512 ![0, 1] bcast_S32x1_S32x512_0_1 mean)
  let var : CF F S32x1 :=
    Host.divf (broadcastInDim S32x1 ![0] bcast_S32_S32x1_0
        (Host.reduceAdd (mulf d1 d1) (constant S_ .f32 0x00000000#32) reducesTo_S32x512_S32_d1 h_S_))
      (broadcastInDim S32x1 ![] bcast_S_S32x1 (constant S_ .f32 0x44000000#32))
  let d2 : CF F S32x512 := subf y (broadcastInDim S32x512 ![0, 1] bcast_S32x1_S32x512_0_1 mean)

  let r : CF F S32x1 :=
    Host.rsqrt (addf var (broadcastInDim S32x1 ![] bcast_S_S32x1 (constant S_ .f32 0x3727C5AC#32)))
  let n : CF F S32x512 := mulf d2 (broadcastInDim S32x512 ![0, 1] bcast_S32x1_S32x512_0_1 r)
  let g : CF F S32x512 :=
    mulf n (broadcastInDim S32x512 ![0, 1] bcast_S1x512_S32x512_0_1 (broadcastInDim S1x512 ![1] bcast_S512_S1x512_1 gf))
  let o : CF F S32x512 :=
    addf g (broadcastInDim S32x512 ![0, 1] bcast_S1x512_S32x512_0_1 (broadcastInDim S1x512 ![1] bcast_S512_S1x512_1 betaf))
  maximumf o (broadcastInDim S32x512 ![] bcast_S_S32x512 (constant S_ .f32 0x00000000#32))

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

def val1 (V0 : Valuation τ sig (Elt F)) : Valuation τ sig (Elt F) := after ops0 V0
noncomputable abbrev ops0_W : List (Ref sig .tc) := [main_cst, main_v0, main_v1, main_v2, main_v3, main_v4, main_v5, main_v6, main_v7, main_v8, main_v9, main_v10, main_v11, main_v12, main_cst_0, main_v13, main_v14, main_cst_1, main_v15, main_v16, main_v17, main_v18, main_v19, main_cst_2, main_v20, main_v21, main_cst_3, main_v22, main_v23, main_v24, main_v25, main_cst_4, main_v26, main_v27, main_v28, main_v29, main_v30, main_v31, main_v32, main_v33, main_v34, main_v35, main_v36, main_call0_cst, main_call0_v0, main_v37, main_v38, main_v39, main_v40, main_v41, main_v42, main_v43, main_v44, main_v45, main_c, main_v46, main_v47, main_v48, main_v49, main_v50, main_v51, main_v52]
set_option maxRecDepth 8192 in
set_option maxHeartbeats 4000000 in
theorem ops0_writes : (ops0 : List (HloOp τ sig (Elt F))).Forall fun op =>
    op.writes ⊆ (ops0_W.map (Proc.devRef (τ := τ) .tc)).toFinset := by writes_sub
theorem val1_keep (V0 : Valuation τ sig (Elt F)) (r : Ref sig .tc) (h : r ∉ ops0_W) :
    val1 V0 (no_index (Proc.devRef .tc r)) = V0 (Proc.devRef .tc r) :=
  after_of_writes_sub ops0 _ ops0_writes h

set_option maxRecDepth 8192 in
set_option maxHeartbeats 8000000 in
theorem val1_main_v52 (V0 : Valuation τ sig (Elt F)) :
    val1 V0 (no_index (Proc.devRef .tc main_v52)) = acc0 (V0 (Proc.devRef .tc main_arg0)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val1
  simp only [ops0]
  after_results_simp
  rfl

def val2 (V0 : Valuation τ sig (Elt F)) : Valuation τ sig (Elt F) := after ops1 (val1 V0)
noncomputable abbrev ops1_W : List (Ref sig .tc) := [main_v53, main_v54, main_v55, main_v56, main_v57, main_v58, main_v59, main_v60, main_v61, main_v62, main_v63, main_v64, main_cst_5, main_v65, main_v66, main_cst_6, main_v67, main_v68, main_v69, main_v70, main_v71, main_cst_7, main_v72, main_v73, main_cst_8, main_v74, main_v75, main_v76, main_v77, main_cst_9, main_v78, main_v79, main_v80, main_v81, main_v82, main_v83, main_v84, main_v85, main_v86, main_v87, main_v88, main_call1_cst, main_call1_v0, main_v89, main_v90, main_v91, main_v92, main_v93, main_v94, main_v95, main_v96, main_v97, main_c_10, main_v98, main_v99, main_v100, main_v101, main_v102, main_v103, main_v104, main_v105, main_v106]
set_option maxRecDepth 8192 in
set_option maxHeartbeats 4000000 in
theorem ops1_writes : (ops1 : List (HloOp τ sig (Elt F))).Forall fun op =>
    op.writes ⊆ (ops1_W.map (Proc.devRef (τ := τ) .tc)).toFinset := by writes_sub
theorem val2_keep (V0 : Valuation τ sig (Elt F)) (r : Ref sig .tc) (h : r ∉ ops1_W) :
    val2 V0 (no_index (Proc.devRef .tc r)) = val1 V0 (Proc.devRef .tc r) :=
  after_of_writes_sub ops1 _ ops1_writes h

set_option maxRecDepth 8192 in
set_option maxHeartbeats 8000000 in
theorem val2_main_v104 (V0 : Valuation τ sig (Elt F)) :
    val2 V0 (no_index (Proc.devRef .tc main_v104)) = acc1 (V0 (Proc.devRef .tc main_arg0)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val2
  simp only [ops1]
  after_results_simp
  simp (disch := decide) only [val1_keep, val1_main_v52] <;> rfl

set_option maxRecDepth 8192 in
set_option maxHeartbeats 8000000 in
theorem val2_main_v106 (V0 : Valuation τ sig (Elt F)) :
    val2 V0 (no_index (Proc.devRef .tc main_v106)) = matL ![2, 0, 0] slices_S5x1024x1024_S1x1024x1024_2_0_0 (V0 (Proc.devRef .tc main_arg4)) := by
  unfold val2
  simp only [ops1]
  after_results_simp
  simp (disch := decide) only [val1_keep, val1_main_v52] <;> rfl

def val3 (V0 : Valuation τ sig (Elt F)) : Valuation τ sig (Elt F) := after ops2 (val2 V0)
noncomputable abbrev ops2_W : List (Ref sig .tc) := [main_v107, main_v108, main_v109, main_v110, main_v111, main_v112, main_v113, main_v114, main_v115, main_v116, main_cst_11, main_v117, main_v118, main_cst_12, main_v119, main_v120, main_v121, main_v122, main_v123, main_cst_13, main_v124, main_v125, main_cst_14, main_v126, main_v127, main_v128, main_v129, main_cst_15, main_v130, main_v131, main_v132, main_v133, main_v134, main_v135, main_v136, main_v137, main_v138, main_v139, main_v140, main_call2_cst, main_call2_v0, main_v141, main_v142, main_v143, main_v144, main_v145, main_v146, main_v147, main_v148, main_v149, main_c_16, main_v150, main_v151, main_v152, main_v153, main_v154, main_v155, main_v156, main_v157, main_v158, main_v159, main_v160]
set_option maxRecDepth 8192 in
set_option maxHeartbeats 4000000 in
theorem ops2_writes : (ops2 : List (HloOp τ sig (Elt F))).Forall fun op =>
    op.writes ⊆ (ops2_W.map (Proc.devRef (τ := τ) .tc)).toFinset := by writes_sub
theorem val3_keep (V0 : Valuation τ sig (Elt F)) (r : Ref sig .tc) (h : r ∉ ops2_W) :
    val3 V0 (no_index (Proc.devRef .tc r)) = val2 V0 (Proc.devRef .tc r) :=
  after_of_writes_sub ops2 _ ops2_writes h

set_option maxRecDepth 8192 in
set_option maxHeartbeats 8000000 in
theorem val3_main_v156 (V0 : Valuation τ sig (Elt F)) :
    val3 V0 (no_index (Proc.devRef .tc main_v156)) = acc2 (V0 (Proc.devRef .tc main_arg0)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val3
  simp only [ops2]
  after_results_simp
  simp (disch := decide) only [val2_keep, val1_keep, val2_main_v104, val2_main_v106] <;> rfl

set_option maxRecDepth 8192 in
set_option maxHeartbeats 8000000 in
theorem val3_main_v159 (V0 : Valuation τ sig (Elt F)) :
    val3 V0 (no_index (Proc.devRef .tc main_v159)) = Host.dotGeneral dot_S32x512x1024_S1024x1024_S32x512x1024_2_0_01_1_n_n none (V0 (Proc.devRef .tc main_arg0)) (matL ![3, 0, 0] slices_S5x1024x1024_S1x1024x1024_3_0_0 (V0 (Proc.devRef .tc main_arg4))) := by
  unfold val3
  simp only [ops2]
  after_results_simp
  simp (disch := decide) only [val2_keep, val1_keep, val2_main_v104, val2_main_v106] <;> rfl

set_option maxRecDepth 8192 in
set_option maxHeartbeats 8000000 in
theorem val3_main_v160 (V0 : Valuation τ sig (Elt F)) :
    val3 V0 (no_index (Proc.devRef .tc main_v160)) = extractStridedSlice S1x1024 ![3, 0] (V0 (Proc.devRef .tc main_arg5)) slices_S5x1024_S1x1024_3_0 := by
  unfold val3
  simp only [ops2]
  after_results_simp
  simp (disch := decide) only [val2_keep, val1_keep, val2_main_v104, val2_main_v106] <;> rfl

def val4 (V0 : Valuation τ sig (Elt F)) : Valuation τ sig (Elt F) := after ops3 (val3 V0)
noncomputable abbrev ops3_W : List (Ref sig .tc) := [main_v161, main_v162, main_v163, main_v164, main_v165, main_v166, main_v167, main_v168, main_cst_17, main_v169, main_v170, main_cst_18, main_v171, main_v172, main_v173, main_v174, main_v175, main_cst_19, main_v176, main_v177, main_cst_20, main_v178, main_v179, main_v180, main_v181, main_cst_21, main_v182, main_v183, main_v184, main_v185, main_v186, main_v187, main_v188, main_v189, main_v190, main_v191, main_v192, main_call3_cst, main_call3_v0, main_v193, main_v194, main_v195, main_v196, main_v197, main_v198, main_v199, main_v200, main_v201, main_c_22, main_v202, main_v203, main_v204, main_v205, main_v206, main_v207, main_v208, main_v209, main_v210, main_v211, main_v212, main_v213, main_v214]
set_option maxRecDepth 8192 in
set_option maxHeartbeats 4000000 in
theorem ops3_writes : (ops3 : List (HloOp τ sig (Elt F))).Forall fun op =>
    op.writes ⊆ (ops3_W.map (Proc.devRef (τ := τ) .tc)).toFinset := by writes_sub
theorem val4_keep (V0 : Valuation τ sig (Elt F)) (r : Ref sig .tc) (h : r ∉ ops3_W) :
    val4 V0 (no_index (Proc.devRef .tc r)) = val3 V0 (Proc.devRef .tc r) :=
  after_of_writes_sub ops3 _ ops3_writes h

set_option maxRecDepth 8192 in
set_option maxHeartbeats 8000000 in
theorem val4_main_v208 (V0 : Valuation τ sig (Elt F)) :
    val4 V0 (no_index (Proc.devRef .tc main_v208)) = acc3 (V0 (Proc.devRef .tc main_arg0)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val4
  simp only [ops3]
  after_results_simp
  simp (disch := decide) only [val3_keep, val2_keep, val1_keep, val3_main_v156, val3_main_v159, val3_main_v160] <;> rfl

set_option maxRecDepth 8192 in
set_option maxHeartbeats 8000000 in
theorem val4_main_v211 (V0 : Valuation τ sig (Elt F)) :
    val4 V0 (no_index (Proc.devRef .tc main_v211)) = Host.dotGeneral dot_S32x512x1024_S1024x1024_S32x512x1024_2_0_01_1_n_n none (V0 (Proc.devRef .tc main_arg0)) (matL ![4, 0, 0] slices_S5x1024x1024_S1x1024x1024_4_0_0 (V0 (Proc.devRef .tc main_arg4))) := by
  unfold val4
  simp only [ops3]
  after_results_simp
  simp (disch := decide) only [val3_keep, val2_keep, val1_keep, val3_main_v156, val3_main_v159, val3_main_v160] <;> rfl

set_option maxRecDepth 8192 in
set_option maxHeartbeats 8000000 in
theorem val4_main_v214 (V0 : Valuation τ sig (Elt F)) :
    val4 V0 (no_index (Proc.devRef .tc main_v214)) = broadcastInDim S1x1x1024 ![2] bcast_S1024_S1x1x1024_2 (vecL ![4, 0] slices_S5x1024_S1x1024_4_0 (V0 (Proc.devRef .tc main_arg5))) := by
  unfold val4
  simp only [ops3]
  after_results_simp
  simp (disch := decide) only [val3_keep, val2_keep, val1_keep, val3_main_v156, val3_main_v159, val3_main_v160] <;> rfl

def val5 (V0 : Valuation τ sig (Elt F)) : Valuation τ sig (Elt F) := after ops4 (val4 V0)
noncomputable abbrev ops4_W : List (Ref sig .tc) := [main_v215, main_v216, main_v217, main_v218, main_v219, main_v220, main_cst_23, main_v221, main_v222, main_cst_24, main_v223, main_v224, main_v225, main_v226, main_v227, main_cst_25, main_v228, main_v229, main_cst_26, main_v230, main_v231, main_v232, main_v233, main_cst_27, main_v234, main_v235, main_v236, main_v237, main_v238, main_v239, main_v240, main_v241, main_v242, main_v243, main_v244, main_call4_cst, main_call4_v0, main_v245, main_v246, main_v247, main_v248, main_v249, main_v250, main_v251, main_v252, main_v253, main_c_28, main_v254, main_v255, main_v256, main_v257, main_v258, main_v259, main_v260, main_v261, main_v262, main_v263, main_cst_29, main_v264, main_cst_30, main_v265, main_v266]
set_option maxRecDepth 8192 in
set_option maxHeartbeats 4000000 in
theorem ops4_writes : (ops4 : List (HloOp τ sig (Elt F))).Forall fun op =>
    op.writes ⊆ (ops4_W.map (Proc.devRef (τ := τ) .tc)).toFinset := by writes_sub
theorem val5_keep (V0 : Valuation τ sig (Elt F)) (r : Ref sig .tc) (h : r ∉ ops4_W) :
    val5 V0 (no_index (Proc.devRef .tc r)) = val4 V0 (Proc.devRef .tc r) :=
  after_of_writes_sub ops4 _ ops4_writes h

set_option maxRecDepth 8192 in
set_option maxHeartbeats 8000000 in
theorem val5_main_v264 (V0 : Valuation τ sig (Elt F)) :
    val5 V0 (no_index (Proc.devRef .tc main_v264)) = poolNum (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val5
  simp only [ops4]
  after_results_simp
  simp (disch := decide) only [val4_keep, val3_keep, val2_keep, val1_keep, val4_main_v208, val4_main_v211, val4_main_v214] <;> rfl

set_option maxRecDepth 8192 in
set_option maxHeartbeats 8000000 in
theorem val5_main_v266 (V0 : Valuation τ sig (Elt F)) :
    val5 V0 (no_index (Proc.devRef .tc main_v266)) = poolDen (V0 (Proc.devRef .tc main_arg1)) := by
  unfold val5
  simp only [ops4]
  after_results_simp
  simp (disch := decide) only [val4_keep, val3_keep, val2_keep, val1_keep, val4_main_v208, val4_main_v211, val4_main_v214] <;> rfl

def val6 (V0 : Valuation τ sig (Elt F)) : Valuation τ sig (Elt F) := after ops5 (val5 V0)
noncomputable abbrev ops5_W : List (Ref sig .tc) := [main_v267, main_v268, main_v269, main_v270, main_v271, main_v272, main_v273, main_cst_31, main_v274, main_v275, main_cst_32, main_v276, main_v277, main_v278, main_v279, main_v280, main_cst_33, main_v281, main_v282, main_cst_34, main_v283, main_v284, main_v285, main_v286, main_cst_35, main_v287, main_v288, main_v289, main_v290, main_v291, main_v292, main_v293, main_v294, main_v295, main_v296, main_v297, main_call5_cst, main_call5_v0, main_v298]
set_option maxRecDepth 8192 in
set_option maxHeartbeats 4000000 in
theorem ops5_writes : (ops5 : List (HloOp τ sig (Elt F))).Forall fun op =>
    op.writes ⊆ (ops5_W.map (Proc.devRef (τ := τ) .tc)).toFinset := by writes_sub
theorem val6_keep (V0 : Valuation τ sig (Elt F)) (r : Ref sig .tc) (h : r ∉ ops5_W) :
    val6 V0 (no_index (Proc.devRef .tc r)) = val5 V0 (Proc.devRef .tc r) :=
  after_of_writes_sub ops5 _ ops5_writes h

set_option maxRecDepth 8192 in
set_option maxHeartbeats 8000000 in
theorem val6_main_v298 (V0 : Valuation τ sig (Elt F)) :
    val6 V0 (no_index (Proc.devRef .tc main_v298)) = tailR (pooledR (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))) (V0 (Proc.devRef .tc main_arg3)) (V0 (Proc.devRef .tc main_arg10)) (V0 (Proc.devRef .tc main_arg11)) (V0 (Proc.devRef .tc main_arg12)) (V0 (Proc.devRef .tc main_arg13)) := by
  unfold val6
  simp only [ops5]
  after_results_simp
  simp (disch := decide) only [val5_keep, val4_keep, val3_keep, val2_keep, val1_keep, val5_main_v264, val5_main_v266] <;> rfl

noncomputable abbrev ops : List (HloOp τ sig (Elt F)) := ops0 ++ (ops1 ++ (ops2 ++ (ops3 ++ (ops4 ++ ops5))))
noncomputable abbrev opsW : List (Ref sig .tc) := ops0_W ++ (ops1_W ++ (ops2_W ++ (ops3_W ++ (ops4_W ++ ops5_W))))

theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h,
      List.forall_iff_forall_mem.mp ops3_sub op h, List.forall_iff_forall_mem.mp ops4_sub op h, List.forall_iff_forall_mem.mp ops5_sub op h]
theorem ops_fresh : ∀ op ∈ (ops : List (HloOp τ sig (Elt F))), op.fresh = ∅ := fun op h => by
  simp only [ops, List.mem_append] at h
  rcases h with h | h | h | h | h | h
  exacts [ops0_fresh op h, ops1_fresh op h, ops2_fresh op h, ops3_fresh op h, ops4_fresh op h, ops5_fresh op h]

theorem after_ops (V0 : Valuation τ sig (Elt F)) : after ops V0 = val6 V0 := by
  simp only [ops, after_app]
  rfl

-- a buffer no window writes keeps its launch contents to the end
theorem val6_arg (V0 : Valuation τ sig (Elt F)) (r : Ref sig .tc) (h : r ∉ opsW) :
    val6 V0 (Proc.devRef .tc r) = V0 (Proc.devRef .tc r) := by
  simp only [opsW, List.mem_append, not_or] at h
  exact (val6_keep V0 r h.2.2.2.2.2).trans <| (val5_keep V0 r h.2.2.2.2.1).trans <| (val4_keep V0 r h.2.2.2.1).trans <|
    (val3_keep V0 r h.2.2.1).trans <| (val2_keep V0 r h.2.1).trans (val1_keep V0 r h.1)

def v0R (m : (ℓ : Loc nD τ sig) → Buf (Elt F) ℓ) (c : Dev nD) : Buf (Elt F) ((c.tc : Thread nD τ).loc main_v298) :=
  tailR (pooledR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)))
    (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13))

-- every weakly fair execution of @main ends with the result at the fusion tail of the pooled array and the arguments as launched
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v298) = v0R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun s h c => by
    have k : ∀ r : Ref sig .tc, r ∉ opsW → s.2.mem ((c.tc : Thread nD τ).loc r) = m ((c.tc : Thread nD τ).loc r) :=
      fun r hr => (h c r).trans (by rw [after_ops]; exact val6_arg _ r hr)
    exact ⟨(h c main_v298).trans (by rw [after_ops]; exact val6_main_v298 (launchContents m c)),
      k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide)⟩)
    (run_seq scopedRefs_eq scopedSems_eq defs main (fun _ => ops) main_eq (fun _ => ops_sub) m ρ (fun _ => ops_fresh))

end Cert.RefSide

end
-- ==== Proof.KI.TailV.lean ====
import proofs.«423535_j34024730919221_3_alg».proof.Proof.KI.Tail
import proofs.«423535_j34024730919221_3_alg».proof.Proof.Ref1

set_option maxRecDepth 16384

noncomputable section

namespace Cert.KI

open Cert.KernelIdeal Cert.KernelIdeal.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

def cat2 (a : FVec F S32x1024 .f32) (b : FVec F S32x100 .f32) : FVec F S32x1124 .f32 :=
  concatenate S32x1124 1 [⟨S32x1024, a⟩, ⟨S32x100, b⟩] concatenates_S32x1024_S32x100_S32x1124_d1

theorem cat_result (ha hb hy) (W : Valuation τ sig (Elt F)) :
    (StableHlo.binary (τ := τ) main_v38 main_arg3 main_v39
      ((fun a b => concatenate S32x1124 1 [⟨S32x1024, a⟩, ⟨S32x100, b⟩] concatenates_S32x1024_S32x100_S32x1124_d1) :
        (⟨S32x1024, .f32⟩ : BufTy).Contents (Elt F) → (⟨S32x100, .f32⟩ : BufTy).Contents (Elt F) → (⟨S32x1124, .f32⟩ : BufTy).Contents (Elt F))
      ha hb hy).result W (no_index (Proc.devRef .tc main_v39))
      = cat2 (W (Proc.devRef .tc main_v38)) (W (Proc.devRef .tc main_arg3)) :=
  StableHlo.binary_result' _ ha hb hy W

theorem after_v68 (W : Valuation τ sig (Elt F)) :
    StableHlo.after hostOps1_1 (StableHlo.after hostOps1 W) (Proc.devRef .tc main_v68)
      = Cert.RefSide.tailR (StableHlo.after hostOps1 W (Proc.devRef .tc main_v38)) (W (Proc.devRef .tc main_arg3)) (W (Proc.devRef .tc main_arg10))
          (W (Proc.devRef .tc main_arg11)) (W (Proc.devRef .tc main_arg12)) (W (Proc.devRef .tc main_arg13)) := by
  simp only [hostOps1, hostOps1_1]
  simp (disch := decide) only [StableHlo.after_cons, StableHlo.after_nil, ↓ cat_result,
    StableHlo.nullary_result', StableHlo.unary_result', StableHlo.binary_result', StableHlo.ternary_result',
    StableHlo.nullary_result_ne', StableHlo.unary_result_ne', StableHlo.binary_result_ne', StableHlo.ternary_result_ne']
  rfl

theorem X2_v68 (hO : Ok m) (c : Dev nD) :
    X2 m hO c (Proc.devRef .tc main_v68)
      = Cert.RefSide.tailR (X1 m hO c (Proc.devRef .tc main_v38)) (m (c, Proc.devRef .tc main_arg3)) (m (c, Proc.devRef .tc main_arg10))
          (m (c, Proc.devRef .tc main_arg11)) (m (c, Proc.devRef .tc main_arg12)) (m (c, Proc.devRef .tc main_arg13)) := by
  have e3 : Wx m hO c (Proc.devRef .tc main_arg3) = m (c, Proc.devRef .tc main_arg3) := Wx_bypass m hO c main_arg3 (by decide) (by decide)
  have e10 : Wx m hO c (Proc.devRef .tc main_arg10) = m (c, Proc.devRef .tc main_arg10) := Wx_bypass m hO c main_arg10 (by decide) (by decide)
  have e11 : Wx m hO c (Proc.devRef .tc main_arg11) = m (c, Proc.devRef .tc main_arg11) := Wx_bypass m hO c main_arg11 (by decide) (by decide)
  have e12 : Wx m hO c (Proc.devRef .tc main_arg12) = m (c, Proc.devRef .tc main_arg12) := Wx_bypass m hO c main_arg12 (by decide) (by decide)
  have e13 : Wx m hO c (Proc.devRef .tc main_arg13) = m (c, Proc.devRef .tc main_arg13) := Wx_bypass m hO c main_arg13 (by decide) (by decide)
  exact (after_v68 (F := F) (Wx m hO c)).trans
    (congr (congr (congr (congr (congrArg (Cert.RefSide.tailR (StableHlo.after hostOps1 (Wx m hO c) (Proc.devRef .tc main_v38))) e3) e10) e11) e12) e13)

end Cert.KI

end
-- ==== Proof.Ref2.lean ====
import proofs.«423535_j34024730919221_3_alg».proof.Proof.Spec
import proofs.«423535_j34024730919221_3_alg».proof.Proof.Ref1
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

section Reads

open Cert.Pool

theorem uitofp_cmpi_eq (x y : BitVec 32) :
    FloatOps.uitofp (F := Ideal) .f32 (IntOp.cmpi .eq x y) = if x = y then (1 : EReal) else 0 := by
  show (((IntOp.cmpi .eq x y).toNat : ℝ) : EReal) = _
  by_cases h : x = y
  · subst h; simp [IntOp.cmpi]
  · simp [IntOp.cmpi, h]

theorem matL_apply (n : Nat) (hn : n < 5) (h3 : S5x1024x1024.Slices ![n, 0, 0] S1x1024x1024) (W : CF Ideal S5x1024x1024)
    (k e : Fin 1024) : matL ![n, 0, 0] h3 W (ValueIdx.ix2 k e) = W (ValueIdx.ix3 (⟨n, hn⟩ : Fin 5) k e) := by
  unfold matL
  refine (shapeCast_apply _ shapeCasts_S1x1024x1024_S1024x1024 (ValueIdx.ix2 k e) (ValueIdx.ix3 (0 : Fin 1) k e) ?_).trans ?_
  · rw [Shape.rowMajor_val_three, Shape.rowMajor_val_two]
    show (0 * 1024 + k.val) * 1024 + e.val = k.val * 1024 + e.val
    omega
  · exact extractStridedSlice_apply ![n, 0, 0] W h3 _ _ (fun a => match a with
      | ⟨0, _⟩ => by show n = n + 0; omega
      | ⟨1, _⟩ => by show k.val = 0 + k.val; omega
      | ⟨2, _⟩ => by show e.val = 0 + e.val; omega)

theorem vecL_apply (n : Nat) (hn : n < 5) (h2 : S5x1024.Slices ![n, 0] S1x1024) (p : CF Ideal S5x1024) (e : Fin 1024) :
    vecL ![n, 0] h2 p (ValueIdx.ix1 e) = p (ValueIdx.ix2 (⟨n, hn⟩ : Fin 5) e) := by
  unfold vecL
  refine (shapeCast_apply _ shapeCasts_S1x1024_S1024 (ValueIdx.ix1 e) (ValueIdx.ix2 (0 : Fin 1) e) ?_).trans ?_
  · rw [Shape.rowMajor_val_two, Shape.rowMajor_val_one]
    show 0 * 1024 + e.val = e.val
    omega
  · exact extractStridedSlice_apply ![n, 0] p h2 _ _ (fun a => match a with
      | ⟨0, _⟩ => by show n = n + 0; omega
      | ⟨1, _⟩ => by show e.val = 0 + e.val; omega)

theorem rowB_apply (v : CF Ideal S1024) (b : Fin 32) (s : Fin 512) (e : Fin 1024) :
    rowB v (ValueIdx.ix3 b s e) = v (ValueIdx.ix1 e) := by
  unfold rowB
  refine (broadcastInDim_apply ![0, 1, 2] bcast_S1x1x1024_S32x512x1024_0_1_2 _ (ValueIdx.ix3 b s e)
    (ValueIdx.ix3 (0 : Fin 1) (0 : Fin 1) e) (fun a => match a with
      | ⟨0, _⟩ => by show 0 = if (1 : Nat) = 1 then 0 else b.val; rw [if_pos rfl]
      | ⟨1, _⟩ => by show 0 = if (1 : Nat) = 1 then 0 else s.val; rw [if_pos rfl]
      | ⟨2, _⟩ => by show e.val = if (1024 : Nat) = 1 then 0 else e.val; rw [if_neg (by decide)])).trans ?_
  exact broadcastInDim_apply ![2] bcast_S1024_S1x1x1024_2 v _ (ValueIdx.ix1 e) (fun a => match a with
      | ⟨0, _⟩ => by show e.val = if (1024 : Nat) = 1 then 0 else e.val; rw [if_neg (by decide)])

theorem dotL_lhs0 (i : S32x512x1024.Idx) (q : dot_S32x512x1024_S1024x1024_S32x512x1024_2_0_01_1_n_n.contr.Idx) : (dot_S32x512x1024_S1024x1024_S32x512x1024_2_0_01_1_n_n.lhsIdx i q 0).val = (i 0).val := by
  unfold DotDims.lhsIdx
  rw [dif_neg (show ¬(0 : Fin S32x512x1024.rank) ∈ dot_S32x512x1024_S1024x1024_S32x512x1024_2_0_01_1_n_n.lhsBatch by decide), dif_pos (show (0 : Fin S32x512x1024.rank) ∈ dot_S32x512x1024_S1024x1024_S32x512x1024_2_0_01_1_n_n.lhsNonContracting by decide)]
  rfl
theorem dotL_lhs1 (i : S32x512x1024.Idx) (q : dot_S32x512x1024_S1024x1024_S32x512x1024_2_0_01_1_n_n.contr.Idx) : (dot_S32x512x1024_S1024x1024_S32x512x1024_2_0_01_1_n_n.lhsIdx i q 1).val = (i 1).val := by
  unfold DotDims.lhsIdx
  rw [dif_neg (show ¬(1 : Fin S32x512x1024.rank) ∈ dot_S32x512x1024_S1024x1024_S32x512x1024_2_0_01_1_n_n.lhsBatch by decide), dif_pos (show (1 : Fin S32x512x1024.rank) ∈ dot_S32x512x1024_S1024x1024_S32x512x1024_2_0_01_1_n_n.lhsNonContracting by decide)]
  rfl
theorem dotL_lhs2 (i : S32x512x1024.Idx) (q : dot_S32x512x1024_S1024x1024_S32x512x1024_2_0_01_1_n_n.contr.Idx) : (dot_S32x512x1024_S1024x1024_S32x512x1024_2_0_01_1_n_n.lhsIdx i q 2).val = (q ⟨0, by decide⟩).val :=
  dot_S32x512x1024_S1024x1024_S32x512x1024_2_0_01_1_n_n.lhsIdx_val_of_single rfl i q
theorem dotL_rhs0 (i : S32x512x1024.Idx) (q : dot_S32x512x1024_S1024x1024_S32x512x1024_2_0_01_1_n_n.contr.Idx) : (dot_S32x512x1024_S1024x1024_S32x512x1024_2_0_01_1_n_n.rhsIdx i q 0).val = (q ⟨0, by decide⟩).val :=
  dot_S32x512x1024_S1024x1024_S32x512x1024_2_0_01_1_n_n.rhsIdx_val_of_single rfl i q
theorem dotL_rhs1 (i : S32x512x1024.Idx) (q : dot_S32x512x1024_S1024x1024_S32x512x1024_2_0_01_1_n_n.contr.Idx) : (dot_S32x512x1024_S1024x1024_S32x512x1024_2_0_01_1_n_n.rhsIdx i q 1).val = (i 2).val := by
  unfold DotDims.rhsIdx
  rw [dif_neg (show ¬(1 : Fin S1024x1024.rank) ∈ dot_S32x512x1024_S1024x1024_S32x512x1024_2_0_01_1_n_n.rhsBatch by decide), dif_pos (show (1 : Fin S1024x1024.rank) ∈ dot_S32x512x1024_S1024x1024_S32x512x1024_2_0_01_1_n_n.rhsNonContracting by decide)]
  rfl

theorem dotL_apply (x : FVec Ideal S32x512x1024 .f32) (w : FVec Ideal S1024x1024 .f32) (b : Fin 32) (s : Fin 512) (e : Fin 1024) :
    Host.dotGeneral (F := Ideal) dot_S32x512x1024_S1024x1024_S32x512x1024_2_0_01_1_n_n none x w (ValueIdx.ix3 b s e)
      = ∑ k : Fin 1024, x (ValueIdx.ix3 b s k) * w (ValueIdx.ix2 k e) := by
  simp only [Host.dotGeneral]
  rw [Ideal.dotGeneral_apply, ← Equiv.sum_comp (ValueIdx.contrEquiv1 dot_S32x512x1024_S1024x1024_S32x512x1024_2_0_01_1_n_n 1024 rfl rfl).symm]
  refine Finset.sum_congr rfl fun k _ => ?_
  have hk := ValueIdx.contrEquiv1_symm_val dot_S32x512x1024_S1024x1024_S32x512x1024_2_0_01_1_n_n 1024 rfl rfl k
  have el : dot_S32x512x1024_S1024x1024_S32x512x1024_2_0_01_1_n_n.lhsIdx (ValueIdx.ix3 b s e) ((ValueIdx.contrEquiv1 dot_S32x512x1024_S1024x1024_S32x512x1024_2_0_01_1_n_n 1024 rfl rfl).symm k) = ValueIdx.ix3 b s k :=
    funext fun a => Fin.ext (by
      match a with
      | ⟨0, _⟩ => exact dotL_lhs0 _ _
      | ⟨1, _⟩ => exact dotL_lhs1 _ _
      | ⟨2, _⟩ => exact (dotL_lhs2 _ _).trans hk)
  have er : dot_S32x512x1024_S1024x1024_S32x512x1024_2_0_01_1_n_n.rhsIdx (ValueIdx.ix3 b s e) ((ValueIdx.contrEquiv1 dot_S32x512x1024_S1024x1024_S32x512x1024_2_0_01_1_n_n 1024 rfl rfl).symm k) = ValueIdx.ix2 k e :=
    funext fun a => Fin.ext (by
      match a with
      | ⟨0, _⟩ => exact (dotL_rhs0 _ _).trans hk
      | ⟨1, _⟩ => exact dotL_rhs1 _ _)
  rw [el, er]

theorem sumLanes_apply (h : CF Ideal S32x512x1024) (b : Fin 32) (s : Fin 512) :
    Host.reduceAdd (F := Ideal) h (constant S_ .f32 0x00000000#32) reducesTo_S32x512x1024_S32x512_d2 h_S_ (ValueIdx.ix2 b s)
      = ∑ e : Fin 1024, h (ValueIdx.ix3 b s e) := by
  simp only [Host.reduceAdd, Ideal.hostReduceAdd_def]
  rw [Ideal.hostReduceAdd_single reducesTo_S32x512x1024_S32x512_d2 (by decide)]
  show Ideal.ofBits .f32 0x00000000#32 + _ = _
  rw [Ideal.ofBits_zero_f32, zero_add]
  exact Finset.sum_congr rfl fun k _ => congrArg h (funext fun a => Fin.ext (by
    match a with | ⟨0, _⟩ => rfl | ⟨1, _⟩ => rfl | ⟨2, _⟩ => rfl))
theorem sumSeq_apply (y : CF Ideal S32x512x1024) (b : Fin 32) (e : Fin 1024) :
    Host.reduceAdd (F := Ideal) y (constant S_ .f32 0x00000000#32) reducesTo_S32x512x1024_S32x1024_d1 h_S_ (ValueIdx.ix2 b e)
      = ∑ s : Fin 512, y (ValueIdx.ix3 b s e) := by
  simp only [Host.reduceAdd, Ideal.hostReduceAdd_def]
  rw [Ideal.hostReduceAdd_single reducesTo_S32x512x1024_S32x1024_d1 (by decide)]
  show Ideal.ofBits .f32 0x00000000#32 + _ = _
  rw [Ideal.ofBits_zero_f32, zero_add]
  exact Finset.sum_congr rfl fun k _ => congrArg y (funext fun a => Fin.ext (by
    match a with | ⟨0, _⟩ => rfl | ⟨1, _⟩ => rfl | ⟨2, _⟩ => rfl))
theorem sumMask_apply (x1 : CF Ideal S32x512) (b : Fin 32) :
    Host.reduceAdd (F := Ideal) x1 (constant S_ .f32 0x00000000#32) reducesTo_S32x512_S32_d1 h_S_ (ValueIdx.ix1 b)
      = ∑ s : Fin 512, x1 (ValueIdx.ix2 b s) := by
  simp only [Host.reduceAdd, Ideal.hostReduceAdd_def]
  rw [Ideal.hostReduceAdd_single reducesTo_S32x512_S32_d1 (by decide)]
  show Ideal.ofBits .f32 0x00000000#32 + _ = _
  rw [Ideal.ofBits_zero_f32, zero_add]
  exact Finset.sum_congr rfl fun k _ => congrArg x1 (funext fun a => Fin.ext (by
    match a with | ⟨0, _⟩ => rfl | ⟨1, _⟩ => rfl))

theorem denseL_apply (n : Nat) (hn : n < 5) (h3 : S5x1024x1024.Slices ![n, 0, 0] S1x1024x1024) (h2 : S5x1024.Slices ![n, 0] S1x1024)
    (x : CF Ideal S32x512x1024) (W : CF Ideal S5x1024x1024) (p : CF Ideal S5x1024) (b : Fin 32) (s : Fin 512) (e : Fin 1024) :
    denseL ![n, 0, 0] h3 ![n, 0] h2 x W p (ValueIdx.ix3 b s e)
      = (∑ k : Fin 1024, x (ValueIdx.ix3 b s k) * W (ValueIdx.ix3 (⟨n, hn⟩ : Fin 5) k e))
        + p (ValueIdx.ix2 (⟨n, hn⟩ : Fin 5) e) := by
  unfold denseL
  rw [ValueIdx.addf_apply, dotL_apply, rowB_apply, vecL_apply n hn]
  simp only [matL_apply n hn]

theorem lnMean_apply (h : CF Ideal S32x512x1024) (b : Fin 32) (s : Fin 512) :
    lnMean h (ValueIdx.ix3 b s (0 : Fin 1)) = Ideal.div (∑ e : Fin 1024, h (ValueIdx.ix3 b s e)) c1024 := by
  unfold lnMean
  show Ideal.div _ _ = Ideal.div _ _
  refine congrArg₂ Ideal.div ?_ rfl
  refine (broadcastInDim_apply ![0, 1] bcast_S32x512_S32x512x1_0_1 _ _ (ValueIdx.ix2 b s) (fun a => match a with
      | ⟨0, _⟩ => by show b.val = if (32 : Nat) = 1 then 0 else b.val; rw [if_neg (by decide)]
      | ⟨1, _⟩ => by show s.val = if (512 : Nat) = 1 then 0 else s.val; rw [if_neg (by decide)])).trans ?_
  exact sumLanes_apply h b s

theorem lnDev_apply (h : CF Ideal S32x512x1024) (b : Fin 32) (s : Fin 512) (e : Fin 1024) :
    lnDev h (ValueIdx.ix3 b s e) = h (ValueIdx.ix3 b s e) - lnMean h (ValueIdx.ix3 b s (0 : Fin 1)) := by
  unfold lnDev
  rw [ValueIdx.subf_apply]
  refine congrArg (h (ValueIdx.ix3 b s e) - ·) ?_
  exact broadcastInDim_apply ![0, 1, 2] bcast_S32x512x1_S32x512x1024_0_1_2 _ _ (ValueIdx.ix3 b s (0 : Fin 1)) (fun a => match a with
      | ⟨0, _⟩ => by show b.val = if (32 : Nat) = 1 then 0 else b.val; rw [if_neg (by decide)]
      | ⟨1, _⟩ => by show s.val = if (512 : Nat) = 1 then 0 else s.val; rw [if_neg (by decide)]
      | ⟨2, _⟩ => by show 0 = if (1 : Nat) = 1 then 0 else e.val; rw [if_pos rfl])

theorem lnRelu_apply (h g be : CF Ideal S32x512x1024) (b : Fin 32) (s : Fin 512) (e : Fin 1024) :
    lnRelu h g be (ValueIdx.ix3 b s e)
      = max (lnDev h (ValueIdx.ix3 b s e)
            * Ideal.rsqrt (lnMean (mulf (lnDev h) (lnDev h)) (ValueIdx.ix3 b s (0 : Fin 1)) + ceps) * g (ValueIdx.ix3 b s e)
          + be (ValueIdx.ix3 b s e)) 0 := by
  unfold lnRelu
  have hb := broadcastInDim_apply ![0, 1, 2] bcast_S32x512x1_S32x512x1024_0_1_2
    (Host.rsqrt (F := Ideal) (addf (lnMean (mulf (lnDev h) (lnDev h)))
      (broadcastInDim S32x512x1 ![] bcast_S_S32x512x1 (constant S_ .f32 0x3727C5AC#32))))
    (ValueIdx.ix3 b s e) (ValueIdx.ix3 b s (0 : Fin 1)) (fun a => match a with
      | ⟨0, _⟩ => by show b.val = if (32 : Nat) = 1 then 0 else b.val; rw [if_neg (by decide)]
      | ⟨1, _⟩ => by show s.val = if (512 : Nat) = 1 then 0 else s.val; rw [if_neg (by decide)]
      | ⟨2, _⟩ => by show 0 = if (1 : Nat) = 1 then 0 else e.val; rw [if_pos rfl])
  rw [ValueIdx.maximumf_apply, ValueIdx.addf_apply, ValueIdx.mulf_apply, ValueIdx.mulf_apply, hb]
  show max (lnDev h (ValueIdx.ix3 b s e)
        * Ideal.rsqrt (lnMean (mulf (lnDev h) (lnDev h)) (ValueIdx.ix3 b s (0 : Fin 1)) + Ideal.ofBits .f32 0x3727C5AC#32)
        * g (ValueIdx.ix3 b s e) + be (ValueIdx.ix3 b s e))
      (Ideal.ofBits .f32 0x00000000#32) = _
  rw [Ideal.ofBits_zero_f32]
  rfl

theorem maskL_apply (c : BitVec 32) (x2 : CI Ideal S32) (b : Fin 32) (s : Fin 512) (e : Fin 1024) :
    maskL c x2 (ValueIdx.ix3 b s e) = if x2 (ValueIdx.ix1 b) = c then (1 : EReal) else 0 := by
  unfold maskL
  refine (broadcastInDim_apply ![0, 1, 2] bcast_S32x1x1_S32x512x1024_0_1_2 _ _ (ValueIdx.ix3 b (0 : Fin 1) (0 : Fin 1)) (fun a => match a with
      | ⟨0, _⟩ => by show b.val = if (32 : Nat) = 1 then 0 else b.val; rw [if_neg (by decide)]
      | ⟨1, _⟩ => by show 0 = if (1 : Nat) = 1 then 0 else s.val; rw [if_pos rfl]
      | ⟨2, _⟩ => by show 0 = if (1 : Nat) = 1 then 0 else e.val; rw [if_pos rfl])).trans ?_
  refine (broadcastInDim_apply ![0] bcast_S32_S32x1x1_0 _ _ (ValueIdx.ix1 b) (fun a => match a with
      | ⟨0, _⟩ => by show b.val = if (32 : Nat) = 1 then 0 else b.val; rw [if_neg (by decide)])).trans ?_
  exact uitofp_cmpi_eq _ _

section Block

variable (a0 : CF Ideal S32x512x1024) (a1 : CF Ideal S32x512) (a2 : CI Ideal S32) (a4 : CF Ideal S5x1024x1024) (a5 a6 a7 : CF Ideal S5x1024)
  (a8 : CF Ideal S5x1024x1024) (a9 : CF Ideal S5x1024)

local notation "Xf" => (fun (b : Fin 32) (s : Fin 512) (k : Fin 1024) => a0 (ValueIdx.ix3 b s k))
local notation "W1f" => (fun (l : Fin 5) (k : Fin 1024) (e : Fin 1024) => a4 (ValueIdx.ix3 l k e))
local notation "B1f" => (fun (l : Fin 5) (e : Fin 1024) => a5 (ValueIdx.ix2 l e))
local notation "G1f" => (fun (l : Fin 5) (e : Fin 1024) => a6 (ValueIdx.ix2 l e))
local notation "Be1f" => (fun (l : Fin 5) (e : Fin 1024) => a7 (ValueIdx.ix2 l e))
local notation "W2f" => (fun (l : Fin 5) (k : Fin 1024) (e : Fin 1024) => a8 (ValueIdx.ix3 l k e))
local notation "B2f" => (fun (l : Fin 5) (e : Fin 1024) => a9 (ValueIdx.ix2 l e))

variable (n : Nat) (hn : n < 5) (h3 : S5x1024x1024.Slices ![n, 0, 0] S1x1024x1024) (h2 : S5x1024.Slices ![n, 0] S1x1024)
  (b : Fin 32) (s : Fin 512)

theorem blk_h1 (e : Fin 1024) :
    denseL ![n, 0, 0] h3 ![n, 0] h2 a0 a4 a5 (ValueIdx.ix3 b s e) = h1 Xf W1f B1f ⟨n, hn⟩ b s e :=
  (denseL_apply n hn h3 h2 a0 a4 a5 b s e).trans rfl

theorem blk_mu :
    lnMean (denseL ![n, 0, 0] h3 ![n, 0] h2 a0 a4 a5) (ValueIdx.ix3 b s (0 : Fin 1)) = mu Xf W1f B1f ⟨n, hn⟩ b s := by
  rw [lnMean_apply]
  simp only [blk_h1 a0 a4 a5 n hn h3 h2]
  rfl

theorem blk_dv (e : Fin 1024) :
    lnDev (denseL ![n, 0, 0] h3 ![n, 0] h2 a0 a4 a5) (ValueIdx.ix3 b s e) = dv Xf W1f B1f ⟨n, hn⟩ b s e := by
  rw [lnDev_apply, blk_h1 a0 a4 a5 n hn h3 h2, blk_mu a0 a4 a5 n hn h3 h2]
  rfl

theorem blk_var :
    lnMean (mulf (lnDev (denseL ![n, 0, 0] h3 ![n, 0] h2 a0 a4 a5)) (lnDev (denseL ![n, 0, 0] h3 ![n, 0] h2 a0 a4 a5)))
        (ValueIdx.ix3 b s (0 : Fin 1))
      = var Xf W1f B1f ⟨n, hn⟩ b s := by
  rw [lnMean_apply]
  simp only [ValueIdx.mulf_apply, blk_dv a0 a4 a5 n hn h3 h2]
  rfl

theorem blk_h1r (e : Fin 1024) :
    lnRelu (denseL ![n, 0, 0] h3 ![n, 0] h2 a0 a4 a5) (rowB (vecL ![n, 0] h2 a6)) (rowB (vecL ![n, 0] h2 a7)) (ValueIdx.ix3 b s e)
      = h1r Xf W1f B1f G1f Be1f ⟨n, hn⟩ b s e := by
  rw [lnRelu_apply, blk_dv a0 a4 a5 n hn h3 h2, blk_var a0 a4 a5 n hn h3 h2, rowB_apply, rowB_apply, vecL_apply n hn, vecL_apply n hn]
  rfl

theorem blk_h2 (e : Fin 1024) :
    adapterL ![n, 0, 0] h3 ![n, 0] h2 a0 a4 a5 a6 a7 a8 a9 (ValueIdx.ix3 b s e)
      = Cert.Pool.h2 Xf W1f B1f G1f Be1f W2f B2f ⟨n, hn⟩ b s e := by
  unfold adapterL
  rw [denseL_apply n hn]
  simp only [blk_h1r a0 a4 a5 a6 a7 n hn h3 h2]
  rfl

end Block

theorem ref_pooled (a0 : CF Ideal S32x512x1024) (a1 : CF Ideal S32x512) (a2 : CI Ideal S32) (a4 : CF Ideal S5x1024x1024)
    (a5 a6 a7 : CF Ideal S5x1024) (a8 : CF Ideal S5x1024x1024) (a9 : CF Ideal S5x1024) (b : Fin 32) (e : Fin 1024) :
    pooledR a0 a1 a2 a4 a5 a6 a7 a8 a9 (ValueIdx.ix2 b e)
      = Cert.Pool.rpool (fun b s k => a0 (ValueIdx.ix3 b s k)) (fun b s => a1 (ValueIdx.ix2 b s)) (fun b => a2 (ValueIdx.ix1 b))
          (fun l k e => a4 (ValueIdx.ix3 l k e)) (fun l e => a5 (ValueIdx.ix2 l e)) (fun l e => a6 (ValueIdx.ix2 l e))
          (fun l e => a7 (ValueIdx.ix2 l e)) (fun l k e => a8 (ValueIdx.ix3 l k e)) (fun l e => a9 (ValueIdx.ix2 l e)) b e := by
  unfold pooledR rpool
  show Ideal.div _ _ = Ideal.div _ _
  refine congrArg₂ Ideal.div ?_ ?_
  ·
    unfold poolNum
    rw [sumSeq_apply]
    refine Finset.sum_congr rfl fun s _ => ?_
    rw [ValueIdx.mulf_apply]
    refine congrArg₂ (· * ·) ?_ ?_
    · unfold acc4 acc3 acc2 acc1 acc0 termL adapted
      simp only [ValueIdx.addf_apply, ValueIdx.mulf_apply, maskL_apply,
        blk_h2 a0 a4 a5 a6 a7 a8 a9 0 (by omega) slices_S5x1024x1024_S1x1024x1024_0_0_0 slices_S5x1024_S1x1024_0_0,
        blk_h2 a0 a4 a5 a6 a7 a8 a9 1 (by omega) slices_S5x1024x1024_S1x1024x1024_1_0_0 slices_S5x1024_S1x1024_1_0,
        blk_h2 a0 a4 a5 a6 a7 a8 a9 2 (by omega) slices_S5x1024x1024_S1x1024x1024_2_0_0 slices_S5x1024_S1x1024_2_0,
        blk_h2 a0 a4 a5 a6 a7 a8 a9 3 (by omega) slices_S5x1024x1024_S1x1024x1024_3_0_0 slices_S5x1024_S1x1024_3_0,
        blk_h2 a0 a4 a5 a6 a7 a8 a9 4 (by omega) slices_S5x1024x1024_S1x1024x1024_4_0_0 slices_S5x1024_S1x1024_4_0]
      show Ideal.ofBits .f32 0x00000000#32 + _ + _ + _ + _ + _ = _
      rw [Ideal.ofBits_zero_f32]
      rfl
    · refine (broadcastInDim_apply ![0, 1, 2] bcast_S32x512x1_S32x512x1024_0_1_2 _ _ (ValueIdx.ix3 b s (0 : Fin 1)) (fun a => match a with
          | ⟨0, _⟩ => by show b.val = if (32 : Nat) = 1 then 0 else b.val; rw [if_neg (by decide)]
          | ⟨1, _⟩ => by show s.val = if (512 : Nat) = 1 then 0 else s.val; rw [if_neg (by decide)]
          | ⟨2, _⟩ => by show 0 = if (1 : Nat) = 1 then 0 else e.val; rw [if_pos rfl])).trans ?_
      exact broadcastInDim_apply ![0, 1] bcast_S32x512_S32x512x1_0_1 a1 _ (ValueIdx.ix2 b s) (fun a => match a with
          | ⟨0, _⟩ => by show b.val = if (32 : Nat) = 1 then 0 else b.val; rw [if_neg (by decide)]
          | ⟨1, _⟩ => by show s.val = if (512 : Nat) = 1 then 0 else s.val; rw [if_neg (by decide)])
  ·
    unfold poolDen msum
    refine (broadcastInDim_apply ![0, 1] bcast_S32x1_S32x1024_0_1 _ _ (ValueIdx.ix2 b (0 : Fin 1)) (fun a => match a with
        | ⟨0, _⟩ => by show b.val = if (32 : Nat) = 1 then 0 else b.val; rw [if_neg (by decide)]
        | ⟨1, _⟩ => by show 0 = if (1 : Nat) = 1 then 0 else e.val; rw [if_pos rfl])).trans ?_
    refine (broadcastInDim_apply ![0] bcast_S32_S32x1_0 _ _ (ValueIdx.ix1 b) (fun a => match a with
        | ⟨0, _⟩ => by show b.val = if (32 : Nat) = 1 then 0 else b.val; rw [if_neg (by decide)])).trans ?_
    exact sumMask_apply a1 b

end Reads

end Cert.RefSide

end
-- ==== Proof.FinR.lean ====
import proofs.«423535_j34024730919221_3_alg».proof.Defs
import proofs.«423535_j34024730919221_3_alg».proof.Proof.Ref2
import proofs.«423535_j34024730919221_3_alg».proof.Proof.Gen.ReferenceIdeal
import proofs.«423535_j34024730919221_3_alg».proof.Proof.Gen.Pre_finite_inputs

noncomputable section

namespace Cert.FinR

open Cert.ReferenceIdeal Idealize.ShloMosaic Idealize.SL.Sem

theorem frame_ri : Cert.frame_ReferenceIdeal (hReferenceIdeal := Cert.ReferenceIdeal.Gen.facts)
    (hPre_finite_inputs := Cert.Pre_finite_inputs.Gen.facts) :=
  fun m g _ => (θ_run (defs (F := Ideal)) _ _).mono (fun _ h c => (h c).2) (Cert.RefSide.run m g)

theorem ext_ix2 {n0 n1 : Nat} {α : Type} (f g : (⟨2, ![n0, n1]⟩ : Shape).Idx → α)
    (h : ∀ (b : Fin n0) (e : Fin n1), f (ValueIdx.ix2 b e) = g (ValueIdx.ix2 b e)) : f = g :=
  funext fun j => by rw [ValueIdx.eq_ix2 j]; exact h (j 0) (j 1)

end Cert.FinR

end
-- ==== Proof.Final.lean ====
import proofs.«423535_j34024730919221_3_alg».proof.Defs
import proofs.«423535_j34024730919221_3_alg».proof.Proof.Gen.Kernel
import proofs.«423535_j34024730919221_3_alg».proof.Proof.Gen.KernelIdeal
import proofs.«423535_j34024730919221_3_alg».proof.Proof.Gen.ReferenceIdeal
import proofs.«423535_j34024730919221_3_alg».proof.Proof.Gen.Pre_finite_inputs
import proofs.«423535_j34024730919221_3_alg».proof.Proof.Math
import proofs.«423535_j34024730919221_3_alg».proof.Proof.PreFacts
import proofs.«423535_j34024730919221_3_alg».proof.Proof.KI.Run
import proofs.«423535_j34024730919221_3_alg».proof.Proof.KI.Pooled
import proofs.«423535_j34024730919221_3_alg».proof.Proof.Frames
import proofs.«423535_j34024730919221_3_alg».proof.Proof.KI.TailV
import proofs.«423535_j34024730919221_3_alg».proof.Proof.FinR

set_option maxRecDepth 16384

noncomputable section

namespace Cert.Proof.Fin

open Idealize.ShloMosaic Idealize.SL.Sem Idealize.ShloMosaic.ValueIdx

open Cert.KI Cert.KI.Glue in

theorem pooled_eq (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    X1 m (Cert.KI.ok m) c (Proc.devRef .tc Cert.KernelIdeal.main_v38)
      = Cert.RefSide.pooledR (F := Ideal) (m ((c.tc : Thread Cert.KernelIdeal.nD Cert.KernelIdeal.τ).loc Cert.KernelIdeal.main_arg0))
          (m ((c.tc : Thread _ _).loc Cert.KernelIdeal.main_arg1)) (m ((c.tc : Thread _ _).loc Cert.KernelIdeal.main_arg2))
          (m ((c.tc : Thread _ _).loc Cert.KernelIdeal.main_arg4)) (m ((c.tc : Thread _ _).loc Cert.KernelIdeal.main_arg5))
          (m ((c.tc : Thread _ _).loc Cert.KernelIdeal.main_arg6)) (m ((c.tc : Thread _ _).loc Cert.KernelIdeal.main_arg7))
          (m ((c.tc : Thread _ _).loc Cert.KernelIdeal.main_arg8)) (m ((c.tc : Thread _ _).loc Cert.KernelIdeal.main_arg9)) := by
  have h := hpre c
  refine Cert.FinR.ext_ix2 _ _ fun b e => ?_
  refine (pooled_kpool m (Cert.KI.ok m) c
    (fun b s k => Cert.PreF.real_arg0 h _) (fun b s => Cert.PreF.real_arg1 h _) (fun l k e => Cert.PreF.real_arg4 h _)
    (fun l e => Cert.PreF.real_arg5 h _) (fun l e => Cert.PreF.real_arg6 h _) (fun l e => Cert.PreF.real_arg7 h _)
    (fun l k e => Cert.PreF.real_arg8 h _) (fun l e => Cert.PreF.real_arg9 h _) b e).trans ?_
  refine (Cert.Pool.kpool_eq_rpool _ _ _ _ _ _ _ _ _ (fun b => Cert.PreF.mask_sum_ne h b) b e).trans ?_
  exact (Cert.RefSide.ref_pooled _ _ _ _ _ _ _ _ _ b e).symm

theorem preserves : Cert.preserves_Kernel_KernelIdeal :=
  ⟨IdealRules.truncf_extf.statement Cert.KernelIdeal.S512x1024 .f32 .bf16,
   IdealRules.truncf_extf.statement Cert.KernelIdeal.S1024x1024 .f32 .bf16,
   IdealRules.truncf_extf.statement Cert.KernelIdeal.S512x1024 .f32 .bf16,
   IdealRules.truncf_extf.statement Cert.KernelIdeal.S1024x1024 .f32 .bf16,
   IdealRules.truncf_extf.statement Cert.KernelIdeal.S1x512 .f32 .bf16,
   IdealRules.truncf_extf.statement Cert.KernelIdeal.S512x1024 .f32 .bf16⟩

open Cert.KernelIdeal in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.RefSide.v0R m' c, ?_, Cert.RefSide.run m' g'⟩
  refine (θ_run Cert.KernelIdeal.defs _ _).mono (fun r h c => ?_) (Cert.KI.run_main m g (Cert.KI.ok m))
  obtain ⟨e0, e1, e2, e3, e4, e5, e6, e7, e8, e9, e10, e11, e12, e13⟩ := hagree c
  have k := Cert.KI.kept m (Cert.KI.ok m) c (h c)
  refine ⟨?_, k main_arg0 (by decide), k main_arg1 (by decide), k main_arg2 (by decide), k main_arg3 (by decide), k main_arg4 (by decide), k main_arg5 (by decide), k main_arg6 (by decide),
    k main_arg7 (by decide), k main_arg8 (by decide), k main_arg9 (by decide), k main_arg10 (by decide), k main_arg11 (by decide), k main_arg12 (by decide), k main_arg13 (by decide)⟩
  refine (h c _ Cert.KI.mem_S'_v68).trans ?_
  rw [Cert.KI.X2_v68 m (Cert.KI.ok m) c, pooled_eq m hpre c]
  show _ = Cert.RefSide.v0R m' c
  unfold Cert.RefSide.v0R
  rw [e0, e1, e2, e3, e4, e5, e6, e7, e8, e9, e10, e11, e12, e13]

end Cert.Proof.Fin

end
-- ==== Proof.lean ====
import proofs.«423535_j34024730919221_3_alg».proof.Defs
import proofs.«423535_j34024730919221_3_alg».proof.Proof.Gen.Kernel
import proofs.«423535_j34024730919221_3_alg».proof.Proof.Gen.Kernel.Skeleton
import proofs.«423535_j34024730919221_3_alg».proof.Proof.Gen.Kernel.Launch
import proofs.«423535_j34024730919221_3_alg».proof.Proof.Gen.Kernel.Flash
import proofs.«423535_j34024730919221_3_alg».proof.Proof.Gen.KernelIdeal
import proofs.«423535_j34024730919221_3_alg».proof.Proof.Gen.KernelIdeal.Skeleton
import proofs.«423535_j34024730919221_3_alg».proof.Proof.Gen.KernelIdeal.Launch
import proofs.«423535_j34024730919221_3_alg».proof.Proof.Gen.KernelIdeal.Flash
import proofs.«423535_j34024730919221_3_alg».proof.Proof.Gen.ReferenceIdeal
import proofs.«423535_j34024730919221_3_alg».proof.Proof.Gen.Pre_finite_inputs
import proofs.«423535_j34024730919221_3_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Fin.frame_k, Cert.Proof.Fin.frame_ki, Cert.FinR.frame_ri, Cert.Proof.Fin.preserves, Cert.Proof.Fin.algebraic⟩

end Cert.Proof

end
